-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x512 : Shape := ⟨3, ![1, 1024, 512]⟩
abbrev S512 : Shape := ⟨1, ![512]⟩
abbrev S_ : Shape := ⟨0, ![]⟩

class Facts : Prop where
  bcast_S_S1x1024x512 : S_.BroadcastsInDim S1x1024x512 (![] : Fin 0 → Fin S1x1024x512.rank)
  reducesTo_S1x1024x512_S_d0_1_2 : S1x1024x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S1x1024x512 .f32) (main_arg1 : FVec F S512 .f32) : IVec S_ 1 :=
  let main_v0 : FVec F S1x1024x512 .f32 := Host.absf main_arg0
  let main_cst : FVec F S_ .f32 := constant S_ .f32 0x7F800000#32
  let main_v1 : FVec F S1x1024x512 .f32 := broadcastInDim S1x1024x512 ![] bcast_S_S1x1024x512 main_cst
  let main_v2 : IVec S1x1024x512 1 := cmpf .olt main_v0 main_v1
  let main_c : IVec S_ 1 := constantI S_ 1 1#1
  let main_v3 : IVec S_ 1 := (fun x v => Host.reduce IntOp.andi x v reducesTo_S1x1024x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Pre_finite_inputs_ReferenceIdeal.lean ====
abbrev S2x1024x512 : Shape := ⟨3, ![2, 1024, 512]⟩
abbrev S512 : Shape := ⟨1, ![512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S2x1024x512 .f32) (main_arg1 : FVec F S512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S1x1024x512 : Shape := ⟨3, ![1, 1024, 512]⟩
abbrev S512 : Shape := ⟨1, ![512]⟩
abbrev S512x512 : Shape := ⟨2, ![512, 512]⟩
abbrev S288x512 : Shape := ⟨2, ![288, 512]⟩
abbrev S32x512 : Shape := ⟨2, ![32, 512]⟩
abbrev S_ : Shape := ⟨0, ![]⟩
abbrev S9 : Shape := ⟨1, ![9]⟩
abbrev S7 : Shape := ⟨1, ![7]⟩
abbrev S256x512 : Shape := ⟨2, ![256, 512]⟩
abbrev S1024x512 : Shape := ⟨2, ![1024, 512]⟩
abbrev S1 : Shape := ⟨1, ![1]⟩
abbrev S1x512 : Shape := ⟨2, ![1, 512]⟩
abbrev S32 : Shape := ⟨1, ![32]⟩
abbrev S32x1 : Shape := ⟨2, ![32, 1]⟩

abbrev nBuf : Space → Nat
  | .hbm => 3
  | .vmem => 5
  | .smem => 0
  | _ => 0

abbrev bufTy : (tb : Table) → Fin (tcTables nBuf tb) → BufTy
  | .hbm, ⟨0, _⟩ => ⟨S1x1024x512, .f32⟩
  | .hbm, ⟨1, _⟩ => ⟨S512, .f32⟩
  | .hbm, ⟨2, _⟩ => ⟨S512x512, .f32⟩
  | .local _ .vmem, ⟨0, _⟩ => ⟨S512, .f32⟩
  | .local _ .vmem, ⟨1, _⟩ => ⟨S512x512, .f32⟩
  | .local _ .vmem, ⟨2, _⟩ => ⟨S288x512, .f32⟩
  | .local _ .vmem, ⟨3, _⟩ => ⟨S288x512, .f32⟩
  | .local _ .vmem, ⟨4, _⟩ => ⟨S32x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v11 : BitVec 32 := Scalar.muli v5 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v14 : BitVec 32 := Scalar.muli v2 c256_i32
  let v19 : BitVec 32 := Scalar.addi v11 v14
  let c0_i32_13 : BitVec 32 := 0#32
  ![v19.toNat, 0]
def k0_off2 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v11 : BitVec 32 := Scalar.muli v5 c512_i32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.subi c1_i32_6 v2
  let c256_i32_7 : BitVec 32 := 256#32
  let v16 : BitVec 32 := Scalar.muli v15 c256_i32_7
  let c256_i32_8 : BitVec 32 := 256#32
  let v17 : BitVec 32 := Scalar.addi v16 c256_i32_8
  let c32_i32 : BitVec 32 := 32#32
  let v18 : BitVec 32 := Scalar.subi v17 c32_i32
  let v20 : BitVec 32 := Scalar.addi v11 v18
  let c0_i32_19 : BitVec 32 := 0#32
  ![v20.toNat, 0]
def k0_off3 (d0 : Dev nD) (c0_i32_20 : BitVec 32) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c512_i32_5 : BitVec 32 := 512#32
  let v13 : BitVec 32 := Scalar.muli v12 c512_i32_5
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v14 : BitVec 32 := Scalar.muli v2 c256_i32
  let v29 : BitVec 32 := Scalar.addi v14 c0_i32_20
  let v30 : BitVec 32 := Scalar.addi v13 v29
  let c0_i32_24 : BitVec 32 := 0#32
  ![v30.toNat, 0]
def k0_dev1 (d0 : Dev nD) : Nat :=
  let c0_i32_27 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_26 : BitVec 32 := 8#32
  let v35 : BitVec 32 := Scalar.muli v2 c8_i32_26
  let v36 : BitVec 32 := Scalar.addi c0_i32_27 v35
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_28 : BitVec 32 := 4#32
  let v37 : BitVec 32 := Scalar.muli v9 c4_i32_28
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v39 : BitVec 32 := Scalar.muli v8 c1_i32_29
  let v40 : BitVec 32 := Scalar.addi v38 v39
  v40.toNat
def k0_dev2 (d0 : Dev nD) : Nat :=
  let c0_i32_32 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_31 : BitVec 32 := 8#32
  let v41 : BitVec 32 := Scalar.muli v10 c8_i32_31
  let v42 : BitVec 32 := Scalar.addi c0_i32_32 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v43 : BitVec 32 := Scalar.muli v5 c4_i32_33
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v45 : BitVec 32 := Scalar.muli v8 c1_i32_34
  let v46 : BitVec 32 := Scalar.addi v44 v45
  v46.toNat
def k0_dev3 (d0 : Dev nD) : Nat :=
  let c0_i32_43 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_42 : BitVec 32 := 8#32
  let v50 : BitVec 32 := Scalar.muli v2 c8_i32_42
  let v51 : BitVec 32 := Scalar.addi c0_i32_43 v50
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_44 : BitVec 32 := 4#32
  let v52 : BitVec 32 := Scalar.muli v9 c4_i32_44
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v54 : BitVec 32 := Scalar.muli v8 c1_i32_45
  let v55 : BitVec 32 := Scalar.addi v53 v54
  v55.toNat
def k0_dev4 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v63 : BitVec 32 := Scalar.muli v2 c8_i32_52
  let v64 : BitVec 32 := Scalar.addi c0_i32_53 v63
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_54 : BitVec 32 := 4#32
  let v65 : BitVec 32 := Scalar.muli v9 c4_i32_54
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v67 : BitVec 32 := Scalar.muli v8 c1_i32_55
  let v68 : BitVec 32 := Scalar.addi v66 v67
  v68.toNat
def k0_dev5 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_64 : BitVec 32 := 8#32
  let v79 : BitVec 32 := Scalar.muli v2 c8_i32_64
  let v80 : BitVec 32 := Scalar.addi c0_i32_65 v79
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_66 : BitVec 32 := 4#32
  let v81 : BitVec 32 := Scalar.muli v9 c4_i32_66
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v83 : BitVec 32 := Scalar.muli v8 c1_i32_67
  let v84 : BitVec 32 := Scalar.addi v82 v83
  v84.toNat
def k0_dev6 (d0 : Dev nD) : Nat :=
  let c0_i32_76 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_75 : BitVec 32 := 8#32
  let v95 : BitVec 32 := Scalar.muli v2 c8_i32_75
  let v96 : BitVec 32 := Scalar.addi c0_i32_76 v95
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_77 : BitVec 32 := 4#32
  let v97 : BitVec 32 := Scalar.muli v9 c4_i32_77
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v99 : BitVec 32 := Scalar.muli v8 c1_i32_78
  let v100 : BitVec 32 := Scalar.addi v98 v99
  v100.toNat
def k0_dev7 (d0 : Dev nD) : Nat :=
  let c0_i32_88 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_87 : BitVec 32 := 8#32
  let v111 : BitVec 32 := Scalar.muli v2 c8_i32_87
  let v112 : BitVec 32 := Scalar.addi c0_i32_88 v111
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_89 : BitVec 32 := 4#32
  let v113 : BitVec 32 := Scalar.muli v9 c4_i32_89
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v115 : BitVec 32 := Scalar.muli v8 c1_i32_90
  let v116 : BitVec 32 := Scalar.addi v114 v115
  v116.toNat
def k0_dev8 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v127 : BitVec 32 := Scalar.muli v2 c8_i32_98
  let v128 : BitVec 32 := Scalar.addi c0_i32_99 v127
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_100 : BitVec 32 := 4#32
  let v129 : BitVec 32 := Scalar.muli v9 c4_i32_100
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v131 : BitVec 32 := Scalar.muli v8 c1_i32_101
  let v132 : BitVec 32 := Scalar.addi v130 v131
  v132.toNat
def k0_dev9 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_109 : BitVec 32 := 8#32
  let v143 : BitVec 32 := Scalar.muli v2 c8_i32_109
  let v144 : BitVec 32 := Scalar.addi c0_i32_110 v143
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_111 : BitVec 32 := 4#32
  let v145 : BitVec 32 := Scalar.muli v9 c4_i32_111
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v147 : BitVec 32 := Scalar.muli v8 c1_i32_112
  let v148 : BitVec 32 := Scalar.addi v146 v147
  v148.toNat
def k0_dev10 (d0 : Dev nD) : Nat :=
  let c0_i32_121 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_120 : BitVec 32 := 8#32
  let v159 : BitVec 32 := Scalar.muli v2 c8_i32_120
  let v160 : BitVec 32 := Scalar.addi c0_i32_121 v159
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_122 : BitVec 32 := 4#32
  let v161 : BitVec 32 := Scalar.muli v9 c4_i32_122
  let v162 : BitVec 32 := Scalar.addi v160 v161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v163 : BitVec 32 := Scalar.muli v8 c1_i32_123
  let v164 : BitVec 32 := Scalar.addi v162 v163
  v164.toNat
def k0_off4 (d0 : Dev nD) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c512_i32_5 : BitVec 32 := 512#32
  let v13 : BitVec 32 := Scalar.muli v12 c512_i32_5
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.subi c1_i32_6 v2
  let c256_i32_7 : BitVec 32 := 256#32
  let v16 : BitVec 32 := Scalar.muli v15 c256_i32_7
  let c256_i32_8 : BitVec 32 := 256#32
  let v17 : BitVec 32 := Scalar.addi v16 c256_i32_8
  let c32_i32 : BitVec 32 := 32#32
  let v18 : BitVec 32 := Scalar.subi v17 c32_i32
  let c0_i32_129 : BitVec 32 := 0#32
  let v173 : BitVec 32 := Scalar.addi v18 c0_i32_129
  let v174 : BitVec 32 := Scalar.addi v13 v173
  let c0_i32_141 : BitVec 32 := 0#32
  ![v174.toNat, 0]
def k0_dev11 (d0 : Dev nD) : Nat :=
  let c0_i32_134 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_133 : BitVec 32 := 8#32
  let v175 : BitVec 32 := Scalar.muli v2 c8_i32_133
  let v176 : BitVec 32 := Scalar.addi c0_i32_134 v175
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_135 : BitVec 32 := 4#32
  let v177 : BitVec 32 := Scalar.muli v9 c4_i32_135
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v179 : BitVec 32 := Scalar.muli v8 c1_i32_136
  let v180 : BitVec 32 := Scalar.addi v178 v179
  v180.toNat
def k0_off5 (d0 : Dev nD) (c0_i32_154 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v14 : BitVec 32 := Scalar.muli v2 c256_i32
  let v200 : BitVec 32 := Scalar.addi v14 c0_i32_154
  let v225 : Index := Scalar.indexCast v200
  let c0_169 : Index := 0#32
  ![v225.toNat, 0]
def k0_off6 (d0 : Dev nD) (c0_i32_154 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v14 : BitVec 32 := Scalar.muli v2 c256_i32
  let v200 : BitVec 32 := Scalar.addi v14 c0_i32_154
  let c0_i32_176 : BitVec 32 := 0#32
  ![v200.toNat, 0]
def k0_dev12 (d0 : Dev nD) : Nat :=
  let c0_i32_173 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_172 : BitVec 32 := 8#32
  let v227 : BitVec 32 := Scalar.muli v10 c8_i32_172
  let v228 : BitVec 32 := Scalar.addi c0_i32_173 v227
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_174 : BitVec 32 := 4#32
  let v229 : BitVec 32 := Scalar.muli v5 c4_i32_174
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v231 : BitVec 32 := Scalar.muli v8 c1_i32_175
  let v232 : BitVec 32 := Scalar.addi v230 v231
  v232.toNat
def k0_dev13 (d0 : Dev nD) : Nat :=
  let c0_i32_201 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_200 : BitVec 32 := 8#32
  let v269 : BitVec 32 := Scalar.muli v10 c8_i32_200
  let v270 : BitVec 32 := Scalar.addi c0_i32_201 v269
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_202 : BitVec 32 := 4#32
  let v271 : BitVec 32 := Scalar.muli v5 c4_i32_202
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v273 : BitVec 32 := Scalar.muli v8 c1_i32_203
  let v274 : BitVec 32 := Scalar.addi v272 v273
  v274.toNat
def k0_dev14 (d0 : Dev nD) : Nat :=
  let c0_i32_229 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_228 : BitVec 32 := 8#32
  let v311 : BitVec 32 := Scalar.muli v10 c8_i32_228
  let v312 : BitVec 32 := Scalar.addi c0_i32_229 v311
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_230 : BitVec 32 := 4#32
  let v313 : BitVec 32 := Scalar.muli v5 c4_i32_230
  let v314 : BitVec 32 := Scalar.addi v312 v313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_231 : BitVec 32 := 1#32
  let v315 : BitVec 32 := Scalar.muli v8 c1_i32_231
  let v316 : BitVec 32 := Scalar.addi v314 v315
  v316.toNat
def k0_dev15 (d0 : Dev nD) : Nat :=
  let c0_i32_257 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_256 : BitVec 32 := 8#32
  let v353 : BitVec 32 := Scalar.muli v10 c8_i32_256
  let v354 : BitVec 32 := Scalar.addi c0_i32_257 v353
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_258 : BitVec 32 := 4#32
  let v355 : BitVec 32 := Scalar.muli v5 c4_i32_258
  let v356 : BitVec 32 := Scalar.addi v354 v355
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v357 : BitVec 32 := Scalar.muli v8 c1_i32_259
  let v358 : BitVec 32 := Scalar.addi v356 v357
  v358.toNat
def k0_dev16 (d0 : Dev nD) : Nat :=
  let c0_i32_285 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_284 : BitVec 32 := 8#32
  let v395 : BitVec 32 := Scalar.muli v10 c8_i32_284
  let v396 : BitVec 32 := Scalar.addi c0_i32_285 v395
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_286 : BitVec 32 := 4#32
  let v397 : BitVec 32 := Scalar.muli v5 c4_i32_286
  let v398 : BitVec 32 := Scalar.addi v396 v397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v399 : BitVec 32 := Scalar.muli v8 c1_i32_287
  let v400 : BitVec 32 := Scalar.addi v398 v399
  v400.toNat
def k0_dev17 (d0 : Dev nD) : Nat :=
  let c0_i32_313 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_312 : BitVec 32 := 8#32
  let v437 : BitVec 32 := Scalar.muli v10 c8_i32_312
  let v438 : BitVec 32 := Scalar.addi c0_i32_313 v437
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v439 : BitVec 32 := Scalar.muli v5 c4_i32_314
  let v440 : BitVec 32 := Scalar.addi v438 v439
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_315 : BitVec 32 := 1#32
  let v441 : BitVec 32 := Scalar.muli v8 c1_i32_315
  let v442 : BitVec 32 := Scalar.addi v440 v441
  v442.toNat
def k0_dev18 (d0 : Dev nD) : Nat :=
  let c0_i32_341 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_340 : BitVec 32 := 8#32
  let v479 : BitVec 32 := Scalar.muli v10 c8_i32_340
  let v480 : BitVec 32 := Scalar.addi c0_i32_341 v479
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_342 : BitVec 32 := 4#32
  let v481 : BitVec 32 := Scalar.muli v5 c4_i32_342
  let v482 : BitVec 32 := Scalar.addi v480 v481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v483 : BitVec 32 := Scalar.muli v8 c1_i32_343
  let v484 : BitVec 32 := Scalar.addi v482 v483
  v484.toNat
def k0_off7 (d0 : Dev nD) : Fin 2 → Nat :=
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.subi c1_i32_6 v2
  let c256_i32_7 : BitVec 32 := 256#32
  let v16 : BitVec 32 := Scalar.muli v15 c256_i32_7
  let c256_i32_8 : BitVec 32 := 256#32
  let v17 : BitVec 32 := Scalar.addi v16 c256_i32_8
  let c32_i32 : BitVec 32 := 32#32
  let v18 : BitVec 32 := Scalar.subi v17 c32_i32
  let c0_i32_366 : BitVec 32 := 0#32
  let v521 : BitVec 32 := Scalar.addi v18 c0_i32_366
  let v549 : Index := Scalar.indexCast v521
  let c0_385 : Index := 0#32
  ![v549.toNat, 0]
abbrev stage0_0 : Fin 1 → Memref sig .tc .vmem S512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S288x512_S256x512_0_0 : ∀ a, (![0, 0] : Fin 2 → Nat) a + S256x512.size a ≤ S288x512.size a
  inb_S1x1024x512_S1x1024x512_0_0_0 : ∀ a, (![0, 0, 0] : Fin 3 → Nat) a + S1x1024x512.size a ≤ S1x1024x512.size a
  squeezes_S1x1024x512_S1024x512 : S1x1024x512.Squeezes S1024x512
  inb_S288x512_S32x512_256_0 : ∀ a, (![256, 0] : Fin 2 → Nat) a + S32x512.size a ≤ S288x512.size a
  hamt_1 : (1#32 : BitVec 32).msb = false
  hamt_2 : (2#32 : BitVec 32).msb = false
  inb_S9_S1_0 : ∀ a, (![0] : Fin 1 → Nat) a + S1.size a ≤ S9.size a
  squeezes_S1_S_ : S1.Squeezes S_
  inb_S288x512_S32x512_0_0 : ∀ a, (![0, 0] : Fin 2 → Nat) a + S32x512.size a ≤ S288x512.size a
  inb_S9_S1_1 : ∀ a, (![1] : Fin 1 → Nat) a + S1.size a ≤ S9.size a
  inb_S288x512_S32x512_32_0 : ∀ a, (![32, 0] : Fin 2 → Nat) a + S32x512.size a ≤ S288x512.size a
  inb_S9_S1_2 : ∀ a, (![2] : Fin 1 → Nat) a + S1.size a ≤ S9.size a
  inb_S288x512_S32x512_64_0 : ∀ a, (![64, 0] : Fin 2 → Nat) a + S32x512.size a ≤ S288x512.size a
  inb_S9_S1_3 : ∀ a, (![3] : Fin 1 → Nat) a + S1.size a ≤ S9.size a
  inb_S288x512_S32x512_96_0 : ∀ a, (![96, 0] : Fin 2 → Nat) a + S32x512.size a ≤ S288x512.size a
  inb_S9_S1_4 : ∀ a, (![4] : Fin 1 → Nat) a + S1.size a ≤ S9.size a
  inb_S288x512_S32x512_128_0 : ∀ a, (![128, 0] : Fin 2 → Nat) a + S32x512.size a ≤ S288x512.size a
  inb_S9_S1_5 : ∀ a, (![5] : Fin 1 → Nat) a + S1.size a ≤ S9.size a
  inb_S288x512_S32x512_160_0 : ∀ a, (![160, 0] : Fin 2 → Nat) a + S32x512.size a ≤ S288x512.size a
  inb_S9_S1_6 : ∀ a, (![6] : Fin 1 → Nat) a + S1.size a ≤ S9.size a
  inb_S288x512_S32x512_192_0 : ∀ a, (![192, 0] : Fin 2 → Nat) a + S32x512.size a ≤ S288x512.size a
  inb_S9_S1_7 : ∀ a, (![7] : Fin 1 → Nat) a + S1.size a ≤ S9.size a
  inb_S288x512_S32x512_224_0 : ∀ a, (![224, 0] : Fin 2 → Nat) a + S32x512.size a ≤ S288x512.size a
  inb_S9_S1_8 : ∀ a, (![8] : Fin 1 → Nat) a + S1.size a ≤ S9.size a
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  h_S32x512 : 0 < S32x512.numel
  reduces_S32x512_S32 : S32x512.Reduces [1] S32
  shapeCasts_S32_S32x1 : S32.ShapeCasts S32x1
  broadcasts_S32x1_S32x512 : S32x1.Broadcasts S32x512
  broadcasts_S1x512_S32x512 : S1x512.Broadcasts S32x512
  inb_S7_S1_0 : ∀ a, (![0] : Fin 1 → Nat) a + S1.size a ≤ S7.size a
  inb_S7_S1_1 : ∀ a, (![1] : Fin 1 → Nat) a + S1.size a ≤ S7.size a
  inb_S7_S1_2 : ∀ a, (![2] : Fin 1 → Nat) a + S1.size a ≤ S7.size a
  inb_S7_S1_3 : ∀ a, (![3] : Fin 1 → Nat) a + S1.size a ≤ S7.size a
  inb_S7_S1_4 : ∀ a, (![4] : Fin 1 → Nat) a + S1.size a ≤ S7.size a
  inb_S7_S1_5 : ∀ a, (![5] : Fin 1 → Nat) a + S1.size a ≤ S7.size a
  inb_S7_S1_6 : ∀ a, (![6] : Fin 1 → Nat) a + S1.size a ≤ S7.size a
  hcc0_scratch3 : 2 + S_.numel ≤ 36
  hcc0_scratch4 : 3 + S_.numel ≤ 36
  hcc0_scratch5 : 4 + S9.numel ≤ 36
  hcc0_scratch6 : 13 + S9.numel ≤ 36
  hcc0_scratch7 : 22 + S7.numel ≤ 36
  hcc0_scratch8 : 29 + S7.numel ≤ 36
  k0_off1_inb : ∀ d0 : Dev nD, ∀ a, (k0_off1 d0) a + S256x512.size a ≤ S1024x512.size a
  k0_off2_inb : ∀ d0 : Dev nD, ∀ a, (k0_off2 d0) a + S32x512.size a ≤ S1024x512.size a
  k0_off3_inb : ∀ d0 : Dev nD, ∀ (r : Fin 8), ∀ a, (k0_off3 d0 (BitVec.ofNat 32 (32 * r.val))) a + S32x512.size a ≤ S1024x512.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off4_inb : ∀ d0 : Dev nD, ∀ a, (k0_off4 d0) a + S32x512.size a ≤ S1024x512.size a
  k0_dev11_lt : ∀ d0 : Dev nD, (k0_dev11 d0) < nD
  k0_off5_inb : ∀ d0 : Dev nD, ∀ (r : Fin 8), ∀ a, (k0_off5 d0 (BitVec.ofNat 32 (32 * r.val))) a + S32x512.size a ≤ S512x512.size a
  k0_off6_inb : ∀ d0 : Dev nD, ∀ (r : Fin 7), ∀ a, (k0_off6 d0 (BitVec.ofNat 32 (32 * r.val))) a + S32x512.size a ≤ S512x512.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off7_inb : ∀ d0 : Dev nD, ∀ a, (k0_off7 d0) a + S32x512.size a ≤ S512x512.size a
  hstage0_0 : ∀ j, (stage0_0 j).IsWhole
  hstage0_1 : ∀ j, (stage0_1 j).IsWhole

variable [Facts₀]

abbrev cc0_scratch3 : DmaSems sig S_ := SemArray.consecutive 2 S_ hcc0_scratch3
abbrev cc0_scratch4 : DmaSems sig S_ := SemArray.consecutive 3 S_ hcc0_scratch4
abbrev cc0_scratch5 : DmaSems sig S9 := SemArray.consecutive 4 S9 hcc0_scratch5
abbrev cc0_scratch6 : DmaSems sig S9 := SemArray.consecutive 13 S9 hcc0_scratch6
abbrev cc0_scratch7 : DmaSems sig S7 := SemArray.consecutive 22 S7 hcc0_scratch7
abbrev cc0_scratch8 : DmaSems sig S7 := SemArray.consecutive 29 S7 hcc0_scratch8

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x1024x512 : Shape := ⟨3, ![2, 1024, 512]⟩
abbrev S512 : Shape := ⟨1, ![512]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512, .f32⟩
  | .hbm, ⟨2, _⟩ => ⟨S_, .f32⟩
  | .hbm, ⟨3, _⟩ => ⟨S1024x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x512, .f32⟩
  | .hbm, ⟨16, _⟩ => ⟨S1024x512, .f32⟩
  | .hbm, ⟨17, _⟩ => ⟨S1x512, .f32⟩
  | .hbm, ⟨18, _⟩ => ⟨S1024x512, .f32⟩
  | .hbm, ⟨19, _⟩ => ⟨S1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S2x1024x512_S1024x512_d0 : S2x1024x512.ReducesTo [0] S1024x512
  h_S_ : 0 < S_.numel
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)

variable [Facts₀]

class Facts : Prop extends Facts₀ where

variable [Facts]
-- ==== Proof.Proto.Defs.lean ====
import proofs.«900599_g7700000000000600_dist_rsrms_v7x_xyz2x2x4_y_m512_d512_f32_1_alg».proof.Proof.Gen.KernelIdeal
import proofs.«900599_g7700000000000600_dist_rsrms_v7x_xyz2x2x4_y_m512_d512_f32_1_alg».proof.Proof.Gen.KernelIdeal.Skeleton
import proofs.«900599_g7700000000000600_dist_rsrms_v7x_xyz2x2x4_y_m512_d512_f32_1_alg».proof.Proof.Gen.KernelIdeal.Launch
import proofs.«900599_g7700000000000600_dist_rsrms_v7x_xyz2x2x4_y_m512_d512_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- The device with the other y-coordinate: it holds the other partial sum of this device's rows. -/
def yp (c : Dev nD) : Dev nD := ⟨k0_dev1 c, k0_dev1_lt c⟩
/-- The device with the other x-coordinate: it owns the same output half and computes the complementary tiles. -/
def xp (c : Dev nD) : Dev nD := ⟨k0_dev2 c, k0_dev2_lt c⟩

theorem yp_yp : ∀ c : Dev nD, yp (yp c) = c := by decide +kernel
theorem xp_xp : ∀ c : Dev nD, xp (xp c) = c := by decide +kernel

theorem dev3_eq (c : Dev nD) : (⟨k0_dev3 c, k0_dev3_lt c⟩ : Dev nD) = yp c := Fin.ext ((k0_dev3_eq c).trans (k0_dev1_eq c).symm)
theorem dev4_eq (c : Dev nD) : (⟨k0_dev4 c, k0_dev4_lt c⟩ : Dev nD) = yp c := Fin.ext ((k0_dev4_eq c).trans (k0_dev1_eq c).symm)
theorem dev5_eq (c : Dev nD) : (⟨k0_dev5 c, k0_dev5_lt c⟩ : Dev nD) = yp c := Fin.ext ((k0_dev5_eq c).trans (k0_dev1_eq c).symm)
theorem dev6_eq (c : Dev nD) : (⟨k0_dev6 c, k0_dev6_lt c⟩ : Dev nD) = yp c := Fin.ext ((k0_dev6_eq c).trans (k0_dev1_eq c).symm)
theorem dev7_eq (c : Dev nD) : (⟨k0_dev7 c, k0_dev7_lt c⟩ : Dev nD) = yp c := Fin.ext ((k0_dev7_eq c).trans (k0_dev1_eq c).symm)
theorem dev8_eq (c : Dev nD) : (⟨k0_dev8 c, k0_dev8_lt c⟩ : Dev nD) = yp c := Fin.ext ((k0_dev8_eq c).trans (k0_dev1_eq c).symm)
theorem dev9_eq (c : Dev nD) : (⟨k0_dev9 c, k0_dev9_lt c⟩ : Dev nD) = yp c := Fin.ext ((k0_dev9_eq c).trans (k0_dev1_eq c).symm)
theorem dev10_eq (c : Dev nD) : (⟨k0_dev10 c, k0_dev10_lt c⟩ : Dev nD) = yp c := Fin.ext ((k0_dev10_eq c).trans (k0_dev1_eq c).symm)
theorem dev11_eq (c : Dev nD) : (⟨k0_dev11 c, k0_dev11_lt c⟩ : Dev nD) = yp c := Fin.ext ((k0_dev11_eq c).trans (k0_dev1_eq c).symm)
theorem dev12_eq (c : Dev nD) : (⟨k0_dev12 c, k0_dev12_lt c⟩ : Dev nD) = xp c := Fin.ext ((k0_dev12_eq c).trans (k0_dev2_eq c).symm)
theorem dev13_eq (c : Dev nD) : (⟨k0_dev13 c, k0_dev13_lt c⟩ : Dev nD) = xp c := Fin.ext ((k0_dev13_eq c).trans (k0_dev2_eq c).symm)
theorem dev14_eq (c : Dev nD) : (⟨k0_dev14 c, k0_dev14_lt c⟩ : Dev nD) = xp c := Fin.ext ((k0_dev14_eq c).trans (k0_dev2_eq c).symm)
theorem dev15_eq (c : Dev nD) : (⟨k0_dev15 c, k0_dev15_lt c⟩ : Dev nD) = xp c := Fin.ext ((k0_dev15_eq c).trans (k0_dev2_eq c).symm)
theorem dev16_eq (c : Dev nD) : (⟨k0_dev16 c, k0_dev16_lt c⟩ : Dev nD) = xp c := Fin.ext ((k0_dev16_eq c).trans (k0_dev2_eq c).symm)
theorem dev17_eq (c : Dev nD) : (⟨k0_dev17 c, k0_dev17_lt c⟩ : Dev nD) = xp c := Fin.ext ((k0_dev17_eq c).trans (k0_dev2_eq c).symm)
theorem dev18_eq (c : Dev nD) : (⟨k0_dev18 c, k0_dev18_lt c⟩ : Dev nD) = xp c := Fin.ext ((k0_dev18_eq c).trans (k0_dev2_eq c).symm)

abbrev A0 : Memref sig .tc .hbm S1x1024x512 .f32 := Memref.whole main_arg0
abbrev A2 : Memref sig .tc .hbm S1024x512 .f32 :=
  (A0.slice (Rect.unit (s := S1x1024x512) ![0, 0, 0] S1x1024x512.size inb_S1x1024x512_S1x1024x512_0_0_0) (fun _ => rfl)).squeeze S1024x512 squeezes_S1x1024x512_S1024x512
abbrev Lm : Memref sig .tc .vmem S288x512 .f32 := Memref.whole cc0_scratch0
abbrev Cm : Memref sig .tc .vmem S288x512 .f32 := Memref.whole cc0_scratch1
abbrev Tm : Memref sig .tc .vmem S32x512 .f32 := Memref.whole cc0_scratch2
abbrev Gm : Memref sig .tc .vmem S512 .f32 := Memref.whole cc0_stg0_0
abbrev Om : Memref sig .tc .vmem S512x512 .f32 := Memref.whole cc0_stg1_0

/-- The rows of the partial sum each copy reads: the device's own 256 rows, its 32 late rows, and the nine tiles of the y-partner's half. -/
abbrev srcA (c : Dev nD) : Memref sig .tc .hbm S256x512 .f32 :=
  A2.slice (Rect.unit (s := S1024x512) (k0_off1 c) S256x512.size (k0_off1_inb c)) (fun _ => rfl)
abbrev srcB (c : Dev nD) : Memref sig .tc .hbm S32x512 .f32 :=
  A2.slice (Rect.unit (s := S1024x512) (k0_off2 c) S32x512.size (k0_off2_inb c)) (fun _ => rfl)
abbrev srcY (c : Dev nD) (r : Fin 8) : Memref sig .tc .hbm S32x512 .f32 :=
  A2.slice (Rect.unit (s := S1024x512) (k0_off3 c (BitVec.ofNat 32 (32 * r.val))) S32x512.size (k0_off3_inb c r)) (fun _ => rfl)
abbrev srcY8 (c : Dev nD) : Memref sig .tc .hbm S32x512 .f32 :=
  A2.slice (Rect.unit (s := S1024x512) (k0_off4 c) S32x512.size (k0_off4_inb c)) (fun _ => rfl)

theorem inb288 (t : Fin 9) : ∀ a, (![32 * t.val, 0] : Fin 2 → Nat) a + S32x512.size a ≤ S288x512.size a := by
  intro a; fin_cases a
  · show 32 * t.val + 32 ≤ 288; omega
  · show 0 + 512 ≤ 512; omega

abbrev LA : Memref sig .tc .vmem S256x512 .f32 := Lm.slice (Rect.unit (s := S288x512) ![0, 0] S256x512.size inb_S288x512_S256x512_0_0) (fun _ => rfl)
abbrev LB : Memref sig .tc .vmem S32x512 .f32 := Lm.slice (Rect.unit (s := S288x512) ![256, 0] S32x512.size inb_S288x512_S32x512_256_0) (fun _ => rfl)
abbrev Lt (t : Fin 9) : Memref sig .tc .vmem S32x512 .f32 := Lm.slice (Rect.unit (s := S288x512) ![32 * t.val, 0] S32x512.size (inb288 t)) (fun _ => rfl)
abbrev Ct (t : Fin 9) : Memref sig .tc .vmem S32x512 .f32 := Cm.slice (Rect.unit (s := S288x512) ![32 * t.val, 0] S32x512.size (inb288 t)) (fun _ => rfl)

abbrev Oo (c : Dev nD) (r : Fin 8) : Memref sig .tc .vmem S32x512 .f32 :=
  Om.slice (Rect.unit (s := S512x512) (k0_off5 c (BitVec.ofNat 32 (32 * r.val))) S32x512.size (k0_off5_inb c r)) (fun _ => rfl)
abbrev Oo8 (c : Dev nD) : Memref sig .tc .vmem S32x512 .f32 :=
  Om.slice (Rect.unit (s := S512x512) (k0_off7 c) S32x512.size (k0_off7_inb c)) (fun _ => rfl)
abbrev Ox (c : Dev nD) (r : Fin 7) : Memref sig .tc .vmem S32x512 .f32 :=
  Om.slice (Rect.unit (s := S512x512) (k0_off6 c (BitVec.ofNat 32 (32 * r.val))) S32x512.size (k0_off6_inb c r)) (fun _ => rfl)

abbrev Pm (c : Dev nD) : Buf (Elt F) ((c : Thread nD τ).loc main_arg0) := m ((c : Thread nD τ).loc main_arg0)
def gVec (c : Dev nD) : (cc0_stg0_0 : Ref sig .tc).ty.Contents (Elt F) :=
  (win0_0.blk (0 : Fin 1)).view.read (Elt F) (m ((c : Thread nD τ).loc main_arg1))

/-- What each copy carries, as a read of device `o`'s partial sum through the copy's source view. -/
def yVal (o : Dev nD) (t : Fin 9) : S32x512.Idx → Elt F .f32 :=
  if h : t.val < 8 then (srcY o ⟨t.val, h⟩).view.read (Elt F) (Pm m o) else (srcY8 o).view.read (Elt F) (Pm m o)
def aVal (o : Dev nD) : S256x512.Idx → Elt F .f32 := (srcA o).view.read (Elt F) (Pm m o)
def bVal (o : Dev nD) : S32x512.Idx → Elt F .f32 := (srcB o).view.read (Elt F) (Pm m o)

def lFull (o : Dev nD) (f : Buf (Elt F) ((o : Thread nD τ).loc cc0_scratch0)) : Buf (Elt F) ((o : Thread nD τ).loc cc0_scratch0) :=
  LB.view.write (Elt F) (LA.view.write (Elt F) f (aVal m o) Finset.univ) (bVal m o) Finset.univ
/-- Tile `t` of the local sum buffer once both local copies have landed. -/
def lVal (o : Dev nD) (t : Fin 9) : S32x512.Idx → Elt F .f32 :=
  (Lt t).view.read (Elt F) (lFull m o (fun _ => Classical.arbitrary _))

def tileF (g1 : FVec F S1x512 .f32) (a b : Vec F S32x512 .f32) : FVec F S32x512 .f32 := k0_pay4 g1 a b
/-- Output tile `t` of device `o`: its own rows plus the rows its y-partner sent, normalised and scaled by gamma. -/
def tileOut (o : Dev nD) (t : Fin 9) : S32x512.Idx → Elt F .f32 :=
  tileF (k0_pay1 (gVec m o)) (lVal m o t) (yVal m (yp o) t)

/-- The output buffer at the end: the nine tiles the device computed and the seven its x-partner pushed, written in that order. -/
def outAt (c : Dev nD) : (cc0_stg1_0 : Ref sig .tc).ty.Contents (Elt F) :=
  let f0 : (cc0_stg1_0 : Ref sig .tc).ty.Contents (Elt F) := fun _ => Classical.arbitrary _
  let f1 := (List.finRange 8).foldl (fun f r => (Oo c r).view.write (Elt F) f (tileOut m c ⟨r.val, by omega⟩) Finset.univ) f0
  let f2 := (Oo8 c).view.write (Elt F) f1 (tileOut m c 8) Finset.univ
  (List.finRange 7).foldl (fun f r => (Ox (xp c) r).view.write (Elt F) f (tileOut m (xp c) ⟨r.val, by omega⟩) Finset.univ) f2

end Cert.KernelIdeal.Proto

end
-- ==== Proof.Proto.Sched.lean ====
import proofs.«900599_g7700000000000600_dist_rsrms_v7x_xyz2x2x4_y_m512_d512_f32_1_alg».proof.Proof.Proto.Defs

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

abbrev barS : Sem sig := (SemArray.scalar (sig.barrier 0 rfl) : Sems sig S_).sem
abbrev cell (c : Dev nD) (s : SemLoc sig) : GSem nD τ sig := ((c : Thread nD τ), s)
abbrev dmaS (i : ℕ) (h : i < 36) : SemLoc sig := .dma ⟨i, h⟩
abbrev locS : SemLoc sig := dmaS 2 (by decide)
abbrev t0S : SemLoc sig := dmaS 3 (by decide)
abbrev ysS (t : Fin 9) : SemLoc sig := dmaS (4 + t.val) (by omega)
abbrev yrS (t : Fin 9) : SemLoc sig := dmaS (13 + t.val) (by omega)
abbrev xsS (r : Fin 7) : SemLoc sig := dmaS (22 + r.val) (by omega)
abbrev xrS (r : Fin 7) : SemLoc sig := dmaS (29 + r.val) (by omega)
abbrev barC (c : Dev nD) : GSem nD τ sig := cell c (.reg barS)
abbrev locC (c : Dev nD) : GSem nD τ sig := cell c locS
abbrev t0C (c : Dev nD) : GSem nD τ sig := cell c t0S
abbrev ysC (c : Dev nD) (t : Fin 9) : GSem nD τ sig := cell c (ysS t)
abbrev yrC (c : Dev nD) (t : Fin 9) : GSem nD τ sig := cell c (yrS t)
abbrev xsC (c : Dev nD) (r : Fin 7) : GSem nD τ sig := cell c (xsS r)
abbrev xrC (c : Dev nD) (r : Fin 7) : GSem nD τ sig := cell c (xrS r)

/-- A device's 35 cells: the barrier, then DMA semaphores 2 … 35 (local, first tile, nine y-sends, nine y-receives, seven x-sends, seven x-receives). -/
abbrev csem (k : Fin 35) : SemLoc sig := if h : k.val = 0 then .reg barS else dmaS (k.val + 1) (by omega)
abbrev kcell (ck : Dev nD × Fin 35) : GSem nD τ sig := cell ck.1 (csem ck.2)
abbrev osem (k : Fin 34) : SemLoc sig := dmaS (k.val + 2) (by omega)

abbrev NA : ℕ := (LA : Memref sig .tc .vmem S256x512 .f32).view.dmaCredit
abbrev NB : ℕ := (LB : Memref sig .tc .vmem S32x512 .f32).view.dmaCredit
abbrev NT : ℕ := (Tm : Memref sig .tc .vmem S32x512 .f32).view.dmaCredit
abbrev NC : ℕ := (Ct 0 : Memref sig .tc .vmem S32x512 .f32).view.dmaCredit
abbrev NO : ℕ := (Ox (0 : Dev nD) 0 : Memref sig .tc .vmem S32x512 .f32).view.dmaCredit

def dmaAmount (i : ℕ) (d : Bool) : ℕ :=
  if i = 2 then (if d then NB else NA) else if i = 3 then NT else if i < 22 then NC else NO

def anyAt (d : Dev nD) {sp : Space} {s : Shape} {e : EltTy} (M : Memref sig .tc sp s e) : sProp 𝕄 :=
  iprop(∃ f : Buf (Elt F) (M.view.loc (d : Thread nD τ)), M.view.loc (d : Thread nD τ) ↦[M.view.set]{fullShare} f)

def yEntry (c : Dev nD) : sProp 𝕄 := bigSep Finset.univ fun t : Fin 9 => anyAt (F := F) (yp c) (Ct t)
def xEntry (c : Dev nD) : sProp 𝕄 := bigSep Finset.univ fun r : Fin 7 => anyAt (F := F) (xp c) (Ox c r)

def dmaPay (c : Dev nD) (i : ℕ) (d : Bool) : sProp 𝕄 :=
  if i = 2 then (if d then owns (c : Thread nD τ) LB fullShare (bVal m c) else owns (c : Thread nD τ) LA fullShare (aVal m c))
  else if i = 3 then owns (c : Thread nD τ) Tm fullShare (yVal m c 0)
  else if i = 4 then anyAt c Tm
  else if h13 : i < 13 then iprop(emp)
  else if h22 : i < 22 then owns (c : Thread nD τ) (Ct ⟨i - 13, by omega⟩) fullShare (yVal m (yp c) ⟨i - 13, by omega⟩)
  else if h29 : i < 29 then owns (c : Thread nD τ) (Ox c ⟨i - 22, by omega⟩) fullShare (tileOut m c ⟨i - 22, by omega⟩)
  else if h36 : i < 36 then owns (c : Thread nD τ) (Ox (xp c) ⟨i - 29, by omega⟩) fullShare (tileOut m (xp c) ⟨i - 29, by omega⟩)
  else iprop(emp)

/-- One round per cell: a cell's duties pay it the credit of the copies that complete on it, each handing its owner the landed elements. -/
def sched : Rounds.Schedule (GSem nD τ sig) Bool 𝕄 where
  duties g r := if r = 0 ∧ g.1.2 = .tc then
      (match g.2 with
        | .reg _ => Finset.univ
        | .dma i => if i.val = 2 then Finset.univ else if 3 ≤ i.val then {false} else ∅)
    else ∅
  unitless _ := False
  amount g _ d := match g.2 with
    | .reg _ => 1
    | .dma i => dmaAmount i.val d
  payload g _ d := match g.2 with
    | .reg _ => if d then xEntry g.1.1 else yEntry g.1.1
    | .dma i => dmaPay m g.1.1 i.val d
  amount_pos g _ d _ := by
    rcases g with ⟨th, sm⟩
    cases sm with
    | reg s => exact Nat.one_pos
    | dma i =>
      show 0 < dmaAmount i.val d
      unfold dmaAmount
      repeat' split
      all_goals exact View.dmaCredit_pos _ (by decide)

/-- What a device owes once its entry signals are sent: a tile's credit on each receive cell of its two partners. -/
def OY (c : Dev nD) : CellTallies nD τ sig Unit := tallyAt (xrC (xp c) 6) () NO + tallyAt (xrC (xp c) 5) () NO + tallyAt (xrC (xp c) 4) () NO + tallyAt (xrC (xp c) 3) () NO + tallyAt (xrC (xp c) 2) () NO + tallyAt (xrC (xp c) 1) () NO + tallyAt (xrC (xp c) 0) () NO + tallyAt (yrC (yp c) 8) () NC + tallyAt (yrC (yp c) 7) () NC + tallyAt (yrC (yp c) 6) () NC + tallyAt (yrC (yp c) 5) () NC + tallyAt (yrC (yp c) 4) () NC + tallyAt (yrC (yp c) 3) () NC + tallyAt (yrC (yp c) 2) () NC + tallyAt (yrC (yp c) 1) () NC + tallyAt (yrC (yp c) 0) () NC
def O₁ (c : Dev nD) : CellTallies nD τ sig Unit := OY c + tallyAt (barC (xp c)) () 1
def O₀ (c : Dev nD) : CellTallies nD τ sig Unit := O₁ c + tallyAt (barC (yp c)) () 1

def L (g : GSem nD τ sig) : Finset Unit := if g.1.2 = .tc then {()} else ∅
/-- Wait levels: the barrier at 1, y-receive cells at 2, x-receive cells at 3, every other cell at 0; each wait sits below everything still owed. -/
def lv (g : GSem nD τ sig) (_ : Unit) : ℕ := match g.2 with
  | .reg _ => 1
  | .dma i => if 29 ≤ i.val then 3 else if 13 ≤ i.val ∧ i.val < 22 then 2 else 0

/-- Every cell's invariant and that it has reached round 0: persistent, the same for all devices. -/
def records (K : Dev nD × Fin 35 → ℕ) : sProp 𝕄 :=
  iprop((bigSep Finset.univ fun ck : Dev nD × Fin 35 => cellInv ER (sched m) (K ck) (kcell ck))
    ∗ bigSep Finset.univ fun ck : Dev nD × Fin 35 => reached ER (kcell ck) 0)

def payToks (c : Dev nD) : sProp 𝕄 :=
  iprop(dutyTok ER (locC c) 0 false ∗ dutyTok ER (locC c) 0 true ∗ dutyTok ER (t0C c) 0 false
    ∗ (bigSep Finset.univ fun t : Fin 9 => dutyTok ER (ysC c t) 0 false)
    ∗ (bigSep Finset.univ fun r : Fin 7 => dutyTok ER (xsC c r) 0 false)
    ∗ dutyTok ER (barC (yp c)) 0 false ∗ dutyTok ER (barC (xp c)) 0 true
    ∗ (bigSep Finset.univ fun t : Fin 9 => dutyTok ER (yrC (yp c) t) 0 false)
    ∗ (bigSep Finset.univ fun r : Fin 7 => dutyTok ER (xrC (xp c) r) 0 false))

def positions (c : Dev nD) : sProp 𝕄 := bigSep Finset.univ fun k : Fin 35 => atPos ER (kcell (c, k)) 0 ∅ 0

def ghost (K : Dev nD × Fin 35 → ℕ) (c : Dev nD) : sProp 𝕄 := iprop(records m K ∗ positions c ∗ payToks c)

def launchCreds (c : Dev nD) : sProp 𝕄 :=
  iprop(cred (tallyAt (barC c) () 2)
    ∗ (bigSep Finset.univ fun t : Fin 9 => cred (tallyAt (yrC c t) () NC))
    ∗ (bigSep Finset.univ fun r : Fin 7 => cred (tallyAt (xrC c r) () NO)))

/-- The share of the argument array that is left after `k` copies have each taken one half of what was left. -/
def sh : ℕ → PosShare TreeShare
  | 0 => fullShare
  | k + 1 => (sh k).right

def start (c : Dev nD) : sProp 𝕄 :=
  iprop((∃ K, ghost m K c) ∗ launchCreds c ∗ levAts L lv ∗ (((c : Thread nD τ).loc main_arg0) ↦{fullShare} Pm m c))

def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratches c)
def Φ₁ (c : Dev nD) : sProp 𝕄 :=
  iprop((((c : Thread nD τ).loc main_arg0) ↦{sh 11} Pm m c) ∗ scratches c
    ∗ bigSep Finset.univ fun k : Fin 34 => semVal (cell c (osem k)) 0)

def dats (_ : Fin 1) (c : Dev nD) : Dat τ (Elt F) Unit ℕ UU ℕ cfg0 c where
  A w := m ((cfg0.win w).arr.view.loc (c : Thread nD τ))
  after w _ := match w with
    | ⟨0, _⟩ => gVec m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Proto

end
-- ==== Proof.Proto.Owed.lean ====
import proofs.«900599_g7700000000000600_dist_rsrms_v7x_xyz2x2x4_y_m512_d512_f32_1_alg».proof.Proof.Proto.Sched

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What is still owed the x-partner's receive cells once pushes `0 … k-1` are made. -/
def OXk (c : Dev nD) : ℕ → CellTallies nD τ sig Unit
  | 0 => tallyAt (xrC (xp c) 6) () NO + tallyAt (xrC (xp c) 5) () NO + tallyAt (xrC (xp c) 4) () NO + tallyAt (xrC (xp c) 3) () NO + tallyAt (xrC (xp c) 2) () NO + tallyAt (xrC (xp c) 1) () NO + tallyAt (xrC (xp c) 0) () NO
  | 1 => tallyAt (xrC (xp c) 6) () NO + tallyAt (xrC (xp c) 5) () NO + tallyAt (xrC (xp c) 4) () NO + tallyAt (xrC (xp c) 3) () NO + tallyAt (xrC (xp c) 2) () NO + tallyAt (xrC (xp c) 1) () NO
  | 2 => tallyAt (xrC (xp c) 6) () NO + tallyAt (xrC (xp c) 5) () NO + tallyAt (xrC (xp c) 4) () NO + tallyAt (xrC (xp c) 3) () NO + tallyAt (xrC (xp c) 2) () NO
  | 3 => tallyAt (xrC (xp c) 6) () NO + tallyAt (xrC (xp c) 5) () NO + tallyAt (xrC (xp c) 4) () NO + tallyAt (xrC (xp c) 3) () NO
  | 4 => tallyAt (xrC (xp c) 6) () NO + tallyAt (xrC (xp c) 5) () NO + tallyAt (xrC (xp c) 4) () NO
  | 5 => tallyAt (xrC (xp c) 6) () NO + tallyAt (xrC (xp c) 5) () NO
  | 6 => tallyAt (xrC (xp c) 6) () NO
  | _ => 0
/-- What is still owed both partners' receive cells once transfers `0 … k-1` to the y-partner are made. -/
def OYk (c : Dev nD) : ℕ → CellTallies nD τ sig Unit
  | 0 => OXk c 0 + tallyAt (yrC (yp c) 8) () NC + tallyAt (yrC (yp c) 7) () NC + tallyAt (yrC (yp c) 6) () NC + tallyAt (yrC (yp c) 5) () NC + tallyAt (yrC (yp c) 4) () NC + tallyAt (yrC (yp c) 3) () NC + tallyAt (yrC (yp c) 2) () NC + tallyAt (yrC (yp c) 1) () NC + tallyAt (yrC (yp c) 0) () NC
  | 1 => OXk c 0 + tallyAt (yrC (yp c) 8) () NC + tallyAt (yrC (yp c) 7) () NC + tallyAt (yrC (yp c) 6) () NC + tallyAt (yrC (yp c) 5) () NC + tallyAt (yrC (yp c) 4) () NC + tallyAt (yrC (yp c) 3) () NC + tallyAt (yrC (yp c) 2) () NC + tallyAt (yrC (yp c) 1) () NC
  | 2 => OXk c 0 + tallyAt (yrC (yp c) 8) () NC + tallyAt (yrC (yp c) 7) () NC + tallyAt (yrC (yp c) 6) () NC + tallyAt (yrC (yp c) 5) () NC + tallyAt (yrC (yp c) 4) () NC + tallyAt (yrC (yp c) 3) () NC + tallyAt (yrC (yp c) 2) () NC
  | 3 => OXk c 0 + tallyAt (yrC (yp c) 8) () NC + tallyAt (yrC (yp c) 7) () NC + tallyAt (yrC (yp c) 6) () NC + tallyAt (yrC (yp c) 5) () NC + tallyAt (yrC (yp c) 4) () NC + tallyAt (yrC (yp c) 3) () NC
  | 4 => OXk c 0 + tallyAt (yrC (yp c) 8) () NC + tallyAt (yrC (yp c) 7) () NC + tallyAt (yrC (yp c) 6) () NC + tallyAt (yrC (yp c) 5) () NC + tallyAt (yrC (yp c) 4) () NC
  | 5 => OXk c 0 + tallyAt (yrC (yp c) 8) () NC + tallyAt (yrC (yp c) 7) () NC + tallyAt (yrC (yp c) 6) () NC + tallyAt (yrC (yp c) 5) () NC
  | 6 => OXk c 0 + tallyAt (yrC (yp c) 8) () NC + tallyAt (yrC (yp c) 7) () NC + tallyAt (yrC (yp c) 6) () NC
  | 7 => OXk c 0 + tallyAt (yrC (yp c) 8) () NC + tallyAt (yrC (yp c) 7) () NC
  | 8 => OXk c 0 + tallyAt (yrC (yp c) 8) () NC
  | _ => OXk c 0

theorem OXk_peel6 (c : Dev nD) : OXk c 6 = OXk c 7 + tallyAt (xrC (xp c) 6) () NO := (zero_add _).symm
theorem OXk_seven (c : Dev nD) : OXk c 7 = 0 := rfl

end Cert.KernelIdeal.Proto

end
-- ==== Proof.Proto.Big.lean ====
import proofs.«900599_g7700000000000600_dist_rsrms_v7x_xyz2x2x4_y_m512_d512_f32_1_alg».proof.Proof.Proto.Owed

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable {ℓ : Loc nD τ sig} {f : Buf (Elt F) ℓ}

omit [FloatOps F] in
/-- A copy that reads the elements `J` gets one half of the share that is left, on those elements only. -/
theorem share_take {q : PosShare TreeShare} (k k' : ℕ) (hq : q = sh k) (h : k' = k + 1) (J : Finset (Idx ℓ)) :
    (ℓ ↦{q} f : sProp 𝕄) ⊢ iprop((ℓ ↦[J]{(sh k).left} f) ∗ ℓ ↦{sh k'} f) := by
  subst hq h
  exact (pointsTo_share (PosShare.mem_left_op_right (sh k))).1.trans
    (sep_mono_left ((pointsTo_split_subset (Finset.subset_univ J)).1.trans sep_elim_left))

omit [FloatOps F] in
theorem owns_cast (c : Dev nD) {sp : Space} {s : Shape} {e : EltTy} {M M' : Memref sig .tc sp s e} (h : M = M') (q : PosShare TreeShare) (X : s.Idx → Elt F e) :
    owns (c : Thread nD τ) M q X ⊢ (owns (c : Thread nD τ) M' q X : sProp 𝕄) := by
  subst h; exact .rfl

end Cert.KernelIdeal.Proto

end
-- ==== Proof.Proto.Regions.lean ====
import proofs.«900599_g7700000000000600_dist_rsrms_v7x_xyz2x2x4_y_m512_d512_f32_1_alg».proof.Proof.Proto.Owed

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]
local notation "𝕄" => MT nD τ sig Unit (Elt F) ℕ UU ℕ
variable (m : (ℓ : Loc nD τ sig) → Buf (Elt F) ℓ)

-- Full ownership of the elements `I` of the buffer at `ℓ`, whatever they hold.
def someAt (ℓ : Loc nD τ sig) (I : Finset (Idx ℓ)) : sProp 𝕄 :=
  iprop(∃ f : Buf (Elt F) ℓ, ℓ ↦[I]{fullShare} f)

theorem someAt_union {ℓ : Loc nD τ sig} {I J : Finset (Idx ℓ)} (h : Disjoint I J) :
    someAt (F := F) ℓ (I ∪ J) = iprop(someAt (F := F) ℓ I ∗ someAt (F := F) ℓ J) := by
  refine BI.equiv_iff.mp ⟨?_, ?_⟩ <;> unfold someAt <;> show (_ : sProp 𝕄) ⊢ _
  · iintro ⟨%f, H⟩
    ihave H := (pointsTo_union h).1 $$ H
    icases H with ⟨H1, H2⟩
    isplitl [H1] <;> iexists f <;> iassumption
  · iintro ⟨⟨%f, H1⟩, ⟨%g, H2⟩⟩
    iexists (J.piecewise g f)
    iapply (pointsTo_join h)
    isplitl [H1] <;> iassumption

theorem someAt_biUnion {ℓ : Loc nD τ sig} {T : Type} (S : Finset T) (K : T → Finset (Idx ℓ))
    (h : ∀ t ∈ S, ∀ t' ∈ S, t ≠ t' → Disjoint (K t) (K t')) :
    someAt (F := F) ℓ (S.biUnion K) = bigSep S fun t => someAt (F := F) ℓ (K t) := by
  classical
  refine BI.equiv_iff.mp ⟨?_, ?_⟩ <;> unfold someAt <;> show (_ : sProp 𝕄) ⊢ _
  · refine exists_elim fun f => ?_
    rw [pointsTo_biUnion S K h]
    exact bigSep_mono fun t _ => sProp.exists_intro f
  · iintro H
    ihave H := (bigSep_exists_pi S _) $$ H
    icases H with ⟨%fs, H⟩
    ihave H := (pointsTo_biUnion_join S K fs (fun _ => Classical.arbitrary _) h) $$ H
    icases H with ⟨%g, -, H⟩
    iexists g
    iexact H

-- A whole buffer is any set of its elements together with the complement.
theorem cut {ℓ : Loc nD τ sig} (I : Finset (Idx ℓ)) :
    iprop(∃ f : Buf (Elt F) ℓ, ℓ ↦{fullShare} f) = iprop(someAt (F := F) ℓ I ∗ someAt (F := F) ℓ (Finset.univ \ I)) := by
  rw [← someAt_union Finset.disjoint_sdiff, Finset.union_sdiff_of_subset (Finset.subset_univ I)]
  rfl

theorem anyAt_of_owns (c : Dev nD) {sp : Space} {s : Shape} {e : EltTy} (M : Memref sig .tc sp s e) (X : s.Idx → Elt F e) :
    owns (c : Thread nD τ) M fullShare X ⊢ anyAt (F := F) c M := by
  unfold owns anyAt
  iintro ⟨%f, -, H⟩
  iexists f
  iexact H

theorem bigSep_fin (n : ℕ) (Φ : Fin n → sProp 𝕄) : bigSep Finset.univ Φ = bigSepL (List.finRange n) Φ :=
  bigSep_univ_eq_bigSepL _ (List.toFinset_finRange n).symm (List.nodup_finRange n) Φ

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_fin 7 Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_fin 8 Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_fin 9 Φ
theorem bigSep_fin34 (Φ : Fin 34 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9
    ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26
    ∗ Φ 27 ∗ Φ 28 ∗ Φ 29 ∗ Φ 30 ∗ Φ 31 ∗ Φ 32 ∗ Φ 33) :=
  bigSep_fin 34 Φ
theorem bigSep_fin35 (Φ : Fin 35 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9
    ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26
    ∗ Φ 27 ∗ Φ 28 ∗ Φ 29 ∗ Φ 30 ∗ Φ 31 ∗ Φ 32 ∗ Φ 33 ∗ Φ 34) :=
  bigSep_fin 35 Φ

abbrev bufC (c : Dev nD) : Loc nD τ sig := (c : Thread nD τ).loc cc0_scratch1
abbrev bufL (c : Dev nD) : Loc nD τ sig := (c : Thread nD τ).loc cc0_scratch0
abbrev bufO (c : Dev nD) : Loc nD τ sig := (c : Thread nD τ).loc cc0_stg1_0

theorem slice_disjoint {κ : Kind} (b : Ref sig κ) {off size off' size' : Fin b.ty.shape.rank → ℕ} {inb inb'} (a : Fin b.ty.shape.rank)
    (h : off a + size a ≤ off' a ∨ off' a + size' a ≤ off a) :
    Disjoint ((View.whole b).slice (Rect.unit off size inb)).set ((View.whole b).slice (Rect.unit off' size' inb')).set := by
  rw [View.set_slice_whole, View.set_slice_whole]; exact Rect.unit_disjoint a h

def setC (c : Dev nD) (t : Fin 9) : Finset (Idx (bufC c)) := (Ct t).view.set
def restC (c : Dev nD) : sProp 𝕄 := someAt (F := F) (bufC c) (Finset.univ \ Finset.univ.biUnion (setC c))

theorem setC_disjoint (c : Dev nD) (t : Fin 9) (_ : t ∈ Finset.univ) (t' : Fin 9) (_ : t' ∈ Finset.univ) (h : t ≠ t') :
    Disjoint (setC c t) (setC c t') :=
  slice_disjoint cc0_scratch1 (0 : Fin 2) (by show 32 * t.val + 32 ≤ 32 * t'.val ∨ 32 * t'.val + 32 ≤ 32 * t.val; omega)

theorem splitC (c : Dev nD) : iprop(∃ f : Buf (Elt F) (bufC c), bufC c ↦{fullShare} f)
    ⊢ iprop((bigSep Finset.univ fun t : Fin 9 => anyAt (F := F) c (Ct t)) ∗ restC (F := F) c) := by
  rw [cut (Finset.univ.biUnion (setC c)), someAt_biUnion _ _ (setC_disjoint c)]; exact .rfl

theorem joinC (c : Dev nD) : iprop((bigSep Finset.univ fun t : Fin 9 => anyAt (F := F) c (Ct t)) ∗ restC (F := F) c)
    ⊢ iprop(∃ f : Buf (Elt F) (bufC c), bufC c ↦{fullShare} f) := by
  rw [cut (Finset.univ.biUnion (setC c)), someAt_biUnion _ _ (setC_disjoint c)]; exact .rfl

def setL (c : Dev nD) : Finset (Idx (bufL c)) := LA.view.set ∪ LB.view.set
def restL (c : Dev nD) : sProp 𝕄 := someAt (F := F) (bufL c) (Finset.univ \ setL c)

theorem setL_disjoint (c : Dev nD) : Disjoint (LA.view.set : Finset (Idx (bufL c))) LB.view.set :=
  slice_disjoint cc0_scratch0 (0 : Fin 2) (.inl (Nat.le_refl 256))

theorem splitL (c : Dev nD) : iprop(∃ f : Buf (Elt F) (bufL c), bufL c ↦{fullShare} f)
    ⊢ iprop(anyAt (F := F) c LA ∗ anyAt (F := F) c LB ∗ restL (F := F) c) := by
  rw [cut (setL c), setL, someAt_union (setL_disjoint c)]; exact sep_assoc

theorem joinL (c : Dev nD) : iprop(anyAt (F := F) c LA ∗ anyAt (F := F) c LB ∗ restL (F := F) c)
    ⊢ iprop(∃ f : Buf (Elt F) (bufL c), bufL c ↦{fullShare} f) := by
  rw [cut (setL c), setL, someAt_union (setL_disjoint c)]; exact sep_assoc'

theorem Ox_eq_Oo (c : Dev nD) (r : Fin 7) : Ox c r = Oo c ⟨r.val, by omega⟩ :=
  Memref.slice_unit_congr Om ((k0_off6_eq c r).trans (k0_off5_eq c ⟨r.val, by omega⟩).symm) _ _ _ _

abbrev TO : Type := Fin 8 ⊕ Unit ⊕ Fin 7

def offO (c : Dev nD) : TO → Fin 2 → ℕ
  | .inl r => k0_off5 c (BitVec.ofNat 32 (32 * r.val))
  | .inr (.inl _) => k0_off7 c
  | .inr (.inr r) => k0_off6 (xp c) (BitVec.ofNat 32 (32 * r.val))

def rowO (c : Dev nD) : TO → ℕ
  | .inl r => 256 * (c.val / 8) + 32 * r.val
  | .inr (.inl _) => 480 - 256 * (c.val / 8)
  | .inr (.inr r) => 256 * ((xp c).val / 8) + 32 * r.val

theorem offO_eq (c : Dev nD) : ∀ t, offO c t = ![rowO c t, 0]
  | .inl r => k0_off5_eq c r
  | .inr (.inl _) => k0_off7_eq c
  | .inr (.inr r) => k0_off6_eq (xp c) r

-- The sixteen tiles start at distinct multiples of 32 and reach every multiple below 512: they partition the rows.
theorem rowO_sep : ∀ (c : Dev nD) (t t' : TO), t ≠ t' → rowO c t + 32 ≤ rowO c t' ∨ rowO c t' + 32 ≤ rowO c t := by
  decide +kernel
theorem rowO_cov : ∀ (c : Dev nD) (k : Fin 16), ∃ t, rowO c t = 32 * k.val := by decide +kernel

theorem offO_inb (c : Dev nD) : ∀ t a, offO c t a + S32x512.size a ≤ S512x512.size a
  | .inl r => k0_off5_inb c r
  | .inr (.inl _) => k0_off7_inb c
  | .inr (.inr r) => k0_off6_inb (xp c) r

abbrev rO (c : Dev nD) (t : TO) : Rect S512x512 := Rect.unit (offO c t) S32x512.size (offO_inb c t)

theorem rO_disjoint (c : Dev nD) (t t' : TO) (h : t ≠ t') : Disjoint (rO c t).set (rO c t').set :=
  Rect.unit_disjoint (0 : Fin 2) (by rw [offO_eq, offO_eq]; exact rowO_sep c t t' h)

theorem rO_cover (c : Dev nD) : (Finset.univ : Finset TO).biUnion (fun t => (rO c t).set) = Finset.univ := by
  refine Finset.eq_univ_iff_forall.mpr fun x => ?_
  have h0 : (x 0).val < 512 := (x 0).isLt
  have h1 : (x 1).val < 512 := (x 1).isLt
  obtain ⟨t, ht⟩ := rowO_cov c ⟨(x 0).val / 32, by omega⟩
  refine Finset.mem_biUnion.mpr ⟨t, Finset.mem_univ t, Rect.mem_set_unit.mpr ?_⟩
  rw [offO_eq]
  intro a
  fin_cases a
  · show rowO c t ≤ (x 0).val ∧ (x 0).val < rowO c t + 32
    dsimp only at ht
    omega
  · show 0 ≤ (x 1).val ∧ (x 1).val < 0 + 512
    omega

-- The sixteen tiles leave nothing of the output buffer over.
def restO (c : Dev nD) : sProp 𝕄 := iprop(emp)

theorem splitO (c : Dev nD) : iprop(∃ f : Buf (Elt F) (bufO c), bufO c ↦{fullShare} f)
    ⊢ iprop((bigSep Finset.univ fun r : Fin 8 => anyAt (F := F) c (Oo c r)) ∗ anyAt (F := F) c (Oo8 c)
      ∗ (bigSep Finset.univ fun r : Fin 7 => anyAt (F := F) c (Ox (xp c) r)) ∗ restO (F := F) c) := by
  refine exists_elim fun f => ?_
  have h : (_ : sProp 𝕄) ⊢ _ := owns_rects (c : Thread nD τ) Om fullShare (rO c) (fun _ _ => rfl) (rO_disjoint c) (rO_cover c) f
  rw [owns_whole, bigSep_univ_sum, bigSep_univ_sum, bigSep_univ_of_subsingleton (M := 𝕄) ()] at h
  exact h.trans (BI.sep_mono (bigSep_mono fun _ _ => anyAt_of_owns c _ _)
    (BI.sep_mono (anyAt_of_owns c _ _) ((bigSep_mono fun _ _ => anyAt_of_owns c _ _).trans sep_emp_intro)))

-- After writes through pairwise disjoint rectangles, each rectangle reads back the payload last written through it.
theorem foldl_write_read {κ sp s e} (v : View sig κ sp s e) {T : Type} (R : T → Rect s)
    (w : (t : T) → (R t).shape.Idx → Elt F e) (hd : ∀ a b, a ≠ b → Disjoint (R a).set (R b).set)
    (f : v.ty.Contents (Elt F)) (t : T) (l : List T) (ht : t ∈ l) :
    (v.slice (R t)).read (Elt F) (l.foldl (fun f t => (v.slice (R t)).write (Elt F) f (w t) Finset.univ) f) = w t := by
  induction l using List.reverseRecOn with
  | nil => exact absurd ht List.not_mem_nil
  | append_singleton l a ih =>
    rw [List.foldl_append, List.foldl_cons, List.foldl_nil]
    by_cases h : t = a
    · subst h; exact View.read_write_univ _ _
    · rw [View.read_slice_write_slice_of_disjoint _ _ _ _ _ (by
        rw [View.setOn_univ, View.set_slice, View.set_slice]; exact (Finset.disjoint_map _).mpr (hd t a h))]
      exact ih ((List.mem_append.mp ht).resolve_right fun h' => h (List.mem_singleton.mp h'))

def vO (c : Dev nD) : TO → S32x512.Idx → Elt F .f32
  | .inl r => tileOut m c ⟨r.val, by omega⟩
  | .inr (.inl _) => tileOut m c 8
  | .inr (.inr r) => tileOut m (xp c) ⟨r.val, by omega⟩

def lO : List TO := (List.finRange 8).map .inl ++ .inr (.inl ()) :: (List.finRange 7).map (.inr ∘ .inr)

-- The final contents as one run of sixteen tile writes.
theorem outAt_eq (c : Dev nD) : outAt m c =
    lO.foldl (fun f t => (Om.view.slice (rO c t)).write (Elt F) f (vO m c t) Finset.univ) fun _ => Classical.arbitrary _ := by
  rw [lO, List.foldl_append, List.foldl_cons, List.foldl_map, List.foldl_map]; rfl

attribute [local irreducible] outAt

theorem read_outAt (c : Dev nD) (t : TO) : (fun j => outAt m c ((rO c t).emb j)) = vO m c t := by
  show (Om.view.slice (rO c t)).read (Elt F) (outAt m c) = _
  rw [outAt_eq]
  exact foldl_write_read Om.view (rO c) (vO m c) (rO_disjoint c) _ t lO (by revert t; simp [lO])

theorem joinO (c : Dev nD) :
    iprop((bigSep Finset.univ fun r : Fin 8 => owns (c : Thread nD τ) (Oo c r) fullShare (tileOut m c ⟨r.val, by omega⟩))
      ∗ owns (c : Thread nD τ) (Oo8 c) fullShare (tileOut m c 8)
      ∗ (bigSep Finset.univ fun r : Fin 7 => owns (c : Thread nD τ) (Ox (xp c) r) fullShare (tileOut m (xp c) ⟨r.val, by omega⟩))
      ∗ restO (F := F) c)
    ⊢ (bufO c ↦{fullShare} outAt m c : sProp 𝕄) := by
  have h : (_ : sProp 𝕄) ⊢ _ := owns_of_rects (c : Thread nD τ) Om fullShare (rO c) (fun _ _ => rfl) (rO_disjoint c) (rO_cover c) (outAt m c)
  simp only [read_outAt, bigSep_univ_sum, bigSep_univ_of_subsingleton (M := 𝕄) (), owns_whole] at h
  exact (sep_mono_r (sep_mono_r sep_emp_elim)).trans h

/-- info: 'Cert.KernelIdeal.Proto.joinO' depends on axioms: [propext, Classical.choice, Quot.sound] -/
#guard_msgs in #print axioms joinO

end Cert.KernelIdeal.Proto

end
-- ==== Proof.Proto.Tables.lean ====
import proofs.«900599_g7700000000000600_dist_rsrms_v7x_xyz2x2x4_y_m512_d512_f32_1_alg».proof.Proof.Proto.Owed

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem reg_ne_dmaS (s : Sem sig) (i : ℕ) (h : i < 36) : (SemLoc.reg s : SemLoc sig) ≠ dmaS i h := fun e => by cases e
theorem dmaS_ne_reg (s : Sem sig) (i : ℕ) (h : i < 36) : dmaS i h ≠ (SemLoc.reg s : SemLoc sig) := fun e => by cases e
theorem dmaS_inj {i j : ℕ} (hi : i < 36) (hj : j < 36) (e : dmaS i hi = dmaS j hj) : i = j :=
  congrArg Fin.val (SemLoc.dma.inj e)

theorem duties_dma (c : Dev nD) (i : ℕ) (h : i < 36) (h3 : 3 ≤ i) : (sched m).duties (cell c (dmaS i h)) 0 = {false} := by
  dsimp only [sched]
  rw [if_pos ⟨rfl, rfl⟩, if_neg (by omega), if_pos h3]

theorem duties_bar (c : Dev nD) : (sched m).duties (barC c) 0 = Finset.univ := by
  dsimp only [sched]
  rw [if_pos ⟨rfl, rfl⟩]
theorem duties_loc (c : Dev nD) : (sched m).duties (locC c) 0 = Finset.univ := by
  dsimp only [sched]
  rw [if_pos ⟨rfl, rfl⟩, if_pos rfl]
theorem duties_t0 (c : Dev nD) : (sched m).duties (t0C c) 0 = {false} := duties_dma m c 3 (by decide) (by decide)
theorem duties_ys (c : Dev nD) (t : Fin 9) : (sched m).duties (ysC c t) 0 = {false} := duties_dma m c (4 + t.val) (by omega) (by omega)
theorem duties_yr (c : Dev nD) (t : Fin 9) : (sched m).duties (yrC c t) 0 = {false} := duties_dma m c (13 + t.val) (by omega) (by omega)
theorem duties_xs (c : Dev nD) (r : Fin 7) : (sched m).duties (xsC c r) 0 = {false} := duties_dma m c (22 + r.val) (by omega) (by omega)
theorem duties_xr (c : Dev nD) (r : Fin 7) : (sched m).duties (xrC c r) 0 = {false} := duties_dma m c (29 + r.val) (by omega) (by omega)
theorem duties_later (g : GSem nD τ sig) : ∀ r, 1 ≤ r → (sched m).duties g r = ∅ :=
  fun r hr => by
  dsimp only [sched]
  rw [if_neg (fun h => absurd h.1 (by omega))]

theorem amount_bar (c : Dev nD) (d : Bool) : (sched m).amount (barC c) 0 d = 1 := rfl
theorem amount_locA (c : Dev nD) : (sched m).amount (locC c) 0 false = NA := by
  show dmaAmount 2 false = NA
  unfold dmaAmount
  rw [if_pos rfl]
  exact if_neg Bool.false_ne_true
theorem amount_locB (c : Dev nD) : (sched m).amount (locC c) 0 true = NB := by
  show dmaAmount 2 true = NB
  unfold dmaAmount
  rw [if_pos rfl]
  exact if_pos rfl
theorem amount_t0 (c : Dev nD) (d : Bool) : (sched m).amount (t0C c) 0 d = NT := by
  show dmaAmount 3 d = NT
  unfold dmaAmount
  rw [if_neg (by decide), if_pos rfl]
theorem amount_ys (c : Dev nD) (t : Fin 9) (d : Bool) : (sched m).amount (ysC c t) 0 d = NC := by
  show dmaAmount (4 + t.val) d = NC
  unfold dmaAmount
  rw [if_neg (by omega), if_neg (by omega), if_pos (by omega)]
theorem amount_yr (c : Dev nD) (t : Fin 9) (d : Bool) : (sched m).amount (yrC c t) 0 d = NC := by
  show dmaAmount (13 + t.val) d = NC
  unfold dmaAmount
  rw [if_neg (by omega), if_neg (by omega), if_pos (by omega)]
theorem amount_xs (c : Dev nD) (r : Fin 7) (d : Bool) : (sched m).amount (xsC c r) 0 d = NO := by
  show dmaAmount (22 + r.val) d = NO
  unfold dmaAmount
  rw [if_neg (by omega), if_neg (by omega), if_neg (by omega)]
theorem amount_xr (c : Dev nD) (r : Fin 7) (d : Bool) : (sched m).amount (xrC c r) 0 d = NO := by
  show dmaAmount (29 + r.val) d = NO
  unfold dmaAmount
  rw [if_neg (by omega), if_neg (by omega), if_neg (by omega)]

theorem expect_bar (c : Dev nD) : (sched m).expect (barC c) 0 = 2 := by
  show ∑ d ∈ (sched m).duties (barC c) 0, (sched m).amount (barC c) 0 d = 2
  rw [duties_bar, Fintype.sum_bool, amount_bar, amount_bar]
theorem expect_loc (c : Dev nD) : (sched m).expect (locC c) 0 = NA + NB := by
  show ∑ d ∈ (sched m).duties (locC c) 0, (sched m).amount (locC c) 0 d = NA + NB
  rw [duties_loc, Fintype.sum_bool, amount_locA, amount_locB]
  exact Nat.add_comm _ _
theorem expect_t0 (c : Dev nD) : (sched m).expect (t0C c) 0 = NT := by
  show ∑ d ∈ (sched m).duties (t0C c) 0, (sched m).amount (t0C c) 0 d = NT
  rw [duties_t0, Finset.sum_singleton, amount_t0]
theorem expect_ys (c : Dev nD) (t : Fin 9) : (sched m).expect (ysC c t) 0 = NC := by
  show ∑ d ∈ (sched m).duties (ysC c t) 0, (sched m).amount (ysC c t) 0 d = NC
  rw [duties_ys, Finset.sum_singleton, amount_ys]
theorem expect_yr (c : Dev nD) (t : Fin 9) : (sched m).expect (yrC c t) 0 = NC := by
  show ∑ d ∈ (sched m).duties (yrC c t) 0, (sched m).amount (yrC c t) 0 d = NC
  rw [duties_yr, Finset.sum_singleton, amount_yr]
theorem expect_xs (c : Dev nD) (r : Fin 7) : (sched m).expect (xsC c r) 0 = NO := by
  show ∑ d ∈ (sched m).duties (xsC c r) 0, (sched m).amount (xsC c r) 0 d = NO
  rw [duties_xs, Finset.sum_singleton, amount_xs]
theorem expect_xr (c : Dev nD) (r : Fin 7) : (sched m).expect (xrC c r) 0 = NO := by
  show ∑ d ∈ (sched m).duties (xrC c r) 0, (sched m).amount (xrC c r) 0 d = NO
  rw [duties_xr, Finset.sum_singleton, amount_xr]

theorem payload_bar_false (c : Dev nD) : (sched m).payload (barC c) 0 false = yEntry c := by
  show (if (false : Bool) then xEntry c else yEntry c) = yEntry c
  exact if_neg Bool.false_ne_true
theorem payload_bar_true (c : Dev nD) : (sched m).payload (barC c) 0 true = xEntry c := by
  show (if (true : Bool) then xEntry c else yEntry c) = xEntry c
  exact if_pos rfl
theorem payload_locA (c : Dev nD) : (sched m).payload (locC c) 0 false = owns (c : Thread nD τ) LA fullShare (aVal m c) := by
  show dmaPay m c 2 false = _
  unfold dmaPay
  rw [if_pos rfl]
  exact if_neg Bool.false_ne_true
theorem payload_locB (c : Dev nD) : (sched m).payload (locC c) 0 true = owns (c : Thread nD τ) LB fullShare (bVal m c) := by
  show dmaPay m c 2 true = _
  unfold dmaPay
  rw [if_pos rfl]
  exact if_pos rfl
theorem payload_t0 (c : Dev nD) (d : Bool) : (sched m).payload (t0C c) 0 d = owns (c : Thread nD τ) Tm fullShare (yVal m c 0) := by
  show dmaPay m c 3 d = _
  unfold dmaPay
  rw [if_neg (by decide), if_pos rfl]
theorem payload_ys0 (c : Dev nD) (d : Bool) : (sched m).payload (ysC c 0) 0 d = anyAt c Tm := by
  show dmaPay m c 4 d = _
  unfold dmaPay
  rw [if_neg (by decide), if_neg (by decide), if_pos rfl]
theorem payload_ys (c : Dev nD) (t : Fin 9) (d : Bool) (ht : t ≠ 0) : (sched m).payload (ysC c t) 0 d = iprop(emp) := by
  have h0 : t.val ≠ 0 := fun h => ht (Fin.ext h)
  show dmaPay m c (4 + t.val) d = _
  unfold dmaPay
  rw [if_neg (by omega), if_neg (by omega), if_neg (by omega), dif_pos (by omega)]
theorem payload_yr (c : Dev nD) (t : Fin 9) (d : Bool) : (sched m).payload (yrC c t) 0 d = owns (c : Thread nD τ) (Ct t) fullShare (yVal m (yp c) t) := by
  show dmaPay m c (13 + t.val) d = _
  unfold dmaPay
  rw [if_neg (by omega), if_neg (by omega), if_neg (by omega), dif_neg (by omega), dif_pos (by omega)]
  simp only [Nat.add_sub_cancel_left, Fin.eta]
theorem payload_xs (c : Dev nD) (r : Fin 7) (d : Bool) : (sched m).payload (xsC c r) 0 d = owns (c : Thread nD τ) (Ox c r) fullShare (tileOut m c ⟨r.val, by omega⟩) := by
  show dmaPay m c (22 + r.val) d = _
  unfold dmaPay
  rw [if_neg (by omega), if_neg (by omega), if_neg (by omega), dif_neg (by omega), dif_neg (by omega), dif_pos (by omega)]
  simp only [Nat.add_sub_cancel_left, Fin.eta]
theorem payload_xr (c : Dev nD) (r : Fin 7) (d : Bool) : (sched m).payload (xrC c r) 0 d = owns (c : Thread nD τ) (Ox (xp c) r) fullShare (tileOut m (xp c) ⟨r.val, by omega⟩) := by
  show dmaPay m c (29 + r.val) d = _
  unfold dmaPay
  rw [if_neg (by omega), if_neg (by omega), if_neg (by omega), dif_neg (by omega), dif_neg (by omega), dif_neg (by omega), dif_pos (by omega)]
  simp only [Nat.add_sub_cancel_left, Fin.eta]

theorem rest_bar (c : Dev nD) : bigSep ((sched m).duties (barC c) 0 \ ∅) (fun d => (sched m).payload (barC c) 0 d) = iprop(yEntry c ∗ xEntry c) := by
  rw [Finset.sdiff_empty, duties_bar, bigSep_univ_eq_bigSepL [false, true] (by decide) (by decide), bigSepL_cons_cons, bigSepL_singleton, payload_bar_false, payload_bar_true]
  rfl
theorem rest_loc (c : Dev nD) : bigSep ((sched m).duties (locC c) 0 \ ∅) (fun d => (sched m).payload (locC c) 0 d) = iprop(owns (c : Thread nD τ) LA fullShare (aVal m c) ∗ owns (c : Thread nD τ) LB fullShare (bVal m c)) := by
  rw [Finset.sdiff_empty, duties_loc, bigSep_univ_eq_bigSepL [false, true] (by decide) (by decide), bigSepL_cons_cons, bigSepL_singleton, payload_locA, payload_locB]
  rfl
theorem rest_t0 (c : Dev nD) : bigSep ((sched m).duties (t0C c) 0 \ ∅) (fun d => (sched m).payload (t0C c) 0 d) = owns (c : Thread nD τ) Tm fullShare (yVal m c 0) := by
  rw [Finset.sdiff_empty, duties_t0, bigSep_singleton, payload_t0]
theorem rest_yr (c : Dev nD) (t : Fin 9) : bigSep ((sched m).duties (yrC c t) 0 \ ∅) (fun d => (sched m).payload (yrC c t) 0 d) = owns (c : Thread nD τ) (Ct t) fullShare (yVal m (yp c) t) := by
  rw [Finset.sdiff_empty, duties_yr, bigSep_singleton, payload_yr]
theorem rest_xs (c : Dev nD) (r : Fin 7) : bigSep ((sched m).duties (xsC c r) 0 \ ∅) (fun d => (sched m).payload (xsC c r) 0 d) = owns (c : Thread nD τ) (Ox c r) fullShare (tileOut m c ⟨r.val, by omega⟩) := by
  rw [Finset.sdiff_empty, duties_xs, bigSep_singleton, payload_xs]
theorem rest_xr (c : Dev nD) (r : Fin 7) : bigSep ((sched m).duties (xrC c r) 0 \ ∅) (fun d => (sched m).payload (xrC c r) 0 d) = owns (c : Thread nD τ) (Ox (xp c) r) fullShare (tileOut m (xp c) ⟨r.val, by omega⟩) := by
  rw [Finset.sdiff_empty, duties_xr, bigSep_singleton, payload_xr]

theorem amt_Ct (t : Fin 9) : (Ct t).view.amount (yrS t) = NC := by
  rfl
theorem amt_Ox (c : Dev nD) (r : Fin 7) : (Ox c r).view.amount (xrS r) = NO := by
  rfl

instance sched_payload_storable (g : GSem nD τ sig) (r : ℕ) (d : Bool) :
    BI.Storable (upEmb : UEmb _ 𝕄) ((sched (F := F) m).payload g r d) := by
  rcases g with ⟨⟨dev, p⟩, sm⟩
  cases sm with
  | reg s =>
    show BI.Storable upEmb (if d then xEntry (F := F) dev else yEntry (F := F) dev)
    unfold xEntry yEntry anyAt
    split <;> infer_instance
  | dma i =>
    show BI.Storable upEmb (dmaPay m dev i.val d)
    unfold dmaPay anyAt
    (repeat' split) <;> infer_instance

/-- info: 'Cert.KernelIdeal.Proto.rest_bar' depends on axioms: [propext, Classical.choice, Quot.sound] -/
#guard_msgs in #print axioms rest_bar

/-- info: 'Cert.KernelIdeal.Proto.rest_loc' depends on axioms: [propext, Classical.choice, Quot.sound] -/
#guard_msgs in #print axioms rest_loc

/-- info: 'Cert.KernelIdeal.Proto.rest_xr' depends on axioms: [propext, Classical.choice, Quot.sound] -/
#guard_msgs in #print axioms rest_xr

/-- info: 'Cert.KernelIdeal.Proto.payload_ys' depends on axioms: [propext, Classical.choice, Quot.sound] -/
#guard_msgs in #print axioms payload_ys

/-- info: 'Cert.KernelIdeal.Proto.amt_Ox' depends on axioms: [propext, Classical.choice, Quot.sound] -/
#guard_msgs in #print axioms amt_Ox

/-- info: 'Cert.KernelIdeal.Proto.sched_payload_storable' depends on axioms: [propext, Classical.choice, Quot.sound] -/
#guard_msgs in #print axioms sched_payload_storable

end Cert.KernelIdeal.Proto

end
-- ==== Proof.Proto.RulesA.lean ====
import proofs.«900599_g7700000000000600_dist_rsrms_v7x_xyz2x2x4_y_m512_d512_f32_1_alg».proof.Proof.Proto.Tables
noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

instance records_persistent (K : Dev nD × Fin 35 → ℕ) : BI.Persistent (records m K) := by unfold records; infer_instance

theorem rec_at (K : Dev nD × Fin 35 → ℕ) (ck : Dev nD × Fin 35) :
    records m K ⊢ iprop(cellInv ER (sched m) (K ck) (kcell ck) ∗ reached ER (kcell ck) 0) :=
  BI.sep_mono (bigSep_elim (Φ := fun ck : Dev nD × Fin 35 => cellInv ER (sched m) (K ck) (kcell ck)) (Finset.mem_univ ck))
    (bigSep_elim (Φ := fun ck : Dev nD × Fin 35 => (reached ER (kcell ck) 0 : sProp 𝕄)) (Finset.mem_univ ck))

/-- For `i ≥ 2` the cell `dmaS i` of `c` is its cell number `i - 1`. -/
theorem inv_dma (K : Dev nD × Fin 35 → ℕ) (c : Dev nD) (i : ℕ) (hi : i < 36) (h2 : 2 ≤ i) :
    records m K ⊢ cellInv ER (sched m) (K (c, ⟨i - 1, by omega⟩)) (cell c (dmaS i hi)) := by
  obtain ⟨j, rfl⟩ : ∃ j, i = j + 2 := ⟨i - 2, by omega⟩
  exact (rec_at m K (c, ⟨j + 1, by omega⟩)).trans sep_elim_left

/-- Everything owed in `O` sits at level `n` or above. -/
def Above (n : ℕ) (O : CellTallies nD τ sig Unit) : Prop := ∀ g u, 0 < O g u → g.1.2 = .tc ∧ n ≤ lv g u

theorem above_zero (n : ℕ) : Above n 0 := fun g u h => absurd h (Nat.lt_irrefl 0)

theorem above_one {n k : ℕ} {g0 : GSem nD τ sig} (h0 : g0.1.2 = .tc ∧ n ≤ lv g0 ()) : Above n (tallyAt g0 () k) :=
  fun g u h => by rw [(Pipeline.tallyAt_pos h).1]; exact h0

theorem above_add {n : ℕ} {D E : CellTallies nD τ sig Unit} (hD : Above n D) (hE : Above n E) : Above n (D + E) :=
  fun g u h => (Pipeline.add_pos_cases h).elim (hD g u) (hE g u)

theorem owed_above (c : Dev nD) (k : ℕ) : Above 3 (OXk c k) ∧ Above 2 (OYk c k) := by
  constructor <;> rcases k with _ | _ | _ | _ | _ | _ | _ | _ | _ | k <;>
    (repeat' refine above_add ?_ (above_one ⟨rfl, Nat.le_of_ble_eq_true rfl⟩)) <;>
    first | exact above_one ⟨rfl, Nat.le_of_ble_eq_true rfl⟩ | exact above_zero _

/-- Level evidence for a wait at `s`: `s` lies strictly below `n`, and all of `O` at `n` or above. -/
theorem mayWait_above {n : ℕ} {O : CellTallies nD τ sig Unit} (c : Dev nD) (s : SemLoc sig) (hO : Above n O) (hs : lv (cell c s) () < n) :
    (levAts L lv : sProp 𝕄) ⊢ MayWait (c : Thread nD τ) s () O :=
  Pipeline.mayWait_of_levAts (by rw [L, if_pos rfl]; exact Finset.mem_singleton_self _) fun g u h =>
    ⟨by rw [L, if_pos (hO g u h).1]; exact Finset.mem_singleton_self _, hs.trans_le (hO g u h).2⟩

theorem wp_sig_y (K : Dev nD × Fin 35 → ℕ) (c : Dev nD) {α : Type} {Q : α → sProp 𝕄} {k : PUnit → Prog (TpuEff nD τ sig (Elt F) Λ₀ .tc) α} {W : Waits sig Unit} {n : ℕ} (hn : n = 1) :
    iprop(records m K ∗ owes (c : Thread nD τ) (O₀ c) W ∗ dutyTok ER (barC (yp c)) 0 false
        ∗ (bigSep Finset.univ fun t : Fin 9 => anyAt (F := F) c (Ct t)))
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (yp c : Thread nD τ) barS n) k) Q) := by
  subst hn
  iintro ⟨HR, HO, Htok, Hpay⟩
  iapply Rounds.wp_signal 𝒱₀ ER (sched m) (c : Thread nD τ) none (dst := (yp c : Thread nD τ)) (d := false) (O₀ := O₀ c)
    (duties_bar m _ ▸ Finset.mem_univ _) (amount_bar m (yp c) false) () (O₁ c) rfl
  rw [payload_bar_false, yEntry, yp_yp]
  iframe
  iapply rec_at m K (yp c, 0) $$ HR

theorem wp_sig_x (K : Dev nD × Fin 35 → ℕ) (c : Dev nD) {α : Type} {Q : α → sProp 𝕄} {k : PUnit → Prog (TpuEff nD τ sig (Elt F) Λ₀ .tc) α} {W : Waits sig Unit} {n : ℕ} (hn : n = 1) :
    iprop(records m K ∗ owes (c : Thread nD τ) (O₁ c) W ∗ dutyTok ER (barC (xp c)) 0 true
        ∗ (bigSep Finset.univ fun r : Fin 7 => anyAt (F := F) c (Ox (xp c) r)))
      ⊢ iprop((owes (c : Thread nD τ) (OY c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (xp c : Thread nD τ) barS n) k) Q) := by
  subst hn
  iintro ⟨HR, HO, Htok, Hpay⟩
  iapply Rounds.wp_signal 𝒱₀ ER (sched m) (c : Thread nD τ) none (dst := (xp c : Thread nD τ)) (d := true) (O₀ := O₁ c)
    (duties_bar m _ ▸ Finset.mem_univ _) (amount_bar m (xp c) true) () (OY c) rfl
  rw [payload_bar_true, xEntry, xp_xp]
  iframe
  iapply rec_at m K (xp c, 0) $$ HR

theorem wp_wait_bar (K : Dev nD × Fin 35 → ℕ) (c : Dev nD) {α : Type} {Q : α → sProp 𝕄} {k : PUnit → Prog (TpuEff nD τ sig (Elt F) Λ₀ .tc) α} {W : Waits sig Unit} {n : ℕ} (hn : n = 2) :
    iprop(records m K ∗ cred (tallyAt (barC c) () 2) ∗ owes (c : Thread nD τ) (OY c) W ∗ levAts L lv ∗ atPos ER (barC c) 0 ∅ 0)
      ⊢ iprop(((owes (c : Thread nD τ) (OY c) (insert (SemLoc.reg barS, ()) W) ∗ atPos ER (barC c) 1 ∅ 0 ∗ yEntry (F := F) c ∗ xEntry (F := F) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  exact (BI.sep_mono ((rec_at m K (c, 0)).trans sep_elim_left) (sep_mono_right (sep_mono_right (sep_mono_left (mayWait_above c _ (owed_above c 0).2 (Nat.le_of_ble_eq_true rfl)))))).trans
    ((Rounds.wp_wait_rest_token 𝒱₀ ER (sched m) (c : Thread nD τ) none (wpE_semWait_eq 𝒱₀ (c : Thread nD τ) none Set.univ) (Set.mem_univ _) ()
      (R := 0) (m := 0) (T := ∅) (by rw [expect_bar])).trans
      (wand_mono_left (wand_mono_left (sep_mono_right (sep_mono_right (sep_elim_right.trans (Entails.of_eq (rest_bar m c))))))))

theorem wp_localA (K : Dev nD × Fin 35 → ℕ) (c : Dev nD) {α : Type} {Q : α → sProp 𝕄} {k : PUnit → Prog (TpuEff nD τ sig (Elt F) Λ₀ .tc) α} {q : PosShare TreeShare} {sem : SemLoc sig} (hs : sem = locS)
    {hsrc : (srcA c).view.WordExact} {hdst : (LA : Memref sig .tc .vmem S256x512 .f32).view.WordExact}
    {hsem : DmaTarget.Typed (nD := nD) (τ := τ) (p := Proc.tc) .hbm sem (DmaTarget.here (LA : Memref sig .tc .vmem S256x512 .f32))} :
    iprop(records m K ∗ ((srcA c).view.loc (c : Thread nD τ) ↦[(srcA c).view.set]{q} Pm m c) ∗ anyAt (F := F) c (LA : Memref sig .tc .vmem S256x512 .f32)
        ∗ dutyTok ER (locC c) 0 false)
      ⊢ iprop((cred (tallyAt (locC c) () NA) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (srcA c) (.here (LA : Memref sig .tc .vmem S256x512 .f32)) sem hsrc hdst hsem) k) Q) := by
  subst hs
  unfold anyAt
  iintro ⟨HR, Hsrc, ⟨%fd, Hdst⟩, Htok⟩
  iapply Rounds.wp_copy_pointsTo 𝒱₀ ER (sched m) (c : Thread nD τ) none (fs := Pm m c) (fd := fd) (d := false)
    (duties_loc m c ▸ Finset.mem_univ _) () NA rfl (amount_locA m c)
    (sep_elim_left.trans ((owns_intro (c : Thread nD τ) LA fullShare _).trans
      (Entails.of_eq (by rw [View.read_write_univ, payload_locA]; rfl))))
  iframe
  iapply rec_at m K (c, 1) $$ HR

theorem wp_localB (K : Dev nD × Fin 35 → ℕ) (c : Dev nD) {α : Type} {Q : α → sProp 𝕄} {k : PUnit → Prog (TpuEff nD τ sig (Elt F) Λ₀ .tc) α} {q : PosShare TreeShare} {sem : SemLoc sig} (hs : sem = locS)
    {hsrc : (srcB c).view.WordExact} {hdst : (LB : Memref sig .tc .vmem S32x512 .f32).view.WordExact}
    {hsem : DmaTarget.Typed (nD := nD) (τ := τ) (p := Proc.tc) .hbm sem (DmaTarget.here (LB : Memref sig .tc .vmem S32x512 .f32))} :
    iprop(records m K ∗ ((srcB c).view.loc (c : Thread nD τ) ↦[(srcB c).view.set]{q} Pm m c) ∗ anyAt (F := F) c (LB : Memref sig .tc .vmem S32x512 .f32)
        ∗ dutyTok ER (locC c) 0 true)
      ⊢ iprop((cred (tallyAt (locC c) () NB) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (srcB c) (.here (LB : Memref sig .tc .vmem S32x512 .f32)) sem hsrc hdst hsem) k) Q) := by
  subst hs
  unfold anyAt
  iintro ⟨HR, Hsrc, ⟨%fd, Hdst⟩, Htok⟩
  iapply Rounds.wp_copy_pointsTo 𝒱₀ ER (sched m) (c : Thread nD τ) none (fs := Pm m c) (fd := fd) (d := true)
    (duties_loc m c ▸ Finset.mem_univ _) () NB rfl (amount_locB m c)
    (sep_elim_left.trans ((owns_intro (c : Thread nD τ) LB fullShare _).trans
      (Entails.of_eq (by rw [View.read_write_univ, payload_locB]; rfl))))
  iframe
  iapply rec_at m K (c, 1) $$ HR

theorem wp_tile0 (K : Dev nD × Fin 35 → ℕ) (c : Dev nD) {α : Type} {Q : α → sProp 𝕄} {k : PUnit → Prog (TpuEff nD τ sig (Elt F) Λ₀ .tc) α} {q : PosShare TreeShare} {sem : SemLoc sig} (hs : sem = t0S)
    {hsrc : (srcY c 0).view.WordExact} {hdst : (Tm : Memref sig .tc .vmem S32x512 .f32).view.WordExact}
    {hsem : DmaTarget.Typed (nD := nD) (τ := τ) (p := Proc.tc) .hbm sem (DmaTarget.here (Tm : Memref sig .tc .vmem S32x512 .f32))} :
    iprop(records m K ∗ ((srcY c 0).view.loc (c : Thread nD τ) ↦[(srcY c 0).view.set]{q} Pm m c) ∗ anyAt (F := F) c (Tm : Memref sig .tc .vmem S32x512 .f32)
        ∗ dutyTok ER (t0C c) 0 false)
      ⊢ iprop((cred (tallyAt (t0C c) () NT) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (srcY c 0) (.here (Tm : Memref sig .tc .vmem S32x512 .f32)) sem hsrc hdst hsem) k) Q) := by
  subst hs
  unfold anyAt
  iintro ⟨HR, Hsrc, ⟨%fd, Hdst⟩, Htok⟩
  iapply Rounds.wp_copy_pointsTo 𝒱₀ ER (sched m) (c : Thread nD τ) none (fs := Pm m c) (fd := fd) (d := false)
    (duties_t0 m c ▸ Finset.mem_singleton_self _) () NT rfl (amount_t0 m c false)
    (sep_elim_left.trans ((owns_intro (c : Thread nD τ) Tm fullShare _).trans
      (Entails.of_eq (by rw [View.read_write_univ, payload_t0 m c false, yVal, dif_pos (by decide)]; rfl))))
  iframe
  iapply rec_at m K (c, 2) $$ HR

/-- One wait takes the whole of round 0 of cell `dmaS i`: `X` gives the level evidence and the position, `P` is the round's payload. -/
theorem wp_wait_one (K : Dev nD × Fin 35 → ℕ) (c : Dev nD) {i : ℕ} {hi : i < 36} (h2 : 2 ≤ i) {N : ℕ} {P X : sProp 𝕄}
    {O : CellTallies nD τ sig Unit}
    (hexp : (sched m).expect (cell c (dmaS i hi)) 0 = N)
    (hM : X ⊢ iprop(MayWait (c : Thread nD τ) (dmaS i hi) () O ∗ atPos ER (cell c (dmaS i hi)) 0 ∅ 0))
    (hrest : bigSep ((sched m).duties (cell c (dmaS i hi)) 0 \ ∅) (fun d => (sched m).payload (cell c (dmaS i hi)) 0 d) = P)
    {α : Type} {Q : α → sProp 𝕄} {k : PUnit → Prog (TpuEff nD τ sig (Elt F) Λ₀ .tc) α} {W : Waits sig Unit} {sem : DmaSem sig} (hs : SemLoc.dma sem = dmaS i hi)
    {sp sp' : Space} {s s' : Shape} {e e' : EltTy} {src : Memref sig .tc sp' s' e'} {dst : Memref sig .tc sp s e}
    (hamt : dst.view.dmaCredit = N) {hsrc : src.view.WordExact} {hdst : dst.view.WordExact} :
    iprop(records m K ∗ cred (tallyAt (cell c (dmaS i hi)) () N) ∗ owes (c : Thread nD τ) O W ∗ X)
      ⊢ iprop(((owes (c : Thread nD τ) O (insert (dmaS i hi, ()) W) ∗ atPos ER (cell c (dmaS i hi)) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  obtain rfl : sem = ⟨i, hi⟩ := SemLoc.dma.inj hs
  subst hamt hrest
  exact (BI.sep_mono (inv_dma m K c i hi h2) (sep_mono_right (sep_mono_right hM))).trans
    ((Rounds.wp_wait_rest_token 𝒱₀ ER (sched m) (c : Thread nD τ) none (wpE_waitDma2_eq 𝒱₀ (c : Thread nD τ) none Set.univ) (Set.mem_univ _) ()
      (R := 0) (m := 0) (T := ∅) (by rw [Nat.zero_add]; exact hexp.symm)).trans
      (wand_mono_left (wand_mono_left (sep_mono_right (sep_mono_right sep_elim_right)))))

theorem wp_wait_t0 (K : Dev nD × Fin 35 → ℕ) (c : Dev nD) {α : Type} {Q : α → sProp 𝕄} {k : PUnit → Prog (TpuEff nD τ sig (Elt F) Λ₀ .tc) α} {W : Waits sig Unit} {sem : DmaSem sig} (hs : SemLoc.dma sem = t0S)
    {sp sp' : Space} {s' : Shape} {e' : EltTy} {src : Memref sig .tc sp' s' e'} {dst : Memref sig .tc sp S32x512 .f32}
    {hsrc : src.view.WordExact} {hdst : dst.view.WordExact} :
    iprop(records m K ∗ cred (tallyAt (t0C c) () NT) ∗ owes (c : Thread nD τ) (OY c) W ∗ levAts L lv ∗ atPos ER (t0C c) 0 ∅ 0)
      ⊢ iprop(((owes (c : Thread nD τ) (OY c) (insert (t0S, ()) W) ∗ atPos ER (t0C c) 1 ∅ 0 ∗ owns (c : Thread nD τ) Tm fullShare (yVal m c 0))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  exact wp_wait_one m K c (by omega) (expect_t0 m c) (sep_mono_left (mayWait_above c t0S (owed_above c 0).2 (Nat.le_of_ble_eq_true rfl))) (rest_t0 m c) hs (dst := dst) rfl

theorem wp_wait_loc2 (K : Dev nD × Fin 35 → ℕ) (c : Dev nD) {α : Type} {Q : α → sProp 𝕄} {k : PUnit → Prog (TpuEff nD τ sig (Elt F) Λ₀ .tc) α} {W : Waits sig Unit} {sem₁ sem₂ : DmaSem sig}
    (hs₁ : SemLoc.dma sem₁ = locS) (hs₂ : SemLoc.dma sem₂ = locS)
    {sp₁ sp₁' sp₂ sp₂' : Space} {s₁' s₂' : Shape} {e₁' e₂' : EltTy}
    {src₁ : Memref sig .tc sp₁' s₁' e₁'} {dst₁ : Memref sig .tc sp₁ S256x512 .f32} {hsrc₁ : src₁.view.WordExact} {hdst₁ : dst₁.view.WordExact}
    {src₂ : Memref sig .tc sp₂' s₂' e₂'} {dst₂ : Memref sig .tc sp₂ S32x512 .f32} {hsrc₂ : src₂.view.WordExact} {hdst₂ : dst₂.view.WordExact}
    {k₁ : PUnit → Prog (TpuEff nD τ sig (Elt F) Λ₀ .tc) α} (hk₁ : k₁ ⟨⟩ = .op (.waitDma2 sem₂ src₂ dst₂ hsrc₂ hdst₂) k) :
    iprop(records m K ∗ cred (tallyAt (locC c) () NA) ∗ cred (tallyAt (locC c) () NB) ∗ owes (c : Thread nD τ) (OXk c 0) W ∗ levAts L lv
        ∗ atPos ER (locC c) 0 ∅ 0)
      ⊢ iprop(((owes (c : Thread nD τ) (OXk c 0) (insert (locS, ()) W) ∗ atPos ER (locC c) 1 ∅ 0
              ∗ owns (c : Thread nD τ) LA fullShare (aVal m c) ∗ owns (c : Thread nD τ) LB fullShare (bVal m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem₁ src₁ dst₁ hsrc₁ hdst₁) k₁) Q) := by
  obtain rfl : sem₁ = ⟨2, by decide⟩ := SemLoc.dma.inj hs₁
  obtain rfl : sem₂ = ⟨2, by decide⟩ := SemLoc.dma.inj hs₂
  rw [← show (W ∪ {(locS, ())}) ∪ {(locS, ())} = insert (locS, ()) W by
    rw [Finset.union_assoc, Finset.union_self, Finset.union_comm]; exact (Finset.insert_eq _ _).symm]
  unfold tallyAt
  iintro ⟨#HR, HcA, HcB, HO, #Hlev, Hat⟩ Hk
  ihave #HI := inv_dma m K c 2 (by decide) (by decide) $$ HR
  ihave #HM := mayWait_above c locS (owed_above c 0).1 (Nat.le_of_ble_eq_true rfl) $$ Hlev
  iapply (Rounds.wp_wait 𝒱₀ ER (sched m) (c : Thread nD τ) none
      (wpE_waitDma2_eq 𝒱₀ (c : Thread nD τ) none Set.univ) (Set.mem_univ _) (cr := Finsupp.single () NA) (O := OXk c 0) (W := W)
      {(locS, ())} (R := 0) (m := 0) (T := ∅) (by rw [Util.total_single]) (image_single_subset locS () NA)) $$ [HcA HO Hat]
  · iframe # ∗
  iintro %S ⟨%hS, HO, Hat, HpayS⟩
  rw [hk₁]
  iapply (Rounds.wp_wait_rest 𝒱₀ ER (sched m) (c : Thread nD τ) none
      (wpE_waitDma2_eq 𝒱₀ (c : Thread nD τ) none Set.univ) (Set.mem_univ _) (cr := Finsupp.single () NB) (O := OXk c 0) (W := W ∪ {(locS, ())})
      {(locS, ())} (R := 0) (m := 0 + dst₁.view.dmaCredit) (T := S) (by show 0 + NA + NB = _; rw [expect_loc, Nat.zero_add]) (by rw [Util.total_single]) (image_single_subset locS () NB)) $$ [HcB HO Hat]
  · iframe # ∗
  iintro ⟨HO, Hat, -, HpayR⟩
  iapply Hk
  rw [← rest_loc m c, Finset.sdiff_empty, Finset.sdiff_empty, show bigSep _ _ = iprop(_ ∗ _) from bigSep_sdiff_split hS.2.1]
  iframe

theorem wp_wait_ys (K : Dev nD × Fin 35 → ℕ) (c : Dev nD) (t : Fin 9) {α : Type} {Q : α → sProp 𝕄} {k : PUnit → Prog (TpuEff nD τ sig (Elt F) Λ₀ .tc) α} {W : Waits sig Unit} {sem : DmaSem sig} (hs : SemLoc.dma sem = ysS t)
    {sp sp' : Space} {s' : Shape} {e' : EltTy} {src : Memref sig .tc sp' s' e'} {dst : Memref sig .tc sp S32x512 .f32}
    {hsrc : src.view.WordExact} {hdst : dst.view.WordExact} :
    iprop(records m K ∗ cred (tallyAt (ysC c t) () NC) ∗ owes (c : Thread nD τ) 0 W ∗ atPos ER (ysC c t) 0 ∅ 0)
      ⊢ iprop(((owes (c : Thread nD τ) 0 (insert (ysS t, ()) W) ∗ atPos ER (ysC c t) 1 ∅ 0 ∗ (sched m).payload (ysC c t) 0 false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  exact wp_wait_one m K c (by omega) (expect_ys m c t) (by rw [MayWait_zero]; exact BI.emp_sep.2) (by rw [duties_ys, Finset.sdiff_empty, bigSep_singleton]) hs (dst := dst) rfl

theorem wp_wait_xs (K : Dev nD × Fin 35 → ℕ) (c : Dev nD) (r : Fin 7) {α : Type} {Q : α → sProp 𝕄} {k : PUnit → Prog (TpuEff nD τ sig (Elt F) Λ₀ .tc) α} {W : Waits sig Unit} {sem : DmaSem sig} (hs : SemLoc.dma sem = xsS r)
    {sp sp' : Space} {s' : Shape} {e' : EltTy} {src : Memref sig .tc sp' s' e'} {dst : Memref sig .tc sp S32x512 .f32}
    {hsrc : src.view.WordExact} {hdst : dst.view.WordExact} :
    iprop(records m K ∗ cred (tallyAt (xsC c r) () NO) ∗ owes (c : Thread nD τ) 0 W ∗ atPos ER (xsC c r) 0 ∅ 0)
      ⊢ iprop(((owes (c : Thread nD τ) 0 (insert (xsS r, ()) W) ∗ atPos ER (xsC c r) 1 ∅ 0
              ∗ owns (c : Thread nD τ) (Ox c r) fullShare (tileOut m c ⟨r.val, by omega⟩))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  exact wp_wait_one m K c (by omega) (expect_xs m c r) (by rw [MayWait_zero]; exact BI.emp_sep.2) (rest_xs m c r) hs (dst := dst) rfl

theorem wp_wait_yr (K : Dev nD × Fin 35 → ℕ) (c : Dev nD) (t : Fin 9) (j : ℕ) {α : Type} {Q : α → sProp 𝕄} {k : PUnit → Prog (TpuEff nD τ sig (Elt F) Λ₀ .tc) α} {W : Waits sig Unit} {sem : DmaSem sig} (hs : SemLoc.dma sem = yrS t)
    {sp sp' : Space} {s' : Shape} {e' : EltTy} {src : Memref sig .tc sp' s' e'} {dst : Memref sig .tc sp S32x512 .f32}
    {hsrc : src.view.WordExact} {hdst : dst.view.WordExact} :
    iprop(records m K ∗ cred (tallyAt (yrC c t) () NC) ∗ owes (c : Thread nD τ) (OXk c j) W ∗ levAts L lv ∗ atPos ER (yrC c t) 0 ∅ 0)
      ⊢ iprop(((owes (c : Thread nD τ) (OXk c j) (insert (yrS t, ()) W) ∗ atPos ER (yrC c t) 1 ∅ 0
              ∗ owns (c : Thread nD τ) (Ct t) fullShare (yVal m (yp c) t))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  exact wp_wait_one m K c (by omega) (expect_yr m c t) (sep_mono_left (mayWait_above c (yrS t) (owed_above c j).1 (by show (if 29 ≤ 13 + t.val then 3 else _) < 3; rw [if_neg (by omega)]; split <;> decide))) (rest_yr m c t) hs (dst := dst) rfl

theorem wp_wait_xr (K : Dev nD × Fin 35 → ℕ) (c : Dev nD) (r : Fin 7) {α : Type} {Q : α → sProp 𝕄} {k : PUnit → Prog (TpuEff nD τ sig (Elt F) Λ₀ .tc) α} {W : Waits sig Unit} {sem : DmaSem sig} (hs : SemLoc.dma sem = xrS r)
    {sp sp' : Space} {s' : Shape} {e' : EltTy} {src : Memref sig .tc sp' s' e'} {dst : Memref sig .tc sp S32x512 .f32}
    {hsrc : src.view.WordExact} {hdst : dst.view.WordExact} :
    iprop(records m K ∗ cred (tallyAt (xrC c r) () NO) ∗ owes (c : Thread nD τ) 0 W ∗ atPos ER (xrC c r) 0 ∅ 0)
      ⊢ iprop(((owes (c : Thread nD τ) 0 (insert (xrS r, ()) W) ∗ atPos ER (xrC c r) 1 ∅ 0
              ∗ owns (c : Thread nD τ) (Ox (xp c) r) fullShare (tileOut m (xp c) ⟨r.val, by omega⟩))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  exact wp_wait_one m K c (by omega) (expect_xr m c r) (by rw [MayWait_zero]; exact BI.emp_sep.2) (rest_xr m c r) hs (dst := dst) rfl

theorem close_own (K : Dev nD × Fin 35 → ℕ) (c : Dev nD) (k : Fin 34) :
    iprop(records m K ∗ atPos ER (cell c (osem k)) 1 ∅ 0) ⊢ (iprop(|={Set.univ}=> semVal (cell c (osem k)) 0) : sProp 𝕄) := by
  refine (sep_mono_left (inv_dma m K c (k.val + 2) (by omega) (by omega))).trans ?_
  exact Rounds.cell_close ER (sched m) (Set.mem_univ _) (fun h => h) (R := 1) (duties_later m (cell c (osem k)))

/-- info: 'Cert.KernelIdeal.Proto.close_own' depends on axioms: [propext, Classical.choice, Quot.sound] -/
#guard_msgs in #print axioms close_own

end Cert.KernelIdeal.Proto

end
-- ==== Proof.Proto.RulesB.lean ====
import proofs.«900599_g7700000000000600_dist_rsrms_v7x_xyz2x2x4_y_m512_d512_f32_1_alg».proof.Proof.Proto.Tables

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

local notation:max "WP⟨" c "⟩" => wp frame (wpE (defs₀ (F := F)) 𝒱₀ (c : Thread nD τ) none) Set.univ

instance (K : Dev nD × Fin 35 → ℕ) : BI.Persistent (records m K) := by
  unfold records; infer_instance

theorem wp_load_owns (c : Dev nD) {cs : CoreSpace} {s : Shape} {e : EltTy} {M : Memref sig .tc cs s e} {r : Rect s} {hs : ∀ a, r.stride a = 1}
    {hl : M.view.LoadsAt r.toLoadRect} {α : Type} {Q : α → sProp 𝕄} {k : (r.shape.Idx → Elt F e) → Prog (TpuEff nD τ sig (Elt F) Λ₀ .tc) α}
    (q : PosShare TreeShare) (X : r.shape.Idx → Elt F e) :
    owns (c : Thread nD τ) (M.slice r hs) q X
      ⊢ iprop((owns (c : Thread nD τ) (M.slice r hs) q X -∗ WP⟨c⟩ (k X) Q) -∗ WP⟨c⟩ (.op (.load M r.toLoadRect hl) k) Q) := by
  unfold owns
  iintro ⟨%f, %hf, H⟩ Hk
  subst hf
  iapply (wp_load_rect 𝒱₀ (c : Thread nD τ) none Set.univ (m := M) (r := r) (hl := hl) (k := k) (q := q) (f := f) subset_rfl) $$ H
  iintro H
  iapply Hk
  iexists f
  iframe
  ipureintro; rfl

-- An output tile is read, at any contents, and then written whole.
theorem wp_load_store (c : Dev nD) {cs : CoreSpace} {s : Shape} {e : EltTy} {M : Memref sig .tc cs s e} {r : Rect s} {hs : ∀ a, r.stride a = 1}
    {hl : M.view.LoadsAt r.toLoadRect} {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} (w : r.shape.Idx → Elt F e) :
    anyAt (F := F) c (M.slice r hs)
      ⊢ iprop((owns (c : Thread nD τ) (M.slice r hs) fullShare w -∗ WP⟨c⟩ (k ⟨⟩) Q)
          -∗ WP⟨c⟩ (.op (.load M r.toLoadRect hl) fun _ => .op (.store M r w Finset.univ hx hm) k) Q) := by
  unfold anyAt owns
  iintro ⟨%f, H⟩ Hk
  iapply (wp_load_rect 𝒱₀ (c : Thread nD τ) none Set.univ (m := M) (r := r) (hl := hl) (q := fullShare) (f := f) subset_rfl) $$ H
  iintro H
  iapply (wp_store 𝒱₀ (c : Thread nD τ) none Set.univ (m := M) (r := r) (w := w) (hx := hx) (hm := hm) (k := k) (f := f) (S := (M.access r).set) subset_rfl) $$ H
  iintro H
  iapply Hk
  iexists _
  iframe
  ipureintro; exact View.read_write_univ _ _

-- Contents that read the same through a slice read the same through every box within it.
theorem readAt_congr_within {cs : CoreSpace} {s : Shape} {e : EltTy} (M : Memref sig .tc cs s e) (r₀ : Rect s) (h₀ : ∀ a, r₀.stride a = 1) (B : LoadRect s)
    (hw : LoadRect.within r₀ B = true) {f g : M.view.ty.Contents (Elt F)}
    (hfg : (M.slice r₀ h₀).view.read (Elt F) f = (M.slice r₀ h₀).view.read (Elt F) g) : M.view.readAt (Elt F) B f = M.view.readAt (Elt F) B g :=
  funext fun x => by
    obtain ⟨y, hy⟩ := r₀.toLoadRect.exists_idx_of_mem (LoadRect.idx_mem_of_within hw x)
    rw [View.readAt_apply, View.readAt_apply, ← hy]
    exact congrFun hfg y

theorem tile_in : ∀ t : Fin 8, LoadRect.within (Rect.unit (s := S288x512) ![0, 0] S256x512.size inb_S288x512_S256x512_0_0)
    (Rect.unit (s := S288x512) ![32 * t.val, 0] S32x512.size (inb288 ⟨t.val, by omega⟩)).toLoadRect = true := by decide

theorem read_LA_lFull (c : Dev nD) (g : Buf (Elt F) ((c : Thread nD τ).loc cc0_scratch0)) :
    (LA : Memref sig .tc .vmem S256x512 .f32).view.read (Elt F) (lFull m c g) = aVal m c :=
  (View.read_slice_write_slice_of_disjoint _ _ _ _ _ (View.disjoint_slice_of_disj _ _ _ (by decide))).trans (View.read_write_univ _ _)

theorem lVal_eight (c : Dev nD) : lVal m c 8 = bVal m c := View.read_write_univ _ _

theorem wp_load_comm (K : Dev nD × Fin 35 → ℕ) (c : Dev nD) (t : Fin 9)
    {h : ∀ a, (![32 * t.val, 0] : Fin 2 → Nat) a + S32x512.size a ≤ S288x512.size a}
    {hl : (Cm : Memref sig .tc .vmem S288x512 .f32).view.LoadsAt (Rect.unit (s := S288x512) ![32 * t.val, 0] S32x512.size h).toLoadRect}
    {α : Type} {Q : α → sProp 𝕄} {k : (S32x512.Idx → Elt F .f32) → Prog (TpuEff nD τ sig (Elt F) Λ₀ .tc) α}
    (q : PosShare TreeShare) (X : S32x512.Idx → Elt F .f32) :
    owns (c : Thread nD τ) (Ct t) q X
      ⊢ iprop((owns (c : Thread nD τ) (Ct t) q X -∗ WP⟨c⟩ (k X) Q)
          -∗ WP⟨c⟩ (.op (.load Cm (Rect.unit (s := S288x512) ![32 * t.val, 0] S32x512.size h).toLoadRect hl) k) Q) := by
  apply wp_load_owns

theorem wp_load_local (K : Dev nD × Fin 35 → ℕ) (c : Dev nD) (t : Fin 8)
    {h : ∀ a, (![32 * t.val, 0] : Fin 2 → Nat) a + S32x512.size a ≤ S288x512.size a}
    {hl : (Lm : Memref sig .tc .vmem S288x512 .f32).view.LoadsAt (Rect.unit (s := S288x512) ![32 * t.val, 0] S32x512.size h).toLoadRect}
    {α : Type} {Q : α → sProp 𝕄} {k : (S32x512.Idx → Elt F .f32) → Prog (TpuEff nD τ sig (Elt F) Λ₀ .tc) α}
    (q : PosShare TreeShare) :
    owns (c : Thread nD τ) LA q (aVal m c)
      ⊢ iprop((owns (c : Thread nD τ) LA q (aVal m c) -∗ WP⟨c⟩ (k (lVal m c ⟨t.val, by omega⟩)) Q)
          -∗ WP⟨c⟩ (.op (.load Lm (Rect.unit (s := S288x512) ![32 * t.val, 0] S32x512.size h).toLoadRect hl) k) Q) := by
  unfold owns
  iintro ⟨%f, %hf, H⟩ Hk
  have hval : _ = lVal m c ⟨t.val, by omega⟩ :=
    readAt_congr_within Lm _ (fun _ => rfl) _ (tile_in t) (hf.trans (read_LA_lFull m c _).symm)
  iapply (wp_load 𝒱₀ (c : Thread nD τ) none Set.univ (hl := hl) (k := k) (q := q) (S := LA.view.set)
    (Memref.setOn_subset_slice_of_within Lm _ (fun _ => rfl) _ (tile_in t))) $$ H
  rw [hval]
  iintro H
  iapply Hk
  iexists f
  iframe
  ipureintro; exact hf

theorem wp_load_local8 (K : Dev nD × Fin 35 → ℕ) (c : Dev nD)
    {h : ∀ a, (![256, 0] : Fin 2 → Nat) a + S32x512.size a ≤ S288x512.size a}
    {hl : (Lm : Memref sig .tc .vmem S288x512 .f32).view.LoadsAt (Rect.unit (s := S288x512) ![256, 0] S32x512.size h).toLoadRect}
    {α : Type} {Q : α → sProp 𝕄} {k : (S32x512.Idx → Elt F .f32) → Prog (TpuEff nD τ sig (Elt F) Λ₀ .tc) α}
    (q : PosShare TreeShare) :
    owns (c : Thread nD τ) LB q (bVal m c)
      ⊢ iprop((owns (c : Thread nD τ) LB q (bVal m c) -∗ WP⟨c⟩ (k (lVal m c 8)) Q)
          -∗ WP⟨c⟩ (.op (.load Lm (Rect.unit (s := S288x512) ![256, 0] S32x512.size h).toLoadRect hl) k) Q) := by
  rw [lVal_eight]
  apply wp_load_owns

theorem wp_load_g (K : Dev nD × Fin 35 → ℕ) (c : Dev nD)
    {hl : (Gm : Memref sig .tc .vmem S512 .f32).view.LoadsAt (Rect.unit (s := S512) ![0] S512.size inb_S512_S512_0).toLoadRect}
    {α : Type} {Q : α → sProp 𝕄} {k : (S512.Idx → Elt F .f32) → Prog (TpuEff nD τ sig (Elt F) Λ₀ .tc) α} :
    iprop(∃ f, ⌜f = gVec m c⌝ ∗ (((c : Thread nD τ).loc cc0_stg0_0) ↦{fullShare} f))
      ⊢ iprop((iprop(∃ f, ⌜f = gVec m c⌝ ∗ (((c : Thread nD τ).loc cc0_stg0_0) ↦{fullShare} f)) -∗ WP⟨c⟩ (k (gVec m c)) Q)
          -∗ WP⟨c⟩ (.op (.load Gm (Rect.unit (s := S512) ![0] S512.size inb_S512_S512_0).toLoadRect hl) k) Q) := by
  iintro ⟨%f, %hf, H⟩ Hk
  subst hf
  iapply (wp_load 𝒱₀ (c : Thread nD τ) none Set.univ (hl := hl) (k := k) (f := gVec m c) (Finset.subset_univ _)) $$ H
  rw [show (Gm : Memref sig .tc .vmem S512 .f32).view.readAt (Elt F) _ (gVec m c) = gVec m c from
    Memref.readAt_unit_zero (Elt F) cc0_stg0_0 (by decide) _ _]
  iintro H
  iapply Hk
  iexists _
  iframe
  ipureintro; rfl

theorem wp_out_tile (K : Dev nD × Fin 35 → ℕ) (c : Dev nD) (r : Fin 8)
    {hl : (Om : Memref sig .tc .vmem S512x512 .f32).view.LoadsAt (Rect.unit (s := S512x512) (k0_off5 c (BitVec.ofNat 32 (32 * r.val))) S32x512.size (k0_off5_inb c r)).toLoadRect}
    {hx : ((Om : Memref sig .tc .vmem S512x512 .f32).access (Rect.unit (s := S512x512) (k0_off5 c (BitVec.ofNat 32 (32 * r.val))) S32x512.size (k0_off5_inb c r))).Stores Finset.univ}
    {hm : (Finset.univ : Finset S32x512.Idx) = Finset.univ ∨ ∀ a, (Rect.unit (s := S512x512) (k0_off5 c (BitVec.ofNat 32 (32 * r.val))) S32x512.size (k0_off5_inb c r)).stride a = 1}
    {α : Type} {Q : α → sProp 𝕄} {k : PUnit → Prog (TpuEff nD τ sig (Elt F) Λ₀ .tc) α}
    (w : S32x512.Idx → Elt F .f32) :
    anyAt (F := F) c (Oo c r)
      ⊢ iprop((owns (c : Thread nD τ) (Oo c r) fullShare w -∗ WP⟨c⟩ (k ⟨⟩) Q)
          -∗ WP⟨c⟩ (.op (.load Om (Rect.unit (s := S512x512) (k0_off5 c (BitVec.ofNat 32 (32 * r.val))) S32x512.size (k0_off5_inb c r)).toLoadRect hl)
              fun _ => .op (.store Om (Rect.unit (s := S512x512) (k0_off5 c (BitVec.ofNat 32 (32 * r.val))) S32x512.size (k0_off5_inb c r)) w Finset.univ hx hm) k) Q) := by
  apply wp_load_store

theorem wp_out_tile8 (K : Dev nD × Fin 35 → ℕ) (c : Dev nD)
    {hl : (Om : Memref sig .tc .vmem S512x512 .f32).view.LoadsAt (Rect.unit (s := S512x512) (k0_off7 c) S32x512.size (k0_off7_inb c)).toLoadRect}
    {hx : ((Om : Memref sig .tc .vmem S512x512 .f32).access (Rect.unit (s := S512x512) (k0_off7 c) S32x512.size (k0_off7_inb c))).Stores Finset.univ}
    {hm : (Finset.univ : Finset S32x512.Idx) = Finset.univ ∨ ∀ a, (Rect.unit (s := S512x512) (k0_off7 c) S32x512.size (k0_off7_inb c)).stride a = 1}
    {α : Type} {Q : α → sProp 𝕄} {k : PUnit → Prog (TpuEff nD τ sig (Elt F) Λ₀ .tc) α}
    (w : S32x512.Idx → Elt F .f32) :
    anyAt (F := F) c (Oo8 c)
      ⊢ iprop((owns (c : Thread nD τ) (Oo8 c) fullShare w -∗ WP⟨c⟩ (k ⟨⟩) Q)
          -∗ WP⟨c⟩ (.op (.load Om (Rect.unit (s := S512x512) (k0_off7 c) S32x512.size (k0_off7_inb c)).toLoadRect hl)
              fun _ => .op (.store Om (Rect.unit (s := S512x512) (k0_off7 c) S32x512.size (k0_off7_inb c)) w Finset.univ hx hm) k) Q) := by
  apply wp_load_store

theorem rec_dma (K : Dev nD × Fin 35 → ℕ) (c : Dev nD) (i : ℕ) (h2 : 2 ≤ i) (hi : i < 36) :
    records m K ⊢ iprop(cellInv ER (sched m) (K (c, ⟨i - 1, by omega⟩)) (cell c (dmaS i hi)) ∗ reached ER (cell c (dmaS i hi)) 0) := by
  have e : kcell (c, ⟨i - 1, by omega⟩) = cell c (dmaS i hi) := by
    obtain ⟨j, rfl⟩ := Nat.exists_eq_add_of_le' h2
    rfl
  unfold records
  rw [← e]
  exact BI.sep_mono (BI.bigSep_elim (Finset.mem_univ _)) (BI.bigSep_elim (Finset.mem_univ _))

-- A remote copy of one tile from DMA cell i of the sender to DMA cell j of device n: all sixteen transfers are instances.
theorem wp_send_owns (K : Dev nD × Fin 35 → ℕ) {c n : Dev nD} {sp : Space} {src : Memref sig .tc sp S32x512 .f32} {dst : Memref sig .tc .vmem S32x512 .f32}
    {i j : ℕ} {hi : i < 36} {hj : j < 36} (hi3 : 3 ≤ i) (hj3 : 3 ≤ j) {N : ℕ}
    {hsc : (dst : Memref sig (Dev.tc n : Thread nD τ).2.kind .vmem S32x512 .f32).view.ref.isScScratch = false}
    {hsrc : src.view.WordExact} {hdst : dst.view.WordExact}
    {hsem : DmaTarget.Typed sp (dmaS j hj) (.remote (Dev.tc n : Thread nD τ) dst (dmaS i hi) hsc)}
    {α : Type} {Q : α → sProp 𝕄} {k : PUnit → Prog (TpuEff nD τ sig (Elt F) Λ₀ .tc) α}
    {q : PosShare TreeShare} {X : S32x512.Idx → Elt F .f32} {O : CellTallies nD τ sig Unit} {W : Waits sig Unit}
    (hN : dst.view.amount (dmaS j hj) = N)
    (hk₁ : (sched m).amount (cell c (dmaS i hi)) 0 false = N) (hk₂ : (sched m).amount (cell n (dmaS j hj)) 0 false = N)
    (hpay₁ : owns (c : Thread nD τ) src q X ⊢ (sched m).payload (cell c (dmaS i hi)) 0 false)
    (hpay₂ : owns (n : Thread nD τ) dst fullShare X ⊢ (sched m).payload (cell n (dmaS j hj)) 0 false) :
    iprop(records m K ∗ owns (c : Thread nD τ) src q X ∗ anyAt (F := F) n dst
        ∗ owes (c : Thread nD τ) (O + tallyAt (cell n (dmaS j hj)) () N) W
        ∗ dutyTok ER (cell c (dmaS i hi)) 0 false ∗ dutyTok ER (cell n (dmaS j hj)) 0 false)
      ⊢ iprop(((cred (tallyAt (cell c (dmaS i hi)) () N) ∗ owes (c : Thread nD τ) O W) -∗ WP⟨c⟩ (k ⟨⟩) Q)
          -∗ WP⟨c⟩ (.op (.enqueueDma src (.remote (Dev.tc n : Thread nD τ) dst (dmaS i hi) hsc) (dmaS j hj) hsrc hdst hsem) k) Q) := by
  unfold anyAt owns
  iintro ⟨#HR, ⟨%fs, %hfs, Hsrc⟩, ⟨%fd, Hdst⟩, HO, Ht1, Ht2⟩ Hk
  subst hfs
  have h₂ := owns_intro (Val := Elt F) (Ix := Unit) (Name := ℕ) (U := UU) (Lvl := ℕ) (n : Thread nD τ) dst fullShare
    (dst.view.write (Elt F) fd (src.view.read (Elt F) fs) Finset.univ)
  rw [View.read_write_univ] at h₂
  iapply (Rounds.wp_send_pointsTo 𝒱₀ ER (sched m) (c : Thread nD τ) none (κ₁ := K (c, ⟨i - 1, by omega⟩)) (κ₂ := K (n, ⟨j - 1, by omega⟩)) (c' := (Dev.tc n : Thread nD τ)) (src := src) (dst := dst) (q := q) (fs := fs) (fd := fd)
    (r₁ := 0) (r₂ := 0) (d₁ := false) (d₂ := false) ((duties_dma m c i hi hi3).ge (Finset.mem_singleton_self _))
    ((duties_dma m n j hj hj3).ge (Finset.mem_singleton_self _)) () () N hN hk₁ hk₂ O rfl (W := W)
    ((owns_intro (c : Thread nD τ) src q fs).trans hpay₁) (h₂.trans hpay₂)) $$ [Hsrc Hdst HO Ht1 Ht2] [Hk]
  · ihave ⟨#I1, #R1⟩ := rec_dma m K c i (by omega) hi $$ HR
    ihave ⟨#I2, #R2⟩ := rec_dma m K n j (by omega) hj $$ HR
    iframe # ∗
  · iexact Hk

theorem wp_ysend0 (K : Dev nD × Fin 35 → ℕ) (c n : Dev nD) (hn : n = yp c)
    {hsc : (Ct 0 : Memref sig (Dev.tc n : Thread nD τ).2.kind .vmem S32x512 .f32).view.ref.isScScratch = false}
    {hsrc : (Tm : Memref sig .tc .vmem S32x512 .f32).view.WordExact} {hdst : (Ct 0 : Memref sig .tc .vmem S32x512 .f32).view.WordExact}
    {hsem : DmaTarget.Typed .vmem (yrS 0) (.remote (Dev.tc n : Thread nD τ) (Ct 0 : Memref sig .tc .vmem S32x512 .f32) (ysS 0) hsc)}
    {α : Type} {Q : α → sProp 𝕄} {k : PUnit → Prog (TpuEff nD τ sig (Elt F) Λ₀ .tc) α}
    (O : CellTallies nD τ sig Unit) (W : Waits sig Unit) :
    iprop(records m K ∗ owns (c : Thread nD τ) Tm fullShare (yVal m c 0) ∗ anyAt (F := F) (yp c) (Ct 0)
        ∗ owes (c : Thread nD τ) (O + tallyAt (yrC (yp c) 0) () NC) W
        ∗ dutyTok ER (ysC c 0) 0 false ∗ dutyTok ER (yrC (yp c) 0) 0 false)
      ⊢ iprop(((cred (tallyAt (ysC c 0) () NC) ∗ owes (c : Thread nD τ) O W) -∗ WP⟨c⟩ (k ⟨⟩) Q)
          -∗ WP⟨c⟩ (.op (.enqueueDma Tm (.remote (Dev.tc n : Thread nD τ) (Ct 0) (ysS 0) hsc) (yrS 0) hsrc hdst hsem) k) Q) := by
  subst hn
  exact wp_send_owns m K (by decide) (by decide) (amt_Ct 0)
    (amount_ys m c 0 false) (amount_yr m (yp c) 0 false)
    (by rw [payload_ys0]; unfold owns anyAt; iintro ⟨%f, -, H⟩; iexists f; iexact H)
    (by rw [payload_yr, yp_yp])

theorem wp_ysend (K : Dev nD × Fin 35 → ℕ) (c n : Dev nD) (hn : n = yp c) (r : Fin 8) (hr : r.val ≠ 0)
    {hsc : (Ct ⟨r.val, by omega⟩ : Memref sig (Dev.tc n : Thread nD τ).2.kind .vmem S32x512 .f32).view.ref.isScScratch = false}
    {hsrc : (srcY c r : Memref sig .tc .hbm S32x512 .f32).view.WordExact} {hdst : (Ct ⟨r.val, by omega⟩ : Memref sig .tc .vmem S32x512 .f32).view.WordExact}
    {hsem : DmaTarget.Typed .hbm (yrS ⟨r.val, by omega⟩) (.remote (Dev.tc n : Thread nD τ) (Ct ⟨r.val, by omega⟩ : Memref sig .tc .vmem S32x512 .f32) (ysS ⟨r.val, by omega⟩) hsc)}
    {α : Type} {Q : α → sProp 𝕄} {k : PUnit → Prog (TpuEff nD τ sig (Elt F) Λ₀ .tc) α}
    (q : PosShare TreeShare) (O : CellTallies nD τ sig Unit) (W : Waits sig Unit) :
    iprop(records m K ∗ ((srcY c r).view.loc (c : Thread nD τ) ↦[(srcY c r).view.set]{q} Pm m c) ∗ anyAt (F := F) (yp c) (Ct ⟨r.val, by omega⟩)
        ∗ owes (c : Thread nD τ) (O + tallyAt (yrC (yp c) ⟨r.val, by omega⟩) () NC) W
        ∗ dutyTok ER (ysC c ⟨r.val, by omega⟩) 0 false ∗ dutyTok ER (yrC (yp c) ⟨r.val, by omega⟩) 0 false)
      ⊢ iprop(((cred (tallyAt (ysC c ⟨r.val, by omega⟩) () NC) ∗ owes (c : Thread nD τ) O W) -∗ WP⟨c⟩ (k ⟨⟩) Q)
          -∗ WP⟨c⟩ (.op (.enqueueDma (srcY c r) (.remote (Dev.tc n : Thread nD τ) (Ct ⟨r.val, by omega⟩) (ysS ⟨r.val, by omega⟩) hsc) (yrS ⟨r.val, by omega⟩) hsrc hdst hsem) k) Q) := by
  subst hn
  have ht : (⟨r.val, by omega⟩ : Fin 9) ≠ 0 := fun e => hr (congrArg Fin.val e)
  exact (sep_mono_right (sep_mono_left (owns_intro _ _ q _))).trans
    (wp_send_owns m K (by omega) (by omega) (amt_Ct _)
      (amount_ys m c ⟨r.val, by omega⟩ false) (amount_yr m (yp c) ⟨r.val, by omega⟩ false)
      (by rw [payload_ys m c ⟨r.val, by omega⟩ false ht]; exact Laws.affine)
      (by rw [payload_yr m (yp c) ⟨r.val, by omega⟩ false, yp_yp, yVal, dif_pos r.isLt]))

theorem wp_ysend8 (K : Dev nD × Fin 35 → ℕ) (c n : Dev nD) (hn : n = yp c)
    {hsc : (Ct 8 : Memref sig (Dev.tc n : Thread nD τ).2.kind .vmem S32x512 .f32).view.ref.isScScratch = false}
    {hsrc : (srcY8 c : Memref sig .tc .hbm S32x512 .f32).view.WordExact} {hdst : (Ct 8 : Memref sig .tc .vmem S32x512 .f32).view.WordExact}
    {hsem : DmaTarget.Typed .hbm (yrS 8) (.remote (Dev.tc n : Thread nD τ) (Ct 8 : Memref sig .tc .vmem S32x512 .f32) (ysS 8) hsc)}
    {α : Type} {Q : α → sProp 𝕄} {k : PUnit → Prog (TpuEff nD τ sig (Elt F) Λ₀ .tc) α}
    (q : PosShare TreeShare) (O : CellTallies nD τ sig Unit) (W : Waits sig Unit) :
    iprop(records m K ∗ ((srcY8 c).view.loc (c : Thread nD τ) ↦[(srcY8 c).view.set]{q} Pm m c) ∗ anyAt (F := F) (yp c) (Ct 8)
        ∗ owes (c : Thread nD τ) (O + tallyAt (yrC (yp c) 8) () NC) W
        ∗ dutyTok ER (ysC c 8) 0 false ∗ dutyTok ER (yrC (yp c) 8) 0 false)
      ⊢ iprop(((cred (tallyAt (ysC c 8) () NC) ∗ owes (c : Thread nD τ) O W) -∗ WP⟨c⟩ (k ⟨⟩) Q)
          -∗ WP⟨c⟩ (.op (.enqueueDma (srcY8 c) (.remote (Dev.tc n : Thread nD τ) (Ct 8) (ysS 8) hsc) (yrS 8) hsrc hdst hsem) k) Q) := by
  subst hn
  exact (sep_mono_right (sep_mono_left (owns_intro _ _ q _))).trans
    (wp_send_owns m K (by decide) (by decide) (amt_Ct 8)
      (amount_ys m c 8 false) (amount_yr m (yp c) 8 false)
      (by rw [payload_ys m c 8 false (by decide)]; exact Laws.affine)
      (by rw [payload_yr m (yp c) 8 false, yp_yp, yVal, dif_neg (by decide)]))

theorem wp_xsend (K : Dev nD × Fin 35 → ℕ) (c n : Dev nD) (hn : n = xp c) (r : Fin 7)
    {hsc : (Ox c r : Memref sig (Dev.tc n : Thread nD τ).2.kind .vmem S32x512 .f32).view.ref.isScScratch = false}
    {hsrc : (Ox c r : Memref sig .tc .vmem S32x512 .f32).view.WordExact} {hdst : (Ox c r : Memref sig .tc .vmem S32x512 .f32).view.WordExact}
    {hsem : DmaTarget.Typed .vmem (xrS r) (.remote (Dev.tc n : Thread nD τ) (Ox c r : Memref sig .tc .vmem S32x512 .f32) (xsS r) hsc)}
    {α : Type} {Q : α → sProp 𝕄} {k : PUnit → Prog (TpuEff nD τ sig (Elt F) Λ₀ .tc) α}
    (O : CellTallies nD τ sig Unit) (W : Waits sig Unit) :
    iprop(records m K ∗ owns (c : Thread nD τ) (Ox c r) fullShare (tileOut m c ⟨r.val, by omega⟩) ∗ anyAt (F := F) (xp c) (Ox c r)
        ∗ owes (c : Thread nD τ) (O + tallyAt (xrC (xp c) r) () NO) W
        ∗ dutyTok ER (xsC c r) 0 false ∗ dutyTok ER (xrC (xp c) r) 0 false)
      ⊢ iprop(((cred (tallyAt (xsC c r) () NO) ∗ owes (c : Thread nD τ) O W) -∗ WP⟨c⟩ (k ⟨⟩) Q)
          -∗ WP⟨c⟩ (.op (.enqueueDma (Ox c r) (.remote (Dev.tc n : Thread nD τ) (Ox c r) (xsS r) hsc) (xrS r) hsrc hdst hsem) k) Q) := by
  subst hn
  exact wp_send_owns m K (by omega) (by omega) (amt_Ox c r)
    (amount_xs m c r false) (amount_xr m (xp c) r false)
    (by rw [payload_xs]) (by rw [payload_xr, xp_xp])

/-- info: 'Cert.KernelIdeal.Proto.wp_xsend' depends on axioms: [propext, Classical.choice, Quot.sound] -/
#guard_msgs in #print axioms wp_xsend

end Cert.KernelIdeal.Proto

end
-- ==== Proof.Proto.Body.lean ====
import proofs.«900599_g7700000000000600_dist_rsrms_v7x_xyz2x2x4_y_m512_d512_f32_1_alg».proof.Proof.Proto.Big
import proofs.«900599_g7700000000000600_dist_rsrms_v7x_xyz2x2x4_y_m512_d512_f32_1_alg».proof.Proof.Proto.Regions
import proofs.«900599_g7700000000000600_dist_rsrms_v7x_xyz2x2x4_y_m512_d512_f32_1_alg».proof.Proof.Proto.RulesA
import proofs.«900599_g7700000000000600_dist_rsrms_v7x_xyz2x2x4_y_m512_d512_f32_1_alg».proof.Proof.Proto.RulesB

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

abbrev t₀ : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 35 → ℕ) (c : Dev nD) : sProp 𝕄 :=
  iprop((ghost m K c ∗ launchCreds c ∗ levAts L lv ∗ (((c : Thread nD τ).loc main_arg0) ↦{fullShare} Pm m c) ∗ scratches c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (gVec m c) ∗ stg c cc0_stg1_0 (outAt m c))

theorem yEntry_eq (c : Dev nD) : yEntry (F := F) c = iprop(anyAt (F := F) (yp c) (Ct 0) ∗ anyAt (F := F) (yp c) (Ct 1) ∗ anyAt (F := F) (yp c) (Ct 2) ∗ anyAt (F := F) (yp c) (Ct 3) ∗ anyAt (F := F) (yp c) (Ct 4) ∗ anyAt (F := F) (yp c) (Ct 5) ∗ anyAt (F := F) (yp c) (Ct 6) ∗ anyAt (F := F) (yp c) (Ct 7) ∗ anyAt (F := F) (yp c) (Ct 8)) := by
  unfold yEntry; exact bigSep_fin9 _
theorem xEntry_eq (c : Dev nD) : xEntry (F := F) c = iprop(anyAt (F := F) (xp c) (Ox c 0) ∗ anyAt (F := F) (xp c) (Ox c 1) ∗ anyAt (F := F) (xp c) (Ox c 2) ∗ anyAt (F := F) (xp c) (Ox c 3) ∗ anyAt (F := F) (xp c) (Ox c 4) ∗ anyAt (F := F) (xp c) (Ox c 5) ∗ anyAt (F := F) (xp c) (Ox c 6)) := by
  unfold xEntry; exact bigSep_fin7 _

omit [FloatOps F] in
theorem owes_cast (c : Dev nD) {O O' : CellTallies nD τ sig Unit} (h : O = O') (W : Waits sig Unit) :
    (owes (c : Thread nD τ) O W : sProp 𝕄) ⊢ owes (c : Thread nD τ) O' W := by
  subst h; exact .rfl
omit [FloatOps F] in
theorem anyAt_Tm (c : Dev nD) : anyAt (F := F) c Tm
    = iprop(∃ f : Buf (Elt F) ((c : Thread nD τ).loc cc0_scratch2), ((c : Thread nD τ).loc cc0_scratch2) ↦{fullShare} f) := by
  unfold anyAt; simp only [Memref.view_whole, View.set_whole]

omit [FloatOps F] in
theorem owes_ex (c : Dev nD) (O : CellTallies nD τ sig Unit) (W : Waits sig Unit) :
    (owes (c : Thread nD τ) O W : sProp 𝕄) ⊢ iprop(∃ W', owes (c : Thread nD τ) O W') := by
  iintro H; iexists W; iexact H

set_option maxHeartbeats 8000000 in
set_option maxRecDepth 65536 in
/-- One device's body, a rule of the protocol at each step: what a rule consumes is framed, what it hands back is named. -/
theorem sound_body (K : Dev nD × Fin 35 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6 cc0_scratch7 cc0_scratch8) Kt := by
  simp only [cc0_body_eq_skeleton]; unfold cc0_body_skel
  simp only [k0_part1_eq_skeleton, k0_part2_eq_skeleton]
  unfold k0_part1_skel k0_part2_skel
  simp only [semSignalWord, semWaitWord, Prog.lift, Prog.bind_op, Prog.bind_ret, Prog.pure_eq_ret, wp_deviceId]
  unfold bodyPre ghost positions payToks launchCreds scratches
  simp only [bigSep_fin35, bigSep_fin9, bigSep_fin7]
  iintro ⟨⟨⟨⟨#Hrec, ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34⟩, HtLA, HtLB, HtT0, ⟨HtYS0, HtYS1, HtYS2, HtYS3, HtYS4, HtYS5, HtYS6, HtYS7, HtYS8⟩, ⟨HtXS0, HtXS1, HtXS2, HtXS3, HtXS4, HtXS5, HtXS6⟩, HtBy, HtBx, ⟨HtYR0, HtYR1, HtYR2, HtYR3, HtYR4, HtYR5, HtYR6, HtYR7, HtYR8⟩, ⟨HtXR0, HtXR1, HtXR2, HtXR3, HtXR4, HtXR5, HtXR6⟩⟩,
      ⟨HcB, ⟨HcYR0, HcYR1, HcYR2, HcYR3, HcYR4, HcYR5, HcYR6, HcYR7, HcYR8⟩, ⟨HcXR0, HcXR1, HcXR2, HcXR3, HcXR4, HcXR5, HcXR6⟩⟩, #Hlev, Harg, HL, HC, HT⟩,
    Ho, ⟨%d0, %g0, %hg0, Hg⟩, ⟨%d1, %g1, %hg1, Hout⟩⟩, Hk⟩
  unfold Dat.owesAt Pipeline.owesWithin
  icases Ho with ⟨%W, %hW, HO⟩
  rw [show (dats m 0 c).owed t₀.castSucc = O₀ c from rfl]
  have hx : g0 = gVec m c := by rw [hg0]; unfold Dat.before; rw [if_pos (fetch0_0 t₀)]; rfl
  subst hx
  ihave ⟨HLA, HLB, HLr⟩ := (splitL (F := F) c) $$ HL
  ihave ⟨HCt, HCr⟩ := (splitC (F := F) c) $$ HC
  ihave HOs := (splitO (F := F) c) $$ [Hout]
  · iexists g1; iexact Hout
  rw [bigSep_fin8]
  icases HOs with ⟨⟨HOo0, HOo1, HOo2, HOo3, HOo4, HOo5, HOo6, HOo7⟩, HOo8, HOi, HOr⟩
  ihave ⟨Hr0, Harg⟩ := (share_take (F := F) (q := fullShare) 0 1 rfl rfl (srcA c).view.set) $$ Harg
  ihave ⟨Hr1, Harg⟩ := (share_take (F := F) 1 2 rfl rfl (srcB c).view.set) $$ Harg
  ihave ⟨Hr2, Harg⟩ := (share_take (F := F) 2 3 rfl rfl (srcY c 0).view.set) $$ Harg
  ihave ⟨Hr3, Harg⟩ := (share_take (F := F) 3 4 rfl rfl (srcY c 1).view.set) $$ Harg
  ihave ⟨Hr4, Harg⟩ := (share_take (F := F) 4 5 rfl rfl (srcY c 2).view.set) $$ Harg
  ihave ⟨Hr5, Harg⟩ := (share_take (F := F) 5 6 rfl rfl (srcY c 3).view.set) $$ Harg
  ihave ⟨Hr6, Harg⟩ := (share_take (F := F) 6 7 rfl rfl (srcY c 4).view.set) $$ Harg
  ihave ⟨Hr7, Harg⟩ := (share_take (F := F) 7 8 rfl rfl (srcY c 5).view.set) $$ Harg
  ihave ⟨Hr8, Harg⟩ := (share_take (F := F) 8 9 rfl rfl (srcY c 6).view.set) $$ Harg
  ihave ⟨Hr9, Harg⟩ := (share_take (F := F) 9 10 rfl rfl (srcY c 7).view.set) $$ Harg
  ihave ⟨Hr10, Harg⟩ := (share_take (F := F) 10 11 rfl rfl (srcY8 c).view.set) $$ Harg
  iapply (wp_localA m K c (q := (sh 0).left) rfl) $$ [Hr0 HLA HtLA]
  · iframe # ∗
  iintro HcLA
  iapply (wp_localB m K c (q := (sh 1).left) rfl) $$ [Hr1 HLB HtLB]
  · iframe # ∗
  iintro HcLB
  iapply (wp_tile0 m K c (q := (sh 2).left) rfl) $$ [Hr2 HT HtT0]
  · rw [anyAt_Tm]; iframe # ∗
  iintro HcT0
  iapply (wp_sig_y m K c (n := (1#32 : BitVec 32).toNat) (by decide)) $$ [HO HtBy HCt]
  · iframe # ∗
  iintro HO
  iapply (wp_sig_x m K c (n := (1#32 : BitVec 32).toNat) (by decide)) $$ [HO HtBx HOi]
  · iframe # ∗
  iintro HO
  iapply (wp_wait_bar m K c (n := (2#32 : BitVec 32).toNat) (by decide)) $$ [HcB HO Hp0]
  · iframe # ∗; iexact Hp0
  iintro ⟨HO, Hp0, HyE, HxE⟩
  ihave HyE := (Entails.of_eq (yEntry_eq (F := F) c)) $$ HyE
  ihave HxE := (Entails.of_eq (xEntry_eq (F := F) c)) $$ HxE
  icases HyE with ⟨HD0, HD1, HD2, HD3, HD4, HD5, HD6, HD7, HD8⟩
  icases HxE with ⟨HE0, HE1, HE2, HE3, HE4, HE5, HE6⟩
  iapply (wp_wait_t0 m K c rfl) $$ [HcT0 HO Hp2]
  · iframe # ∗; iexact Hp2
  iintro ⟨HO, Hp2, HT⟩
  try simp only [k0_part3_eq_skeleton, k0_part4_eq_skeleton, k0_part5_eq_skeleton, k0_part6_eq_skeleton, k0_part7_eq_skeleton]
  try unfold k0_part3_skel k0_part4_skel k0_part5_skel k0_part6_skel k0_part7_skel
  try simp only [semSignalWord, semWaitWord, Prog.lift, Prog.bind_op, Prog.bind_ret, Prog.pure_eq_ret]
  iapply (wp_ysend0 m K c _ (dev3_eq c) (OYk c 1) _) $$ [HT HD0 HO HtYS0 HtYR0]
  · iframe # ∗; iexact HO
  iintro ⟨HcYS0, HO⟩
  iapply (wp_ysend m K c _ (dev4_eq c) 1 (by decide) (sh 3).left (OYk c 2) _) $$ [Hr3 HD1 HO HtYS1 HtYR1]
  · iframe # ∗; iexact HO
  iintro ⟨HcYS1, HO⟩
  iapply (wp_ysend m K c _ (dev5_eq c) 2 (by decide) (sh 4).left (OYk c 3) _) $$ [Hr4 HD2 HO HtYS2 HtYR2]
  · iframe # ∗; iexact HO
  iintro ⟨HcYS2, HO⟩
  iapply (wp_ysend m K c _ (dev6_eq c) 3 (by decide) (sh 5).left (OYk c 4) _) $$ [Hr5 HD3 HO HtYS3 HtYR3]
  · iframe # ∗; iexact HO
  iintro ⟨HcYS3, HO⟩
  iapply (wp_ysend m K c _ (dev7_eq c) 4 (by decide) (sh 6).left (OYk c 5) _) $$ [Hr6 HD4 HO HtYS4 HtYR4]
  · iframe # ∗; iexact HO
  iintro ⟨HcYS4, HO⟩
  iapply (wp_ysend m K c _ (dev8_eq c) 5 (by decide) (sh 7).left (OYk c 6) _) $$ [Hr7 HD5 HO HtYS5 HtYR5]
  · iframe # ∗; iexact HO
  iintro ⟨HcYS5, HO⟩
  iapply (wp_ysend m K c _ (dev9_eq c) 6 (by decide) (sh 8).left (OYk c 7) _) $$ [Hr8 HD6 HO HtYS6 HtYR6]
  · iframe # ∗; iexact HO
  iintro ⟨HcYS6, HO⟩
  iapply (wp_ysend m K c _ (dev10_eq c) 7 (by decide) (sh 9).left (OYk c 8) _) $$ [Hr9 HD7 HO HtYS7 HtYR7]
  · iframe # ∗; iexact HO
  iintro ⟨HcYS7, HO⟩
  iapply (wp_ysend8 m K c _ (dev11_eq c) (sh 10).left (OYk c 9) _) $$ [Hr10 HD8 HO HtYS8 HtYR8]
  · iframe # ∗; iexact HO
  iintro ⟨HcYS8, HO⟩
  iapply (wp_wait_loc2 m K c rfl rfl rfl) $$ [HcLA HcLB HO Hp1]
  · iframe # ∗; isplitl [HO]; iexact HO; iexact Hp1
  iintro ⟨HO, Hp1, HLA, HLB⟩
  iapply (wp_load_g m K c) $$ [Hg]
  · iexists _; isplitr; · (ipureintro; rfl)
    iexact Hg
  iintro Hg
  iapply (wp_wait_yr m K c 0 0 rfl) $$ [HcYR0 HO Hp12]
  · iframe # ∗; iexact Hp12
  iintro ⟨HO, Hp12, HC0⟩
  iapply (wp_load_local m K c 0 fullShare) $$ HLA
  iintro HLA
  iapply (wp_load_comm K c 0 fullShare (yVal m (yp c) 0)) $$ HC0
  iintro HC0
  try simp only [k0_part8_eq_skeleton]
  try unfold k0_part8_skel
  try simp only [semSignalWord, semWaitWord, Prog.lift, Prog.bind_op, Prog.bind_ret, Prog.pure_eq_ret]
  iapply (wp_out_tile K c 0 (tileOut m c 0)) $$ HOo0
  iintro HOo0
  ihave HOo0 := (owns_cast (F := F) c (Ox_eq_Oo c 0).symm fullShare (tileOut m c 0)) $$ HOo0
  iapply (wp_xsend m K c _ (dev12_eq c) 0 (OXk c 1) _) $$ [HOo0 HE0 HO HtXS0 HtXR0]
  · iframe # ∗; isplitl [HOo0]; iexact HOo0; iexact HO
  iintro ⟨HcXS0, HO⟩
  try simp only [k0_part9_eq_skeleton]
  try unfold k0_part9_skel
  try simp only [semSignalWord, semWaitWord, Prog.lift, Prog.bind_op, Prog.bind_ret, Prog.pure_eq_ret]
  iapply (wp_wait_yr m K c 1 1 rfl) $$ [HcYR1 HO Hp13]
  · iframe # ∗; iexact Hp13
  iintro ⟨HO, Hp13, HC1⟩
  iapply (wp_load_local m K c 1 fullShare) $$ HLA
  iintro HLA
  iapply (wp_load_comm K c 1 fullShare (yVal m (yp c) 1)) $$ HC1
  iintro HC1
  iapply (wp_out_tile K c 1 (tileOut m c 1)) $$ HOo1
  iintro HOo1
  ihave HOo1 := (owns_cast (F := F) c (Ox_eq_Oo c 1).symm fullShare (tileOut m c 1)) $$ HOo1
  iapply (wp_xsend m K c _ (dev13_eq c) 1 (OXk c 2) _) $$ [HOo1 HE1 HO HtXS1 HtXR1]
  · iframe # ∗; isplitl [HOo1]; iexact HOo1; iexact HO
  iintro ⟨HcXS1, HO⟩
  try simp only [k0_part10_eq_skeleton]
  try unfold k0_part10_skel
  try simp only [semSignalWord, semWaitWord, Prog.lift, Prog.bind_op, Prog.bind_ret, Prog.pure_eq_ret]
  iapply (wp_wait_yr m K c 2 2 rfl) $$ [HcYR2 HO Hp14]
  · iframe # ∗; iexact Hp14
  iintro ⟨HO, Hp14, HC2⟩
  iapply (wp_load_local m K c 2 fullShare) $$ HLA
  iintro HLA
  iapply (wp_load_comm K c 2 fullShare (yVal m (yp c) 2)) $$ HC2
  iintro HC2
  iapply (wp_out_tile K c 2 (tileOut m c 2)) $$ HOo2
  iintro HOo2
  ihave HOo2 := (owns_cast (F := F) c (Ox_eq_Oo c 2).symm fullShare (tileOut m c 2)) $$ HOo2
  try simp only [k0_part11_eq_skeleton]
  try unfold k0_part11_skel
  try simp only [semSignalWord, semWaitWord, Prog.lift, Prog.bind_op, Prog.bind_ret, Prog.pure_eq_ret]
  iapply (wp_xsend m K c _ (dev14_eq c) 2 (OXk c 3) _) $$ [HOo2 HE2 HO HtXS2 HtXR2]
  · iframe # ∗; isplitl [HOo2]; iexact HOo2; iexact HO
  iintro ⟨HcXS2, HO⟩
  iapply (wp_wait_yr m K c 3 3 rfl) $$ [HcYR3 HO Hp15]
  · iframe # ∗; iexact Hp15
  iintro ⟨HO, Hp15, HC3⟩
  iapply (wp_load_local m K c 3 fullShare) $$ HLA
  iintro HLA
  iapply (wp_load_comm K c 3 fullShare (yVal m (yp c) 3)) $$ HC3
  iintro HC3
  try simp only [k0_part12_eq_skeleton]
  try unfold k0_part12_skel
  try simp only [semSignalWord, semWaitWord, Prog.lift, Prog.bind_op, Prog.bind_ret, Prog.pure_eq_ret]
  iapply (wp_out_tile K c 3 (tileOut m c 3)) $$ HOo3
  iintro HOo3
  ihave HOo3 := (owns_cast (F := F) c (Ox_eq_Oo c 3).symm fullShare (tileOut m c 3)) $$ HOo3
  iapply (wp_xsend m K c _ (dev15_eq c) 3 (OXk c 4) _) $$ [HOo3 HE3 HO HtXS3 HtXR3]
  · iframe # ∗; isplitl [HOo3]; iexact HOo3; iexact HO
  iintro ⟨HcXS3, HO⟩
  try simp only [k0_part13_eq_skeleton]
  try unfold k0_part13_skel
  try simp only [semSignalWord, semWaitWord, Prog.lift, Prog.bind_op, Prog.bind_ret, Prog.pure_eq_ret]
  iapply (wp_wait_yr m K c 4 4 rfl) $$ [HcYR4 HO Hp16]
  · iframe # ∗; iexact Hp16
  iintro ⟨HO, Hp16, HC4⟩
  iapply (wp_load_local m K c 4 fullShare) $$ HLA
  iintro HLA
  iapply (wp_load_comm K c 4 fullShare (yVal m (yp c) 4)) $$ HC4
  iintro HC4
  iapply (wp_out_tile K c 4 (tileOut m c 4)) $$ HOo4
  iintro HOo4
  ihave HOo4 := (owns_cast (F := F) c (Ox_eq_Oo c 4).symm fullShare (tileOut m c 4)) $$ HOo4
  iapply (wp_xsend m K c _ (dev16_eq c) 4 (OXk c 5) _) $$ [HOo4 HE4 HO HtXS4 HtXR4]
  · iframe # ∗; isplitl [HOo4]; iexact HOo4; iexact HO
  iintro ⟨HcXS4, HO⟩
  try simp only [k0_part14_eq_skeleton]
  try unfold k0_part14_skel
  try simp only [semSignalWord, semWaitWord, Prog.lift, Prog.bind_op, Prog.bind_ret, Prog.pure_eq_ret]
  iapply (wp_wait_yr m K c 5 5 rfl) $$ [HcYR5 HO Hp17]
  · iframe # ∗; iexact Hp17
  iintro ⟨HO, Hp17, HC5⟩
  iapply (wp_load_local m K c 5 fullShare) $$ HLA
  iintro HLA
  iapply (wp_load_comm K c 5 fullShare (yVal m (yp c) 5)) $$ HC5
  iintro HC5
  iapply (wp_out_tile K c 5 (tileOut m c 5)) $$ HOo5
  iintro HOo5
  ihave HOo5 := (owns_cast (F := F) c (Ox_eq_Oo c 5).symm fullShare (tileOut m c 5)) $$ HOo5
  try simp only [k0_part15_eq_skeleton]
  try unfold k0_part15_skel
  try simp only [semSignalWord, semWaitWord, Prog.lift, Prog.bind_op, Prog.bind_ret, Prog.pure_eq_ret]
  iapply (wp_xsend m K c _ (dev17_eq c) 5 (OXk c 6) _) $$ [HOo5 HE5 HO HtXS5 HtXR5]
  · iframe # ∗; isplitl [HOo5]; iexact HOo5; iexact HO
  iintro ⟨HcXS5, HO⟩
  iapply (wp_wait_yr m K c 6 6 rfl) $$ [HcYR6 HO Hp18]
  · iframe # ∗; iexact Hp18
  iintro ⟨HO, Hp18, HC6⟩
  iapply (wp_load_local m K c 6 fullShare) $$ HLA
  iintro HLA
  iapply (wp_load_comm K c 6 fullShare (yVal m (yp c) 6)) $$ HC6
  iintro HC6
  iapply (wp_out_tile K c 6 (tileOut m c 6)) $$ HOo6
  iintro HOo6
  try simp only [k0_part16_eq_skeleton]
  try unfold k0_part16_skel
  try simp only [semSignalWord, semWaitWord, Prog.lift, Prog.bind_op, Prog.bind_ret, Prog.pure_eq_ret]
  ihave HOo6 := (owns_cast (F := F) c (Ox_eq_Oo c 6).symm fullShare (tileOut m c 6)) $$ HOo6
  ihave HO := (owes_cast (F := F) c (OXk_peel6 c) _) $$ HO
  iapply (wp_xsend m K c _ (dev18_eq c) 6 (OXk c 7) _) $$ [HOo6 HE6 HO HtXS6 HtXR6]
  · iframe # ∗; iexact HOo6
  iintro ⟨HcXS6, HO⟩
  iapply (wp_wait_yr m K c 7 7 rfl) $$ [HcYR7 HO Hp19]
  · iframe # ∗; iexact Hp19
  iintro ⟨HO, Hp19, HC7⟩
  iapply (wp_load_local m K c 7 fullShare) $$ HLA
  iintro HLA
  iapply (wp_load_comm K c 7 fullShare (yVal m (yp c) 7)) $$ HC7
  iintro HC7
  iapply (wp_out_tile K c 7 (tileOut m c 7)) $$ HOo7
  iintro HOo7
  try simp only [k0_part17_eq_skeleton]
  try unfold k0_part17_skel
  try simp only [semSignalWord, semWaitWord, Prog.lift, Prog.bind_op, Prog.bind_ret, Prog.pure_eq_ret]
  iapply (wp_wait_yr m K c 8 7 rfl) $$ [HcYR8 HO Hp20]
  · iframe # ∗; iexact Hp20
  iintro ⟨HO, Hp20, HC8⟩
  iapply (wp_load_local8 m K c fullShare) $$ HLB
  iintro HLB
  iapply (wp_load_comm K c 8 fullShare (yVal m (yp c) 8)) $$ HC8
  iintro HC8
  iapply (wp_out_tile8 K c (tileOut m c 8)) $$ HOo8
  iintro HOo8
  ihave HO := (owes_cast (F := F) c (OXk_seven c) _) $$ HO
  iapply (wp_wait_ys m K c 0 rfl) $$ [HcYS0 HO Hp3]
  · iframe # ∗; iexact Hp3
  iintro ⟨HO, Hp3, HT⟩
  ihave HT := (Entails.of_eq (payload_ys0 m c false)) $$ HT
  try simp only [k0_part18_eq_skeleton, k0_part19_eq_skeleton]
  try unfold k0_part18_skel k0_part19_skel
  try simp only [semSignalWord, semWaitWord, Prog.lift, Prog.bind_op, Prog.bind_ret, Prog.pure_eq_ret]
  iapply (wp_wait_ys m K c 1 rfl) $$ [HcYS1 HO Hp4]
  · iframe # ∗; iexact Hp4
  iintro ⟨HO, Hp4, -⟩
  iapply (wp_wait_ys m K c 2 rfl) $$ [HcYS2 HO Hp5]
  · iframe # ∗; iexact Hp5
  iintro ⟨HO, Hp5, -⟩
  iapply (wp_wait_ys m K c 3 rfl) $$ [HcYS3 HO Hp6]
  · iframe # ∗; iexact Hp6
  iintro ⟨HO, Hp6, -⟩
  iapply (wp_wait_ys m K c 4 rfl) $$ [HcYS4 HO Hp7]
  · iframe # ∗; iexact Hp7
  iintro ⟨HO, Hp7, -⟩
  iapply (wp_wait_ys m K c 5 rfl) $$ [HcYS5 HO Hp8]
  · iframe # ∗; iexact Hp8
  iintro ⟨HO, Hp8, -⟩
  iapply (wp_wait_ys m K c 6 rfl) $$ [HcYS6 HO Hp9]
  · iframe # ∗; iexact Hp9
  iintro ⟨HO, Hp9, -⟩
  iapply (wp_wait_ys m K c 7 rfl) $$ [HcYS7 HO Hp10]
  · iframe # ∗; iexact Hp10
  iintro ⟨HO, Hp10, -⟩
  try simp only [k0_part20_eq_skeleton]
  try unfold k0_part20_skel
  try simp only [semSignalWord, semWaitWord, Prog.lift, Prog.bind_op, Prog.bind_ret, Prog.pure_eq_ret]
  iapply (wp_wait_ys m K c 8 rfl) $$ [HcYS8 HO Hp11]
  · iframe # ∗; iexact Hp11
  iintro ⟨HO, Hp11, -⟩
  iapply (wp_wait_xs m K c 0 rfl) $$ [HcXS0 HO Hp21]
  · iframe # ∗; iexact Hp21
  iintro ⟨HO, Hp21, HOo0⟩
  iapply (wp_wait_xr m K c 0 rfl) $$ [HcXR0 HO Hp28]
  · iframe # ∗; iexact Hp28
  iintro ⟨HO, Hp28, HOi0⟩
  iapply (wp_wait_xs m K c 1 rfl) $$ [HcXS1 HO Hp22]
  · iframe # ∗; iexact Hp22
  iintro ⟨HO, Hp22, HOo1⟩
  try simp only [k0_part21_eq_skeleton]
  try unfold k0_part21_skel
  try simp only [semSignalWord, semWaitWord, Prog.lift, Prog.bind_op, Prog.bind_ret, Prog.pure_eq_ret]
  iapply (wp_wait_xr m K c 1 rfl) $$ [HcXR1 HO Hp29]
  · iframe # ∗; iexact Hp29
  iintro ⟨HO, Hp29, HOi1⟩
  iapply (wp_wait_xs m K c 2 rfl) $$ [HcXS2 HO Hp23]
  · iframe # ∗; iexact Hp23
  iintro ⟨HO, Hp23, HOo2⟩
  iapply (wp_wait_xr m K c 2 rfl) $$ [HcXR2 HO Hp30]
  · iframe # ∗; iexact Hp30
  iintro ⟨HO, Hp30, HOi2⟩
  iapply (wp_wait_xs m K c 3 rfl) $$ [HcXS3 HO Hp24]
  · iframe # ∗; iexact Hp24
  iintro ⟨HO, Hp24, HOo3⟩
  try simp only [k0_part22_eq_skeleton]
  try unfold k0_part22_skel
  try simp only [semSignalWord, semWaitWord, Prog.lift, Prog.bind_op, Prog.bind_ret, Prog.pure_eq_ret]
  iapply (wp_wait_xr m K c 3 rfl) $$ [HcXR3 HO Hp31]
  · iframe # ∗; iexact Hp31
  iintro ⟨HO, Hp31, HOi3⟩
  iapply (wp_wait_xs m K c 4 rfl) $$ [HcXS4 HO Hp25]
  · iframe # ∗; iexact Hp25
  iintro ⟨HO, Hp25, HOo4⟩
  iapply (wp_wait_xr m K c 4 rfl) $$ [HcXR4 HO Hp32]
  · iframe # ∗; iexact Hp32
  iintro ⟨HO, Hp32, HOi4⟩
  iapply (wp_wait_xs m K c 5 rfl) $$ [HcXS5 HO Hp26]
  · iframe # ∗; iexact Hp26
  iintro ⟨HO, Hp26, HOo5⟩
  iapply (wp_wait_xr m K c 5 rfl) $$ [HcXR5 HO Hp33]
  · iframe # ∗; iexact Hp33
  iintro ⟨HO, Hp33, HOi5⟩
  iapply (wp_wait_xs m K c 6 rfl) $$ [HcXS6 HO Hp27]
  · iframe # ∗; iexact Hp27
  iintro ⟨HO, Hp27, HOo6⟩
  iapply (wp_wait_xr m K c 6 rfl) $$ [HcXR6 HO Hp34]
  · iframe # ∗; iexact Hp34
  iintro ⟨HO, Hp34, HOi6⟩
  imod (close_own m K c 0) $$ [Hp1] with Hz0
  · iframe #; iexact Hp1
  imod (close_own m K c 1) $$ [Hp2] with Hz1
  · iframe #; iexact Hp2
  imod (close_own m K c 2) $$ [Hp3] with Hz2
  · iframe #; iexact Hp3
  imod (close_own m K c 3) $$ [Hp4] with Hz3
  · iframe #; iexact Hp4
  imod (close_own m K c 4) $$ [Hp5] with Hz4
  · iframe #; iexact Hp5
  imod (close_own m K c 5) $$ [Hp6] with Hz5
  · iframe #; iexact Hp6
  imod (close_own m K c 6) $$ [Hp7] with Hz6
  · iframe #; iexact Hp7
  imod (close_own m K c 7) $$ [Hp8] with Hz7
  · iframe #; iexact Hp8
  imod (close_own m K c 8) $$ [Hp9] with Hz8
  · iframe #; iexact Hp9
  imod (close_own m K c 9) $$ [Hp10] with Hz9
  · iframe #; iexact Hp10
  imod (close_own m K c 10) $$ [Hp11] with Hz10
  · iframe #; iexact Hp11
  imod (close_own m K c 11) $$ [Hp12] with Hz11
  · iframe #; iexact Hp12
  imod (close_own m K c 12) $$ [Hp13] with Hz12
  · iframe #; iexact Hp13
  imod (close_own m K c 13) $$ [Hp14] with Hz13
  · iframe #; iexact Hp14
  imod (close_own m K c 14) $$ [Hp15] with Hz14
  · iframe #; iexact Hp15
  imod (close_own m K c 15) $$ [Hp16] with Hz15
  · iframe #; iexact Hp16
  imod (close_own m K c 16) $$ [Hp17] with Hz16
  · iframe #; iexact Hp17
  imod (close_own m K c 17) $$ [Hp18] with Hz17
  · iframe #; iexact Hp18
  imod (close_own m K c 18) $$ [Hp19] with Hz18
  · iframe #; iexact Hp19
  imod (close_own m K c 19) $$ [Hp20] with Hz19
  · iframe #; iexact Hp20
  imod (close_own m K c 20) $$ [Hp21] with Hz20
  · iframe #; iexact Hp21
  imod (close_own m K c 21) $$ [Hp22] with Hz21
  · iframe #; iexact Hp22
  imod (close_own m K c 22) $$ [Hp23] with Hz22
  · iframe #; iexact Hp23
  imod (close_own m K c 23) $$ [Hp24] with Hz23
  · iframe #; iexact Hp24
  imod (close_own m K c 24) $$ [Hp25] with Hz24
  · iframe #; iexact Hp25
  imod (close_own m K c 25) $$ [Hp26] with Hz25
  · iframe #; iexact Hp26
  imod (close_own m K c 26) $$ [Hp27] with Hz26
  · iframe #; iexact Hp27
  imod (close_own m K c 27) $$ [Hp28] with Hz27
  · iframe #; iexact Hp28
  imod (close_own m K c 28) $$ [Hp29] with Hz28
  · iframe #; iexact Hp29
  imod (close_own m K c 29) $$ [Hp30] with Hz29
  · iframe #; iexact Hp30
  imod (close_own m K c 30) $$ [Hp31] with Hz30
  · iframe #; iexact Hp31
  imod (close_own m K c 31) $$ [Hp32] with Hz31
  · iframe #; iexact Hp32
  imod (close_own m K c 32) $$ [Hp33] with Hz32
  · iframe #; iexact Hp33
  imod (close_own m K c 33) $$ [Hp34] with Hz33
  · iframe #; iexact Hp34
  ihave HLj := (joinL (F := F) c) $$ [HLA HLB HLr]
  · isplitl [HLA]; · (iapply (anyAt_of_owns (F := F) c LA _); iexact HLA)
    isplitl [HLB]; · (iapply (anyAt_of_owns (F := F) c LB _); iexact HLB)
    iexact HLr
  ihave HCj := (joinC (F := F) c) $$ [HC0 HC1 HC2 HC3 HC4 HC5 HC6 HC7 HC8 HCr]
  · isplitr [HCr]
    · rw [bigSep_fin9]
      isplitl [HC0]; · (iapply (anyAt_of_owns (F := F) c (Ct 0) _); iexact HC0)
      isplitl [HC1]; · (iapply (anyAt_of_owns (F := F) c (Ct 1) _); iexact HC1)
      isplitl [HC2]; · (iapply (anyAt_of_owns (F := F) c (Ct 2) _); iexact HC2)
      isplitl [HC3]; · (iapply (anyAt_of_owns (F := F) c (Ct 3) _); iexact HC3)
      isplitl [HC4]; · (iapply (anyAt_of_owns (F := F) c (Ct 4) _); iexact HC4)
      isplitl [HC5]; · (iapply (anyAt_of_owns (F := F) c (Ct 5) _); iexact HC5)
      isplitl [HC6]; · (iapply (anyAt_of_owns (F := F) c (Ct 6) _); iexact HC6)
      isplitl [HC7]; · (iapply (anyAt_of_owns (F := F) c (Ct 7) _); iexact HC7)
      (iapply (anyAt_of_owns (F := F) c (Ct 8) _); iexact HC8)
    · iexact HCr
  ihave HOo0 := (owns_cast (F := F) c (Ox_eq_Oo c 0) fullShare _) $$ HOo0
  ihave HOo1 := (owns_cast (F := F) c (Ox_eq_Oo c 1) fullShare _) $$ HOo1
  ihave HOo2 := (owns_cast (F := F) c (Ox_eq_Oo c 2) fullShare _) $$ HOo2
  ihave HOo3 := (owns_cast (F := F) c (Ox_eq_Oo c 3) fullShare _) $$ HOo3
  ihave HOo4 := (owns_cast (F := F) c (Ox_eq_Oo c 4) fullShare _) $$ HOo4
  ihave HOo5 := (owns_cast (F := F) c (Ox_eq_Oo c 5) fullShare _) $$ HOo5
  ihave HOo6 := (owns_cast (F := F) c (Ox_eq_Oo c 6) fullShare _) $$ HOo6
  ihave HOj := (joinO (F := F) m c) $$ [HOo0 HOo1 HOo2 HOo3 HOo4 HOo5 HOo6 HOo7 HOo8 HOi0 HOi1 HOi2 HOi3 HOi4 HOi5 HOi6 HOr]
  · rw [bigSep_fin8, bigSep_fin7]; iframe
    isplitl [HOo0]; iexact HOo0; isplitl [HOo1]; iexact HOo1; isplitl [HOo2]; iexact HOo2; isplitl [HOo3]; iexact HOo3; isplitl [HOo4]; iexact HOo4; isplitl [HOo5]; iexact HOo5; isplitl [HOo6]; iexact HOo6; iexact HOo7
  ihave HO := (owes_ex (F := F) c 0 _) $$ HO
  icases HO with ⟨%Wf, HO⟩
  rw [wp_ret]
  imodintro
  iapply Hk
  unfold bodyPost Φ₁ scratches Dat.owesAt Pipeline.owesWithin
  rw [show (dats m 0 c).owed t₀.succ = 0 from rfl, bigSep_fin34]
  ihave HT := (Entails.of_eq (anyAt_Tm (F := F) c)) $$ HT
  iframe
  isplitl [HO]
  · iexists Wf; iframe; ipureintro; exact fun _ _ => Or.inl trivial
  iexists _; iframe; ipureintro; rfl

/-- info: 'Cert.KernelIdeal.Proto.sound_body' depends on axioms: [propext, Classical.choice, Quot.sound] -/
#guard_msgs in #print axioms sound_body

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxHeartbeats 4000000 in
set_option maxRecDepth 65536 in
/-- The body obligation the launch theorem asks for, on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole main_arg0) (Memref.isWhole_whole _) (Memref.whole cc0_stg0_0) (Memref.isWhole_whole _) (Memref.whole cc0_stg1_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 cc0_scratch7 cc0_scratch8) (fun _ => bodyPost m c)
  unfold bodyPre' Φ₀ start
  iintro ⟨⟨⟨⟨%K, Hgh⟩, Hcr, Hlev, Harg⟩, Hscr⟩, Ho, Hx, Hout⟩
  iapply (sound_body m K c fun _ => bodyPost m c)
  unfold bodyPre
  iframe
  iintro H; iexact H

/-- info: 'Cert.KernelIdeal.Proto.body_obligation' depends on axioms: [propext, Classical.choice, Quot.sound] -/
#guard_msgs in #print axioms body_obligation

end Cert.KernelIdeal.Proto

end
-- ==== Proof.Proto.Launch.lean ====
import proofs.«900599_g7700000000000600_dist_rsrms_v7x_xyz2x2x4_y_m512_d512_f32_1_alg».proof.Proof.Proto.Tables

noncomputable section

namespace Cert.KernelIdeal.Proto

open Cert.KernelIdeal Cert.KernelIdeal.Gen
open Idealize.ShloMosaic Idealize.ShloMosaic.TcCoe
open Idealize.SL Idealize.SL.BI
open scoped Idealize.SL.BI
open Idealize.SL.BI.BIBase Idealize.SL.BI.Laws Idealize.SL.ProofMode
open Idealize.ShloMosaic.Rounds Finset
open Idealize.ShloMosaic.Pipeline (Dat BodyObligation)

variable {F : FTy → Type} [FloatOps F]
local notation "𝕄" => MT nD τ sig Unit (Elt F) ℕ UU ℕ
variable (m : (ℓ : Loc nD τ sig) → Buf (Elt F) ℓ)

theorem bigSep_fin7L (Φ : Fin 7 → sProp 𝕄) : bigSep univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9L (Φ : Fin 9 → sProp 𝕄) : bigSep univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

def ourCells : Finset (GSem nD τ sig) := univ.map ⟨kcell, fun _ _ h =>
  Prod.ext (congrArg (·.1.1) h) ((by decide +kernel : Function.Injective (csem : Fin 35 → SemLoc sig)) (congrArg Prod.snd h))⟩

-- A duty token is named by its payer and its kind (kinds in the order the payer holds them): the map from payer to the cell's owner, the semaphore, the duty.
abbrev TokIx₂ : Type := Fin 1 ⊕ Fin 1 ⊕ Fin 9 ⊕ Fin 7
instance : DecidableEq TokIx₂ := inferInstance
abbrev TokIx : Type := Fin 1 ⊕ Fin 1 ⊕ Fin 1 ⊕ Fin 9 ⊕ Fin 7 ⊕ TokIx₂
def tokSpec : TokIx → (Dev nD → Dev nD) × SemLoc sig × Bool :=
  Sum.elim (fun _ => (id, locS, false)) <| Sum.elim (fun _ => (id, locS, true)) <| Sum.elim (fun _ => (id, t0S, false)) <|
  Sum.elim (fun t => (id, ysS t, false)) <| Sum.elim (fun r => (id, xsS r, false)) <| Sum.elim (fun _ => (yp, .reg barS, false)) <|
  Sum.elim (fun _ => (xp, .reg barS, true)) <| Sum.elim (fun t => (yp, yrS t, false)) fun r => (xp, xrS r, false)
def tokOf (cj : Dev nD × TokIx) : GSem nD τ sig × ℕ × Bool := (cell ((tokSpec cj.2).1 cj.1) (tokSpec cj.2).2.1, 0, (tokSpec cj.2).2.2)
def ourToks : Finset (GSem nD τ sig × ℕ × Bool) := univ.map ⟨tokOf, by
  rintro ⟨c, j⟩ ⟨c', j'⟩ h
  obtain rfl := (by decide : Function.Injective fun j : TokIx => (tokSpec j).2) (Prod.ext (congrArg (·.1.2) h) (congrArg (·.2.2) h))
  have hi : ∀ (j : TokIx) (c : Dev nD), (tokSpec j).1 ((tokSpec j).1 c) = c := by decide +kernel
  rw [← hi j c, show (tokSpec j).1 c = (tokSpec j).1 c' from congrArg (·.1.1.1) h, hi]⟩

-- Summing over the kinds, one summand per kind, is what the payer holds.
theorem payToks_eq (c : Dev nD) :
    (payToks c : sProp 𝕄) = bigSep univ fun j : TokIx => dutyTok ER (tokOf (c, j)).1 (tokOf (c, j)).2.1 (tokOf (c, j)).2.2 := by
  simp only [bigSep_univ_sum, bigSep_univ_of_subsingleton (0 : Fin 1)]; rfl

def G (c : Dev nD) : sProp 𝕄 :=
  iprop((bigSep univ fun k : Fin 35 => iprop(roundState ER (sched m) (kcell (c, k)) 0 ∗ reached ER (kcell (c, k)) 0))
    ∗ positions c ∗ payToks c)
def G' (c : Dev nD) : sProp 𝕄 := iprop(∃ K, ghost m K c)

theorem fund_all : BI.own (ER (initOf ourCells ourToks)) ⊢ (|==> bigSep univ (G m) : sProp 𝕄) := by
  refine (Rounds.fund ER (sched m) ourCells ourToks).trans (BI.bupd_mono ?_)
  unfold ourCells ourToks G positions
  simp only [bigSep_map, bigSep_univ_prod, bigSep_sep', payToks_eq]
  exact sep_assoc'

-- The 35 counters of a device are the barrier's and the 34 others, all at zero.
theorem sems0 (c : Dev nD) :
    (iprop(Pipeline.ownSems0 osem c ∗ unscopedSems0 c) : sProp 𝕄) ⊢ bigSep univ fun k : Fin 35 => semVal (kcell (c, k)) 0 := by
  rw [show (unscopedSems0 c : sProp 𝕄) = semVal (barC c) 0 from bigSep_eq_bigSepL_of_eq [SemLoc.reg barS] (by decide) (by decide) _,
    Fin.univ_succ, Finset.cons_eq_insert, bigSep_insert (by simp), bigSep_map]
  exact sep_comm.1

def heldAt (κ : ℕ) (g : GSem nD τ sig) : sProp 𝕄 := iprop(cellInv ER (sched m) κ g ∗ reached ER g 0)

theorem cell_alloc (g : GSem nD τ sig) :
    iprop(semVal g 0 ∗ roundState ER (sched m) g 0 ∗ reached ER g 0) ⊢ (|={Set.univ}=> ∃ κ : ℕ, heldAt m κ g : sProp 𝕄) := by
  iintro ⟨Hv, Hst, Hr⟩
  imod (inv_alloc (P := Rounds.body ER (sched m) g)) $$ [Hv Hst] with ⟨%κ, Hi⟩
  · iapply (Rounds.body_intro ER (sched m) g); iframe
  imodintro; iexists κ; unfold heldAt; iframe

theorem bigSep_fupd_mono {I : Type} [Fintype I] {Φ Ψ : I → sProp 𝕄} (h : ∀ i, Φ i ⊢ |={Set.univ}=> Ψ i) :
    bigSep univ Φ ⊢ |={Set.univ}=> bigSep univ Ψ :=
  (bigSep_mono fun i _ => h i).trans (bigSep_fupd _ _)

instance (K : Dev nD × Fin 35 → ℕ) : BI.Persistent (records m K) := by unfold records; infer_instance

theorem core_alloc (c : Dev nD) :
    iprop(Pipeline.ownSems0 osem c ∗ unscopedSems0 c ∗ G m c) ⊢ |={Set.univ}=> iprop((bigSep univ fun k : Fin 35 => iprop(∃ κ : ℕ, heldAt m κ (kcell (c, k)))) ∗ positions c ∗ payToks c) := by
  unfold G
  iintro ⟨Hos, Hus, Hst, HR⟩
  imod (bigSep_fupd_mono fun k => cell_alloc m (kcell (c, k))) $$ [Hos Hus Hst] with Hi
  · iapply (Entails.of_eq (bigSep_sep' _ _ _).symm); iframe; iapply (sems0 c); iframe
  imodintro; iframe

-- Every cell's invariant is allocated in one update, so that each device's ghost state can name all of them.
theorem glob : (bigSep univ fun c => iprop(Pipeline.ownSems0 osem c ∗ unscopedSems0 c ∗ G m c) : sProp 𝕄)
    ⊢ |={Set.univ}=> bigSep univ (G' m) := by
  refine (bigSep_fupd_mono (core_alloc m)).trans (BI.fupd_mono ?_)
  rw [bigSep_sep', ← bigSep_univ_prod fun ck : Dev nD × Fin 35 => iprop(∃ κ : ℕ, heldAt m κ (kcell ck))]
  iintro ⟨HI, HR⟩
  icases (BI.bigSep_exists_pi _ _) $$ HI with ⟨%K, HI⟩
  iapply (bigSep_with_persistent (R := records m K) fun c _ => exists_intro (Φ := fun K => ghost m K c) K)
  iframe
  unfold records; iapply (Entails.of_eq (bigSep_sep' _ _ _)); unfold heldAt; iexact HI

-- A due every device owes its partner's cell is, at launch, a credit on one's own cell: the partner map is an involution.
instance : Fact (∀ c, yp (yp c) = c) := ⟨yp_yp⟩
instance : Fact (∀ c, xp (xp c) = c) := ⟨xp_xp⟩
theorem cred_step {O : Dev nD → CellTallies nD τ sig Unit} {sm : SemLoc sig} {f : Dev nD → Dev nD} [hf : Fact (∀ c, f (f c) = c)] {n : ℕ} {c : Dev nD}
    {R : sProp 𝕄} (h : (Pipeline.launchCred O c : sProp 𝕄) ⊢ R) :
    (Pipeline.launchCred (fun d => O d + tallyAt (cell (f d) sm) () n) c : sProp 𝕄) ⊢ iprop(cred (tallyAt (cell c sm) () n) ∗ R) := by
  rw [Pipeline.launchCred_add]; exact (BIClass.sep_mono h (Pipeline.launchCred_tallyAt _ _ _ hf.out hf.out _ _ _)).trans sep_symm

theorem creds (c : Dev nD) : (Pipeline.launchCred O₀ c : sProp 𝕄) ⊢ launchCreds c := by
  apply BIBase.Entails.trans
  · iterate 17 apply cred_step
    exact Pipeline.launchCred_tallyAt _ _ _ xp_xp xp_xp _ _ _
  unfold launchCreds
  rw [bigSep_fin9L, bigSep_fin7L, ← tallyAt_add (barC c) () 1 1]
  iintro ⟨BY, BX, Y0, Y1, Y2, Y3, Y4, Y5, Y6, Y7, Y8, X0, X1, X2, X3, X4, X5, X6⟩
  isplitl [BX BY]; · iapply (cred_add _ _).2; iframe
  iframe

-- Whatever is owed at launch sits on a TensorCore's cell of level at least 1, above every staging cell.
theorem O₀_lv {c : Dev nD} {g : GSem nD τ sig} {u : Unit} (h : 0 < O₀ c g u) : u ∈ L g ∧ 0 < lv g u := by
  unfold O₀ O₁ OY at h
  repeat' (rcases Pipeline.add_pos_cases h with h | h)
  all_goals (obtain ⟨rfl, rfl⟩ := Pipeline.tallyAt_pos h; exact ⟨Finset.mem_singleton_self _, Nat.zero_lt_succ _⟩)

theorem waits (c : Dev nD) : (levAts L lv : sProp 𝕄) ⊢ Pipeline.cellsWaits cfgs (dats m) () 0 c :=
  Pipeline.cellsWaits_intro cfgs (dats m) () 0 c fun w s t => by
    rcases t with ⟨_ | _, _⟩
    · refine Pipeline.mayWait_of_levAts (Finset.mem_singleton_self _) fun g i hg => ⟨(O₀_lv hg).1, ?_⟩
      fin_cases w <;> fin_cases s <;> exact (O₀_lv hg).2
    · show _ ⊢ MayWait _ _ _ 0
      rw [MayWait_zero]; iintro -; iempintro

section
attribute [local irreducible] outAt in
-- The one write-back covers the whole output array.
theorem arrAt_out (c : Dev nD) : (dats m 0 c).arrAt 1 cfg0.N = outAt m c := by
  refine ((dats m 0 c).arrAt_succ 1 t0_0).trans ?_
  rw [if_pos (flush0_1 t0_0)]
  refine Eq.trans (Memref.write_access_unit_zero_univ (Elt F) main_v1 ?_ _ _ _) ?_
  · funext a; fin_cases a <;> rfl
  · show (cfg0.win 1).cut _ (outAt m c) = outAt m c
    generalize outAt m c = X
    rfl
end

theorem run_out (ρ : Dev nD → PrngReg) (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ (by decide +kernel : Pipeline.OwnSemFacts cfg0.spec osem) (Pipeline.PreFacts.none _) EP defs₀ 𝒱₀ m ρ main
    (hmain := fun _ => rfl)
    (hbody := hbody) (hne := block_pos0) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := fun _ h => if_neg h) (hwaits := waits m)
    (G := G m) (G' := G' m) (u₀ := (initOf (Pipeline.cells cfgs cellOf_inj) (Pipeline.launchToks cfgs cellOf_inj), initOf ourCells ourToks))
    (hu₀ := by
      iintro Hu
      icases (ownU_pair _ _) $$ Hu with ⟨HP, HX⟩
      imod (fund_all m) $$ HX with HG
      imodintro; iframe)
    (hglob := glob m)
    (hA := fun _ _ => rfl) (hpf := fun _ k => k.elim0)
    (X := start m) (Y := fun c => iprop(((c : Thread nD τ).loc main_arg0) ↦{sh 11} Pm m c)) (Z := fun _ => iprop(emp))
    (hX := fun c => by
      rw [Pipeline.unscopedRestP_none, unscopedRest0_eq]
      iintro ⟨Hx, Hlev, Hcr, -, HG⟩
      ihave Hc := (creds c) $$ Hcr
      imodintro; unfold start G'; iframe)
    (hin := fun c => by
      show _ ⊢ Φ₀ m c; rw [scopedRest0_eq]
      unfold Φ₀ scratches
      iintro ⟨Hs, -, Hr⟩; iframe)
    (hout := fun c => by
      show Φ₁ m c ⊢ _; rw [scopedRest0_eq]
      unfold Φ₁ scratches Pipeline.ownSems0
      iintro ⟨Hx, Hr, Hz⟩; iframe)
    (QY := fun c s => s.mem ((c : Thread nD τ).loc main_arg0) = m ((c : Thread nD τ).loc main_arg0))
    (hY := fun c s' => by
      iintro ⟨Hx, -, HSI⟩
      icombine HSI Hx gives %hx
      imodintro; iframe; ipureintro; exact Buf.eq_of_forall_mem_univ hx)
    (hQ := fun _ h c => ⟨((h c).1 1).trans (arrAt_out m c), (h c).2.2, ((h c).1 0).trans ((dats m 0 c).arrAt_in 0 rfl _)⟩)

/-- info: 'Cert.KernelIdeal.Proto.run_out' depends on axioms: [propext, Classical.choice, Quot.sound] -/
#guard_msgs in #print axioms run_out

end Cert.KernelIdeal.Proto

end
-- ==== Proof.Ref.Spec.lean ====
import Idealize.ShloMosaic.PureOps.Ideal.Laws
import Idealize.ShloMosaic.Lib.ValueIdx

noncomputable section

namespace Cert.Spec

open Idealize.ShloMosaic Idealize.ShloMosaic.ValueIdx
open scoped BigOperators

/-- The two partial sums added, at row `r`, column `j`. -/
def rowSum (P : (⟨3, ![2, 1024, 512]⟩ : Shape).Idx → EReal) (r : Fin 1024) (j : Fin 512) : EReal :=
  P (ix3 (0 : Fin 2) r j) + P (ix3 (1 : Fin 2) r j)

/-- The mean of the squares of row `r` of that sum, plus the small constant. -/
def rowMeanSq (P : (⟨3, ![2, 1024, 512]⟩ : Shape).Idx → EReal) (r : Fin 1024) : EReal :=
  Ideal.div (∑ k : Fin 512, rowSum P r k * rowSum P r k) (Ideal.ofBits .f32 0x44000000#32)
    + Ideal.ofBits .f32 0x358637BD#32

/-- The result: each row of the sum scaled by the reciprocal root of its mean square, each column by gamma. -/
def out (P : (⟨3, ![2, 1024, 512]⟩ : Shape).Idx → EReal) (g : (⟨1, ![512]⟩ : Shape).Idx → EReal) :
    (⟨2, ![1024, 512]⟩ : Shape).Idx → EReal :=
  fun i => (rowSum P (i 0) (i 1) * Ideal.rsqrt (rowMeanSq P (i 0))) * g (ix1 (i 1))

end Cert.Spec

end
-- ==== Proof.Proto.OutValue.lean ====
import proofs.«900599_g7700000000000600_dist_rsrms_v7x_xyz2x2x4_y_m512_d512_f32_1_alg».proof.Proof.Proto.Defs
import proofs.«900599_g7700000000000600_dist_rsrms_v7x_xyz2x2x4_y_m512_d512_f32_1_alg».proof.Proof.Ref.Spec
import Idealize.ShloMosaic.Lib.ValueLayout

namespace Cert.KernelIdeal.Proto

open Cert.KernelIdeal Cert.KernelIdeal.Gen
open Idealize.ShloMosaic Idealize.ShloMosaic.TcCoe Idealize.ShloMosaic.ValueIdx
open scoped BigOperators

/-- One output tile at `(p, q)` is a function of row `p` of the sum of the two addends, here `s`, and of gamma at `q`. -/
theorem tileF_apply (g1 : FVec Ideal S1x512 .f32) (a b : Vec Ideal S32x512 .f32) (p : Fin 32) (q : Fin 512)
    (s : Fin 512 → EReal) (hs : ∀ k, a (ix2 p k) + b (ix2 p k) = s k) :
    tileF g1 a b (ix2 p q) = s q * Ideal.rsqrt (Ideal.div (∑ k, s k * s k) (Ideal.ofBits .f32 0x44000000#32)
      + Ideal.ofBits .f32 0x358637BD#32) * g1 (ix2 (0 : Fin 1) q) := by
  unfold tileF Gen.k0_pay4
  dsimp only
  refine congrArg₂ (fun x y : EReal => x * y) (congrArg₂ (fun x y : EReal => x * y) (hs q) ?_)
    (broadcastTo_1b_ab_apply g1 _ p q)
  refine (broadcastTo_apply _ _ (ix2 p q) (ix2 p (0 : Fin 1)) fun ax => match ax with
    | ⟨0, _⟩ => rfl
    | ⟨1, _⟩ => rfl).trans (congrArg Ideal.rsqrt ?_)
  refine congrArg₂ (fun x y : EReal => x + y) (congrArg₂ Ideal.div ?_ rfl) rfl
  refine (shapeCast_apply _ _ (ix2 p (0 : Fin 1)) (ix1 p) (by
    rw [Shape.rowMajor_val_two, Shape.rowMajor_val_one]
    show p.val = p.val * 1 + 0
    omega)).trans ?_
  refine (Ideal.multiReduction_add_single _ _ _ _ _ (ix1 p)).trans (Finset.sum_congr rfl fun k _ => ?_)
  rw [show reduces_S32x512_S32.lift (ix1 p) k = ix2 p k from
    funext fun a => Fin.ext (match a with | ⟨0, _⟩ => rfl | ⟨1, _⟩ => rfl)]
  exact congrArg₂ (fun x y : EReal => x * y) (hs k) (hs k)

/-- The mesh coordinates of a device's two partners, and its own along the axis the partial sums are stacked on. -/
theorem coords : ∀ c : Dev nD, c.val / 8 ≤ 1 ∧ (xp c).val / 8 = 1 - c.val / 8 ∧ ((xp c).val / 4) % 2 = (c.val / 4) % 2
    ∧ (yp c).val / 8 = c.val / 8 ∧ ((yp c).val / 4) % 2 = 1 - (c.val / 4) % 2
    ∧ Layout.meshLin [2, 2, 4] c.val [1] = (c.val / 4) % 2 := by decide +kernel

theorem rows_emb {N n : Nat} (off : Fin 2 → Nat) (b : Nat) (hoff : off = ![b, 0])
    (inb : ∀ a, off a + (![n, 512] : Fin 2 → Nat) a ≤ (⟨2, ![N, 512]⟩ : Shape).size a)
    (p : Fin n) (q : Fin 512) (R : Fin N) (hR : R.val = b + p.val) :
    (Rect.unit (s := ⟨2, ![N, 512]⟩) off ![n, 512] inb).emb (ix2 p q) = ix2 R q := by
  subst hoff
  exact Shape.idx_ext₂ (by show b + 1 * p.val = R.val; omega) (by show 0 + 1 * q.val = q.val; omega)

section Writes
variable {F : FTy → Type} [FloatOps F] {κ : Kind} {sp : Space} {e : EltTy} {N n : Nat}
  (v : View sig κ sp ⟨2, ![N, 512]⟩ e)

/-- A write of rows that puts `t` wherever it lands on row `i` leaves `t` there if the row held `t` or is written. -/
theorem write_rows (off : Fin 2 → Nat) (b : Nat) (hoff : off = ![b, 0])
    (inb : ∀ a, off a + (![n, 512] : Fin 2 → Nat) a ≤ (⟨2, ![N, 512]⟩ : Shape).size a)
    (f : v.ty.Contents (Elt F)) (w : (⟨2, ![n, 512]⟩ : Shape).Idx → Elt F e) (i : Fin N) (q : Fin 512) (t : Elt F e)
    (hw : ∀ p : Fin n, i.val = b + p.val → w (ix2 p q) = t)
    (h : f (v.emb (ix2 i q)) = cast (congrArg (Elt F) v.elt_eq.symm) t ∨ b ≤ i.val ∧ i.val < b + n) :
    (v.slice (Rect.unit (s := ⟨2, ![N, 512]⟩) off ![n, 512] inb)).write (Elt F) f w Finset.univ (v.emb (ix2 i q))
      = cast (congrArg (Elt F) v.elt_eq.symm) t := by
  by_cases ha : b ≤ i.val ∧ i.val < b + n
  · have hp : i.val = b + (⟨i.val - b, by omega⟩ : Fin n).val := by
      show i.val = b + (i.val - b)
      omega
    rw [← rows_emb off b hoff inb _ q i hp, ← hw _ hp]
    exact View.write_emb_of_mem _ _ (Finset.mem_univ _)
  · refine (View.write_of_not_mem _ _ _ fun hm => ?_).trans (h.resolve_right ha)
    obtain ⟨x, -, hx⟩ := Finset.mem_map.mp hm
    subst hoff
    have h0 : b + 1 * (x 0).val = i.val :=
      congrArg (fun j : (⟨2, ![N, 512]⟩ : Shape).Idx => (j 0).val) (v.emb.injective hx)
    have hx0 : (x 0).val < n := (x 0).isLt
    omega

/-- The same for a fold of such writes: no write needs to miss the row, since all agree on what it holds. -/
theorem fold_rows {ι : Type} (L : List ι) (off : ι → Fin 2 → Nat) (b : ι → Nat) (hoff : ∀ r, off r = ![b r, 0])
    (inb : ∀ r a, off r a + (![n, 512] : Fin 2 → Nat) a ≤ (⟨2, ![N, 512]⟩ : Shape).size a)
    (w : ι → (⟨2, ![n, 512]⟩ : Shape).Idx → Elt F e) (i : Fin N) (q : Fin 512) (t : Elt F e)
    (hw : ∀ r (p : Fin n), i.val = b r + p.val → w r (ix2 p q) = t) (f : v.ty.Contents (Elt F))
    (h : f (v.emb (ix2 i q)) = cast (congrArg (Elt F) v.elt_eq.symm) t ∨ ∃ r ∈ L, b r ≤ i.val ∧ i.val < b r + n) :
    L.foldl (fun g r => (v.slice (Rect.unit (s := ⟨2, ![N, 512]⟩) (off r) ![n, 512] (inb r))).write (Elt F) g (w r)
        Finset.univ) f (v.emb (ix2 i q)) = cast (congrArg (Elt F) v.elt_eq.symm) t := by
  induction L generalizing f with
  | nil => exact h.resolve_right fun ⟨_, hr, _⟩ => absurd hr List.not_mem_nil
  | cons a L ih =>
    refine ih _ (or_iff_not_imp_right.mpr fun hn => write_rows v _ _ (hoff a) (inb a) f (w a) i q t (hw a)
      (h.imp_right fun ⟨r, hr, hb⟩ => ?_))
    rcases List.mem_cons.mp hr with rfl | hr
    · exact hb
    · exact absurd ⟨r, hr, hb⟩ hn

end Writes

variable (m : (ℓ : Loc nD τ sig) → Buf (Elt Ideal) ℓ) (Pw : (⟨3, ![2, 1024, 512]⟩ : Shape).Idx → EReal)
  (gw : (⟨1, ![512]⟩ : Shape).Idx → EReal)
  (hblk : ∀ d : Dev nD, m ((d : Thread nD τ).loc main_arg0)
    = Layout.blockN ⟨3, ![1, 1024, 512]⟩ ⟨3, ![2, 1024, 512]⟩ (Layout.meshBlock [2, 2, 4] ![[1], [], []] d) Pw)
  (hg : ∀ d : Dev nD, m ((d : Thread nD τ).loc main_arg1) = gw)

/-- The shape casts and the whole-vector view in front of gamma do not move its entries. -/
theorem pay1_gVec_apply (o : Dev nD) (u : Fin 1) (q : Fin 512) :
    k0_pay1 (gVec m o) (ix2 u q) = m ((o : Thread nD τ).loc main_arg1) (ix1 q) := by
  show shapeCast S1x512 (shapeCast S512 (gVec m o) _) _ (ix2 u q) = _
  refine (shapeCast_a_1a_apply _ _ u q).trans ?_
  refine (congrFun (shapeCast_self (s := S512) (gVec m o) shapeCasts_S512_S512) (ix1 q)).trans ?_
  unfold gVec
  rw [View.read_apply, show (win0_0.blk (0 : Fin 1)).view.emb (ix1 q) = ix1 q from
    funext fun a => Fin.ext (match a with | ⟨0, _⟩ => by show 0 * 512 + 1 * q.val = q.val; omega)]
  exact cast_eq _ _

/-- Where row 0 of output tile `t` sits among the 1024 rows: tiles 0 to 7 follow one another, tile 8 lies in the other chunk. -/
def ownRow (c : Dev nD) (t : Nat) : Nat :=
  if t < 8 then 512 * ((c.val / 4) % 2) + 256 * (c.val / 8) + 32 * t
  else (512 * ((c.val / 4) % 2) + 480) - 256 * (c.val / 8)

include hblk

/-- A device holds block `y` of the stacked partial sums, so a row read from its block is a row of partial sum `y`. -/
theorem rows_read (o : Dev nD) (y : Fin 2) (hy : y.val = (o.val / 4) % 2) {n : Nat} (off : Fin 2 → Nat) (b : Nat)
    (hoff : off = ![b, 0]) (inb : ∀ a, off a + (![n, 512] : Fin 2 → Nat) a ≤ S1024x512.size a)
    (p : Fin n) (q : Fin 512) (R : Fin 1024) (hR : R.val = b + p.val) :
    (A2.slice (Rect.unit (s := S1024x512) off ![n, 512] inb) (fun _ => rfl)).view.read (Elt Ideal)
      (m ((o : Thread nD τ).loc main_arg0)) (ix2 p q) = Pw (ix3 y R q) := by
  rw [View.read_apply, hblk o, Layout.blockN_apply]
  refine (cast_eq _ _).trans (congrArg Pw ?_)
  show Layout.TilesN.idx _ _ ((Rect.unit (s := S1x1024x512) ![0, 0, 0] S1x1024x512.size
    inb_S1x1024x512_S1x1024x512_0_0_0).emb (Shape.reshapeEquiv _
      ((Rect.unit (s := S1024x512) off ![n, 512] inb).emb (ix2 p q)))) = _
  rw [rows_emb (N := 1024) off b hoff inb p q R hR, reshapeEquiv_ix2_1ab]
  funext a
  apply Fin.ext
  match a with
  | ⟨0, _⟩ =>
    have hc := coords o
    show Layout.meshLin [2, 2, 4] o.val [1] * 1 + 0 = y.val
    omega
  | ⟨1, _⟩ =>
    show 0 * 1024 + (0 + 1 * R.val) = R.val
    omega
  | ⟨2, _⟩ =>
    show 0 * 512 + (0 + 1 * q.val) = q.val
    omega

/-- The y-partner sends exactly the rows this device adds its own to, taken from the other partial sum. -/
theorem yVal_yp_apply (c : Dev nD) (t : Fin 9) (p : Fin 32) (q : Fin 512) (R : Fin 1024) (hR : R.val = ownRow c t.val + p.val)
    (y : Fin 2) (hy : y.val = 1 - (c.val / 4) % 2) : yVal m (yp c) t (ix2 p q) = Pw (ix3 y R q) := by
  have hc := coords c
  unfold yVal
  by_cases h : t.val < 8
  · rw [dif_pos h]
    exact rows_read m Pw hblk (yp c) y (by omega) _ _ (k0_off3_eq (yp c) ⟨t.val, h⟩) _ p q R (by
      rw [hR, ownRow, if_pos h]
      dsimp only
      omega)
  · rw [dif_neg h]
    exact rows_read m Pw hblk (yp c) y (by omega) _ _ (k0_off4_eq (yp c)) _ p q R (by
      rw [hR, ownRow, if_neg h]
      omega)

/-- Whichever of the two row writes covers tile `t` carries the device's own partial sum at row `R`. -/
theorem lVal_apply (c : Dev nD) (t : Fin 9) (p : Fin 32) (q : Fin 512) (R : Fin 1024) (hR : R.val = ownRow c t.val + p.val)
    (y : Fin 2) (hy : y.val = (c.val / 4) % 2) : lVal m c t (ix2 p q) = Pw (ix3 y R q) := by
  have hc := coords c
  unfold lVal lFull
  rw [View.read_apply, show (Lt t).view.emb (ix2 p q) = ix2 (⟨32 * t.val + p.val, by omega⟩ : Fin 288) q from
    rows_emb (N := 288) (n := 32) _ _ rfl _ p q _ rfl]
  refine (cast_eq _ _).trans ((write_rows Lm.view ![256, 0] 256 rfl _ _ _ _ q _
    (fun p' hp' => ?_) ?_).trans (cast_eq _ _))
  · have hp : 32 * t.val + p.val = 256 + p'.val := hp'
    exact rows_read m Pw hblk c y hy _ _ (k0_off2_eq c) _ p' q R (by
      rw [hR, ownRow, if_neg (by omega)]
      omega)
  · by_cases h : t.val < 8
    · refine Or.inl (write_rows Lm.view ![0, 0] 0 rfl _ _ _ _ q _ (fun p' hp' => ?_) (Or.inr ?_))
      · have hp : 32 * t.val + p.val = 0 + p'.val := hp'
        exact rows_read m Pw hblk c y hy _ _ (k0_off1_eq c) _ p' q R (by
          rw [hR, ownRow, if_pos h]
          omega)
      · show 0 ≤ 32 * t.val + p.val ∧ 32 * t.val + p.val < 0 + 256
        omega
    · refine Or.inr ?_
      show 256 ≤ 32 * t.val + p.val ∧ 32 * t.val + p.val < 256 + 32
      omega

include hg

/-- The two addends are the two partial sums at one row, in either order, so the tile is the specification's result there. -/
theorem tileOut_apply (d : Dev nD) (t : Nat) (ht : t < 9) (p : Fin 32) (q : Fin 512) (R : Fin 1024)
    (hR : R.val = ownRow d t + p.val) : tileOut m d ⟨t, ht⟩ (ix2 p q) = Cert.Spec.out Pw gw (ix2 R q) := by
  have hs : ∀ k, lVal m d ⟨t, ht⟩ (ix2 p k) + yVal m (yp d) ⟨t, ht⟩ (ix2 p k) = Cert.Spec.rowSum Pw R k := fun k => by
    have L := lVal_apply m Pw hblk d ⟨t, ht⟩ p k R hR
    have Y := yVal_yp_apply m Pw hblk d ⟨t, ht⟩ p k R hR
    rcases Nat.mod_two_eq_zero_or_one (d.val / 4) with h | h
    · rw [L 0 (by omega), Y 1 (by omega)]
      rfl
    · rw [L 1 (by omega), Y 0 (by omega)]
      exact add_comm _ _
  rw [tileOut, tileF_apply _ _ _ p q _ hs, pay1_gVec_apply, hg d]
  rfl

/-- Each of the sixteen tile writes puts the specification's rows where they belong, and together they cover every row. -/
theorem outAt_apply (c : Dev nD) (i q : Fin 512) (R : Fin 1024) (hR : R.val = 512 * ((c.val / 4) % 2) + i.val) :
    outAt m c (ix2 i q) = Cert.Spec.out Pw gw (ix2 R q) := by
  have hc := coords c
  have T := tileOut_apply m Pw gw hblk hg
  unfold outAt
  dsimp only
  refine (fold_rows Om.view (List.finRange 7)
    (fun r : Fin 7 => k0_off6 (xp c) (BitVec.ofNat 32 (32 * r.val))) (fun r => 256 * ((xp c).val / 8) + 32 * r.val)
    (k0_off6_eq (xp c)) (k0_off6_inb (xp c)) (fun r : Fin 7 => tileOut m (xp c) ⟨r.val, by omega⟩) i q _
    (fun r p hp => T (xp c) r.val _ p q R (by
      rw [hR, ownRow, if_pos (show r.val < 8 by omega)]
      omega)) _ ?_).trans (cast_eq _ _)
  by_cases h7 : 256 * (1 - c.val / 8) ≤ i.val ∧ i.val < 256 * (1 - c.val / 8) + 224
  · exact Or.inr ⟨⟨(i.val - 256 * (1 - c.val / 8)) / 32, by omega⟩, List.mem_finRange _, by
      dsimp only
      omega⟩
  refine Or.inl (write_rows Om.view _ (480 - 256 * (c.val / 8)) (k0_off7_eq c) (k0_off7_inb c)
    _ _ i q _ (fun p hp => T c 8 (by decide) p q R (by
      rw [hR, ownRow, if_neg (Nat.lt_irrefl 8)]
      omega)) ?_)
  by_cases h8 : 480 - 256 * (c.val / 8) ≤ i.val ∧ i.val < 480 - 256 * (c.val / 8) + 32
  · exact Or.inr h8
  exact Or.inl (fold_rows Om.view (List.finRange 8) _ (fun r => 256 * (c.val / 8) + 32 * r.val)
    (k0_off5_eq c) (k0_off5_inb c) (fun r : Fin 8 => tileOut m c ⟨r.val, by omega⟩) i q _
    (fun r p hp => T c r.val _ p q R (by
      rw [hR, ownRow, if_pos r.isLt]
      omega)) _
    (Or.inr ⟨⟨(i.val - 256 * (c.val / 8)) / 32, by omega⟩, List.mem_finRange _, by
      dsimp only
      omega⟩))

/-- Row `i` of the buffer is row `512 y + i` of the result, which is row `i` of block `y`. -/
theorem outAt_eq_block (c : Dev nD) :
    outAt m c = Layout.blockN ⟨2, ![512, 512]⟩ ⟨2, ![1024, 512]⟩ (Layout.meshBlock [2, 2, 4] ![[1], []] c)
      (Cert.Spec.out Pw gw) := by
  refine funext fun (i : S512x512.Idx) => ?_
  obtain ⟨a, b, rfl⟩ : ∃ (a : Fin 512) (b : Fin 512), i = ix2 a b := ⟨_, _, eq_ix2 (n0 := 512) (n1 := 512) i⟩
  rw [outAt_apply m Pw gw hblk hg c a b ⟨512 * ((c.val / 4) % 2) + a.val, by omega⟩ rfl, Layout.blockN_apply]
  refine congrArg (Cert.Spec.out Pw gw) (Shape.idx_ext₂ ?_ ?_)
  · have hc := coords c
    show 512 * ((c.val / 4) % 2) + a.val = Layout.meshLin [2, 2, 4] c.val [1] * 512 + a.val
    omega
  · show b.val = 0 * 512 + b.val
    omega

/-- info: 'Cert.KernelIdeal.Proto.outAt_eq_block' depends on axioms: [propext, Classical.choice, Quot.sound] -/
#guard_msgs in #print axioms outAt_eq_block

end Cert.KernelIdeal.Proto
-- ==== Proof.ProtoW.Defs.lean ====
import proofs.«900599_g7700000000000600_dist_rsrms_v7x_xyz2x2x4_y_m512_d512_f32_1_alg».proof.Proof.Gen.Kernel
import proofs.«900599_g7700000000000600_dist_rsrms_v7x_xyz2x2x4_y_m512_d512_f32_1_alg».proof.Proof.Gen.Kernel.Skeleton
import proofs.«900599_g7700000000000600_dist_rsrms_v7x_xyz2x2x4_y_m512_d512_f32_1_alg».proof.Proof.Gen.Kernel.Launch
import proofs.«900599_g7700000000000600_dist_rsrms_v7x_xyz2x2x4_y_m512_d512_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- The device with the other y-coordinate: it holds the other partial sum of this device's rows. -/
def yp (c : Dev nD) : Dev nD := ⟨k0_dev1 c, k0_dev1_lt c⟩
/-- The device with the other x-coordinate: it owns the same output half and computes the complementary tiles. -/
def xp (c : Dev nD) : Dev nD := ⟨k0_dev2 c, k0_dev2_lt c⟩

theorem yp_yp : ∀ c : Dev nD, yp (yp c) = c := by decide +kernel
theorem xp_xp : ∀ c : Dev nD, xp (xp c) = c := by decide +kernel

theorem dev3_eq (c : Dev nD) : (⟨k0_dev3 c, k0_dev3_lt c⟩ : Dev nD) = yp c := Fin.ext ((k0_dev3_eq c).trans (k0_dev1_eq c).symm)
theorem dev4_eq (c : Dev nD) : (⟨k0_dev4 c, k0_dev4_lt c⟩ : Dev nD) = yp c := Fin.ext ((k0_dev4_eq c).trans (k0_dev1_eq c).symm)
theorem dev5_eq (c : Dev nD) : (⟨k0_dev5 c, k0_dev5_lt c⟩ : Dev nD) = yp c := Fin.ext ((k0_dev5_eq c).trans (k0_dev1_eq c).symm)
theorem dev6_eq (c : Dev nD) : (⟨k0_dev6 c, k0_dev6_lt c⟩ : Dev nD) = yp c := Fin.ext ((k0_dev6_eq c).trans (k0_dev1_eq c).symm)
theorem dev7_eq (c : Dev nD) : (⟨k0_dev7 c, k0_dev7_lt c⟩ : Dev nD) = yp c := Fin.ext ((k0_dev7_eq c).trans (k0_dev1_eq c).symm)
theorem dev8_eq (c : Dev nD) : (⟨k0_dev8 c, k0_dev8_lt c⟩ : Dev nD) = yp c := Fin.ext ((k0_dev8_eq c).trans (k0_dev1_eq c).symm)
theorem dev9_eq (c : Dev nD) : (⟨k0_dev9 c, k0_dev9_lt c⟩ : Dev nD) = yp c := Fin.ext ((k0_dev9_eq c).trans (k0_dev1_eq c).symm)
theorem dev10_eq (c : Dev nD) : (⟨k0_dev10 c, k0_dev10_lt c⟩ : Dev nD) = yp c := Fin.ext ((k0_dev10_eq c).trans (k0_dev1_eq c).symm)
theorem dev11_eq (c : Dev nD) : (⟨k0_dev11 c, k0_dev11_lt c⟩ : Dev nD) = yp c := Fin.ext ((k0_dev11_eq c).trans (k0_dev1_eq c).symm)
theorem dev12_eq (c : Dev nD) : (⟨k0_dev12 c, k0_dev12_lt c⟩ : Dev nD) = xp c := Fin.ext ((k0_dev12_eq c).trans (k0_dev2_eq c).symm)
theorem dev13_eq (c : Dev nD) : (⟨k0_dev13 c, k0_dev13_lt c⟩ : Dev nD) = xp c := Fin.ext ((k0_dev13_eq c).trans (k0_dev2_eq c).symm)
theorem dev14_eq (c : Dev nD) : (⟨k0_dev14 c, k0_dev14_lt c⟩ : Dev nD) = xp c := Fin.ext ((k0_dev14_eq c).trans (k0_dev2_eq c).symm)
theorem dev15_eq (c : Dev nD) : (⟨k0_dev15 c, k0_dev15_lt c⟩ : Dev nD) = xp c := Fin.ext ((k0_dev15_eq c).trans (k0_dev2_eq c).symm)
theorem dev16_eq (c : Dev nD) : (⟨k0_dev16 c, k0_dev16_lt c⟩ : Dev nD) = xp c := Fin.ext ((k0_dev16_eq c).trans (k0_dev2_eq c).symm)
theorem dev17_eq (c : Dev nD) : (⟨k0_dev17 c, k0_dev17_lt c⟩ : Dev nD) = xp c := Fin.ext ((k0_dev17_eq c).trans (k0_dev2_eq c).symm)
theorem dev18_eq (c : Dev nD) : (⟨k0_dev18 c, k0_dev18_lt c⟩ : Dev nD) = xp c := Fin.ext ((k0_dev18_eq c).trans (k0_dev2_eq c).symm)

abbrev A0 : Memref sig .tc .hbm S1x1024x512 .f32 := Memref.whole main_arg0
abbrev A2 : Memref sig .tc .hbm S1024x512 .f32 :=
  (A0.slice (Rect.unit (s := S1x1024x512) ![0, 0, 0] S1x1024x512.size inb_S1x1024x512_S1x1024x512_0_0_0) (fun _ => rfl)).squeeze S1024x512 squeezes_S1x1024x512_S1024x512
abbrev Lm : Memref sig .tc .vmem S288x512 .f32 := Memref.whole cc0_scratch0
abbrev Cm : Memref sig .tc .vmem S288x512 .f32 := Memref.whole cc0_scratch1
abbrev Tm : Memref sig .tc .vmem S32x512 .f32 := Memref.whole cc0_scratch2
abbrev Gm : Memref sig .tc .vmem S512 .f32 := Memref.whole cc0_stg0_0
abbrev Om : Memref sig .tc .vmem S512x512 .f32 := Memref.whole cc0_stg1_0

/-- The rows of the partial sum each copy reads: the device's own 256 rows, its 32 late rows, and the nine tiles of the y-partner's half. -/
abbrev srcA (c : Dev nD) : Memref sig .tc .hbm S256x512 .f32 :=
  A2.slice (Rect.unit (s := S1024x512) (k0_off1 c) S256x512.size (k0_off1_inb c)) (fun _ => rfl)
abbrev srcB (c : Dev nD) : Memref sig .tc .hbm S32x512 .f32 :=
  A2.slice (Rect.unit (s := S1024x512) (k0_off2 c) S32x512.size (k0_off2_inb c)) (fun _ => rfl)
abbrev srcY (c : Dev nD) (r : Fin 8) : Memref sig .tc .hbm S32x512 .f32 :=
  A2.slice (Rect.unit (s := S1024x512) (k0_off3 c (BitVec.ofNat 32 (32 * r.val))) S32x512.size (k0_off3_inb c r)) (fun _ => rfl)
abbrev srcY8 (c : Dev nD) : Memref sig .tc .hbm S32x512 .f32 :=
  A2.slice (Rect.unit (s := S1024x512) (k0_off4 c) S32x512.size (k0_off4_inb c)) (fun _ => rfl)

theorem inb288 (t : Fin 9) : ∀ a, (![32 * t.val, 0] : Fin 2 → Nat) a + S32x512.size a ≤ S288x512.size a := by
  intro a; fin_cases a
  · show 32 * t.val + 32 ≤ 288; omega
  · show 0 + 512 ≤ 512; omega

abbrev LA : Memref sig .tc .vmem S256x512 .f32 := Lm.slice (Rect.unit (s := S288x512) ![0, 0] S256x512.size inb_S288x512_S256x512_0_0) (fun _ => rfl)
abbrev LB : Memref sig .tc .vmem S32x512 .f32 := Lm.slice (Rect.unit (s := S288x512) ![256, 0] S32x512.size inb_S288x512_S32x512_256_0) (fun _ => rfl)
abbrev Lt (t : Fin 9) : Memref sig .tc .vmem S32x512 .f32 := Lm.slice (Rect.unit (s := S288x512) ![32 * t.val, 0] S32x512.size (inb288 t)) (fun _ => rfl)
abbrev Ct (t : Fin 9) : Memref sig .tc .vmem S32x512 .f32 := Cm.slice (Rect.unit (s := S288x512) ![32 * t.val, 0] S32x512.size (inb288 t)) (fun _ => rfl)

abbrev Oo (c : Dev nD) (r : Fin 8) : Memref sig .tc .vmem S32x512 .f32 :=
  Om.slice (Rect.unit (s := S512x512) (k0_off5 c (BitVec.ofNat 32 (32 * r.val))) S32x512.size (k0_off5_inb c r)) (fun _ => rfl)
abbrev Oo8 (c : Dev nD) : Memref sig .tc .vmem S32x512 .f32 :=
  Om.slice (Rect.unit (s := S512x512) (k0_off7 c) S32x512.size (k0_off7_inb c)) (fun _ => rfl)
abbrev Ox (c : Dev nD) (r : Fin 7) : Memref sig .tc .vmem S32x512 .f32 :=
  Om.slice (Rect.unit (s := S512x512) (k0_off6 c (BitVec.ofNat 32 (32 * r.val))) S32x512.size (k0_off6_inb c r)) (fun _ => rfl)

abbrev Pm (c : Dev nD) : Buf (Elt F) ((c : Thread nD τ).loc main_arg0) := m ((c : Thread nD τ).loc main_arg0)
def gVec (c : Dev nD) : (cc0_stg0_0 : Ref sig .tc).ty.Contents (Elt F) :=
  (win0_0.blk (0 : Fin 1)).view.read (Elt F) (m ((c : Thread nD τ).loc main_arg1))

/-- What each copy carries, as a read of device `o`'s partial sum through the copy's source view. -/
def yVal (o : Dev nD) (t : Fin 9) : S32x512.Idx → Elt F .f32 :=
  if h : t.val < 8 then (srcY o ⟨t.val, h⟩).view.read (Elt F) (Pm m o) else (srcY8 o).view.read (Elt F) (Pm m o)
def aVal (o : Dev nD) : S256x512.Idx → Elt F .f32 := (srcA o).view.read (Elt F) (Pm m o)
def bVal (o : Dev nD) : S32x512.Idx → Elt F .f32 := (srcB o).view.read (Elt F) (Pm m o)

def lFull (o : Dev nD) (f : Buf (Elt F) ((o : Thread nD τ).loc cc0_scratch0)) : Buf (Elt F) ((o : Thread nD τ).loc cc0_scratch0) :=
  LB.view.write (Elt F) (LA.view.write (Elt F) f (aVal m o) Finset.univ) (bVal m o) Finset.univ
/-- Tile `t` of the local sum buffer once both local copies have landed. -/
def lVal (o : Dev nD) (t : Fin 9) : S32x512.Idx → Elt F .f32 :=
  (Lt t).view.read (Elt F) (lFull m o (fun _ => Classical.arbitrary _))

def tileF (g1 : FVec F S1x512 .f32) (a b : Vec F S32x512 .f32) : FVec F S32x512 .f32 := k0_pay4 g1 a b
/-- Output tile `t` of device `o`: its own rows plus the rows its y-partner sent, normalised and scaled by gamma. -/
def tileOut (o : Dev nD) (t : Fin 9) : S32x512.Idx → Elt F .f32 :=
  tileF (k0_pay1 (gVec m o)) (lVal m o t) (yVal m (yp o) t)

/-- The output buffer at the end: the nine tiles the device computed and the seven its x-partner pushed, written in that order. -/
def outAt (c : Dev nD) : (cc0_stg1_0 : Ref sig .tc).ty.Contents (Elt F) :=
  let f0 : (cc0_stg1_0 : Ref sig .tc).ty.Contents (Elt F) := fun _ => Classical.arbitrary _
  let f1 := (List.finRange 8).foldl (fun f r => (Oo c r).view.write (Elt F) f (tileOut m c ⟨r.val, by omega⟩) Finset.univ) f0
  let f2 := (Oo8 c).view.write (Elt F) f1 (tileOut m c 8) Finset.univ
  (List.finRange 7).foldl (fun f r => (Ox (xp c) r).view.write (Elt F) f (tileOut m (xp c) ⟨r.val, by omega⟩) Finset.univ) f2

end Cert.Kernel.Proto

end
-- ==== Proof.ProtoW.Sched.lean ====
import proofs.«900599_g7700000000000600_dist_rsrms_v7x_xyz2x2x4_y_m512_d512_f32_1_alg».proof.Proof.ProtoW.Defs

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

abbrev barS : Sem sig := (SemArray.scalar (sig.barrier 0 rfl) : Sems sig S_).sem
abbrev cell (c : Dev nD) (s : SemLoc sig) : GSem nD τ sig := ((c : Thread nD τ), s)
abbrev dmaS (i : ℕ) (h : i < 36) : SemLoc sig := .dma ⟨i, h⟩
abbrev locS : SemLoc sig := dmaS 2 (by decide)
abbrev t0S : SemLoc sig := dmaS 3 (by decide)
abbrev ysS (t : Fin 9) : SemLoc sig := dmaS (4 + t.val) (by omega)
abbrev yrS (t : Fin 9) : SemLoc sig := dmaS (13 + t.val) (by omega)
abbrev xsS (r : Fin 7) : SemLoc sig := dmaS (22 + r.val) (by omega)
abbrev xrS (r : Fin 7) : SemLoc sig := dmaS (29 + r.val) (by omega)
abbrev barC (c : Dev nD) : GSem nD τ sig := cell c (.reg barS)
abbrev locC (c : Dev nD) : GSem nD τ sig := cell c locS
abbrev t0C (c : Dev nD) : GSem nD τ sig := cell c t0S
abbrev ysC (c : Dev nD) (t : Fin 9) : GSem nD τ sig := cell c (ysS t)
abbrev yrC (c : Dev nD) (t : Fin 9) : GSem nD τ sig := cell c (yrS t)
abbrev xsC (c : Dev nD) (r : Fin 7) : GSem nD τ sig := cell c (xsS r)
abbrev xrC (c : Dev nD) (r : Fin 7) : GSem nD τ sig := cell c (xrS r)

/-- A device's 35 cells: the barrier, then DMA semaphores 2 … 35 (local, first tile, nine y-sends, nine y-receives, seven x-sends, seven x-receives). -/
abbrev csem (k : Fin 35) : SemLoc sig := if h : k.val = 0 then .reg barS else dmaS (k.val + 1) (by omega)
abbrev kcell (ck : Dev nD × Fin 35) : GSem nD τ sig := cell ck.1 (csem ck.2)
abbrev osem (k : Fin 34) : SemLoc sig := dmaS (k.val + 2) (by omega)

abbrev NA : ℕ := (LA : Memref sig .tc .vmem S256x512 .f32).view.dmaCredit
abbrev NB : ℕ := (LB : Memref sig .tc .vmem S32x512 .f32).view.dmaCredit
abbrev NT : ℕ := (Tm : Memref sig .tc .vmem S32x512 .f32).view.dmaCredit
abbrev NC : ℕ := (Ct 0 : Memref sig .tc .vmem S32x512 .f32).view.dmaCredit
abbrev NO : ℕ := (Ox (0 : Dev nD) 0 : Memref sig .tc .vmem S32x512 .f32).view.dmaCredit

def dmaAmount (i : ℕ) (d : Bool) : ℕ :=
  if i = 2 then (if d then NB else NA) else if i = 3 then NT else if i < 22 then NC else NO

def anyAt (d : Dev nD) {sp : Space} {s : Shape} {e : EltTy} (M : Memref sig .tc sp s e) : sProp 𝕄 :=
  iprop(∃ f : Buf (Elt F) (M.view.loc (d : Thread nD τ)), M.view.loc (d : Thread nD τ) ↦[M.view.set]{fullShare} f)

def yEntry (c : Dev nD) : sProp 𝕄 := bigSep Finset.univ fun t : Fin 9 => anyAt (F := F) (yp c) (Ct t)
def xEntry (c : Dev nD) : sProp 𝕄 := bigSep Finset.univ fun r : Fin 7 => anyAt (F := F) (xp c) (Ox c r)

def dmaPay (c : Dev nD) (i : ℕ) (d : Bool) : sProp 𝕄 :=
  if i = 2 then (if d then owns (c : Thread nD τ) LB fullShare (bVal m c) else owns (c : Thread nD τ) LA fullShare (aVal m c))
  else if i = 3 then owns (c : Thread nD τ) Tm fullShare (yVal m c 0)
  else if i = 4 then anyAt c Tm
  else if h13 : i < 13 then iprop(emp)
  else if h22 : i < 22 then owns (c : Thread nD τ) (Ct ⟨i - 13, by omega⟩) fullShare (yVal m (yp c) ⟨i - 13, by omega⟩)
  else if h29 : i < 29 then owns (c : Thread nD τ) (Ox c ⟨i - 22, by omega⟩) fullShare (tileOut m c ⟨i - 22, by omega⟩)
  else if h36 : i < 36 then owns (c : Thread nD τ) (Ox (xp c) ⟨i - 29, by omega⟩) fullShare (tileOut m (xp c) ⟨i - 29, by omega⟩)
  else iprop(emp)

/-- One round per cell: a cell's duties pay it the credit of the copies that complete on it, each handing its owner the landed elements. -/
def sched : Rounds.Schedule (GSem nD τ sig) Bool 𝕄 where
  duties g r := if r = 0 ∧ g.1.2 = .tc then
      (match g.2 with
        | .reg _ => Finset.univ
        | .dma i => if i.val = 2 then Finset.univ else if 3 ≤ i.val then {false} else ∅)
    else ∅
  unitless _ := False
  amount g _ d := match g.2 with
    | .reg _ => 1
    | .dma i => dmaAmount i.val d
  payload g _ d := match g.2 with
    | .reg _ => if d then xEntry g.1.1 else yEntry g.1.1
    | .dma i => dmaPay m g.1.1 i.val d
  amount_pos g _ d _ := by
    rcases g with ⟨th, sm⟩
    cases sm with
    | reg s => exact Nat.one_pos
    | dma i =>
      show 0 < dmaAmount i.val d
      unfold dmaAmount
      repeat' split
      all_goals exact View.dmaCredit_pos _ (by decide)

/-- What a device owes once its entry signals are sent: a tile's credit on each receive cell of its two partners. -/
def OY (c : Dev nD) : CellTallies nD τ sig Unit := tallyAt (xrC (xp c) 6) () NO + tallyAt (xrC (xp c) 5) () NO + tallyAt (xrC (xp c) 4) () NO + tallyAt (xrC (xp c) 3) () NO + tallyAt (xrC (xp c) 2) () NO + tallyAt (xrC (xp c) 1) () NO + tallyAt (xrC (xp c) 0) () NO + tallyAt (yrC (yp c) 8) () NC + tallyAt (yrC (yp c) 7) () NC + tallyAt (yrC (yp c) 6) () NC + tallyAt (yrC (yp c) 5) () NC + tallyAt (yrC (yp c) 4) () NC + tallyAt (yrC (yp c) 3) () NC + tallyAt (yrC (yp c) 2) () NC + tallyAt (yrC (yp c) 1) () NC + tallyAt (yrC (yp c) 0) () NC
def O₁ (c : Dev nD) : CellTallies nD τ sig Unit := OY c + tallyAt (barC (xp c)) () 1
def O₀ (c : Dev nD) : CellTallies nD τ sig Unit := O₁ c + tallyAt (barC (yp c)) () 1

def L (g : GSem nD τ sig) : Finset Unit := if g.1.2 = .tc then {()} else ∅
/-- Wait levels: the barrier at 1, y-receive cells at 2, x-receive cells at 3, every other cell at 0; each wait sits below everything still owed. -/
def lv (g : GSem nD τ sig) (_ : Unit) : ℕ := match g.2 with
  | .reg _ => 1
  | .dma i => if 29 ≤ i.val then 3 else if 13 ≤ i.val ∧ i.val < 22 then 2 else 0

/-- Every cell's invariant and that it has reached round 0: persistent, the same for all devices. -/
def records (K : Dev nD × Fin 35 → ℕ) : sProp 𝕄 :=
  iprop((bigSep Finset.univ fun ck : Dev nD × Fin 35 => cellInv ER (sched m) (K ck) (kcell ck))
    ∗ bigSep Finset.univ fun ck : Dev nD × Fin 35 => reached ER (kcell ck) 0)

def payToks (c : Dev nD) : sProp 𝕄 :=
  iprop(dutyTok ER (locC c) 0 false ∗ dutyTok ER (locC c) 0 true ∗ dutyTok ER (t0C c) 0 false
    ∗ (bigSep Finset.univ fun t : Fin 9 => dutyTok ER (ysC c t) 0 false)
    ∗ (bigSep Finset.univ fun r : Fin 7 => dutyTok ER (xsC c r) 0 false)
    ∗ dutyTok ER (barC (yp c)) 0 false ∗ dutyTok ER (barC (xp c)) 0 true
    ∗ (bigSep Finset.univ fun t : Fin 9 => dutyTok ER (yrC (yp c) t) 0 false)
    ∗ (bigSep Finset.univ fun r : Fin 7 => dutyTok ER (xrC (xp c) r) 0 false))

def positions (c : Dev nD) : sProp 𝕄 := bigSep Finset.univ fun k : Fin 35 => atPos ER (kcell (c, k)) 0 ∅ 0

def ghost (K : Dev nD × Fin 35 → ℕ) (c : Dev nD) : sProp 𝕄 := iprop(records m K ∗ positions c ∗ payToks c)

def launchCreds (c : Dev nD) : sProp 𝕄 :=
  iprop(cred (tallyAt (barC c) () 2)
    ∗ (bigSep Finset.univ fun t : Fin 9 => cred (tallyAt (yrC c t) () NC))
    ∗ (bigSep Finset.univ fun r : Fin 7 => cred (tallyAt (xrC c r) () NO)))

/-- The share of the argument array that is left after `k` copies have each taken one half of what was left. -/
def sh : ℕ → PosShare TreeShare
  | 0 => fullShare
  | k + 1 => (sh k).right

def start (c : Dev nD) : sProp 𝕄 :=
  iprop((∃ K, ghost m K c) ∗ launchCreds c ∗ levAts L lv ∗ (((c : Thread nD τ).loc main_arg0) ↦{fullShare} Pm m c))

def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratches c)
def Φ₁ (c : Dev nD) : sProp 𝕄 :=
  iprop((((c : Thread nD τ).loc main_arg0) ↦{sh 11} Pm m c) ∗ scratches c
    ∗ bigSep Finset.univ fun k : Fin 34 => semVal (cell c (osem k)) 0)

def dats (_ : Fin 1) (c : Dev nD) : Dat τ (Elt F) Unit ℕ UU ℕ cfg0 c where
  A w := m ((cfg0.win w).arr.view.loc (c : Thread nD τ))
  after w _ := match w with
    | ⟨0, _⟩ => gVec m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Proto

end
-- ==== Proof.ProtoW.Owed.lean ====
import proofs.«900599_g7700000000000600_dist_rsrms_v7x_xyz2x2x4_y_m512_d512_f32_1_alg».proof.Proof.ProtoW.Sched

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What is still owed the x-partner's receive cells once pushes `0 … k-1` are made. -/
def OXk (c : Dev nD) : ℕ → CellTallies nD τ sig Unit
  | 0 => tallyAt (xrC (xp c) 6) () NO + tallyAt (xrC (xp c) 5) () NO + tallyAt (xrC (xp c) 4) () NO + tallyAt (xrC (xp c) 3) () NO + tallyAt (xrC (xp c) 2) () NO + tallyAt (xrC (xp c) 1) () NO + tallyAt (xrC (xp c) 0) () NO
  | 1 => tallyAt (xrC (xp c) 6) () NO + tallyAt (xrC (xp c) 5) () NO + tallyAt (xrC (xp c) 4) () NO + tallyAt (xrC (xp c) 3) () NO + tallyAt (xrC (xp c) 2) () NO + tallyAt (xrC (xp c) 1) () NO
  | 2 => tallyAt (xrC (xp c) 6) () NO + tallyAt (xrC (xp c) 5) () NO + tallyAt (xrC (xp c) 4) () NO + tallyAt (xrC (xp c) 3) () NO + tallyAt (xrC (xp c) 2) () NO
  | 3 => tallyAt (xrC (xp c) 6) () NO + tallyAt (xrC (xp c) 5) () NO + tallyAt (xrC (xp c) 4) () NO + tallyAt (xrC (xp c) 3) () NO
  | 4 => tallyAt (xrC (xp c) 6) () NO + tallyAt (xrC (xp c) 5) () NO + tallyAt (xrC (xp c) 4) () NO
  | 5 => tallyAt (xrC (xp c) 6) () NO + tallyAt (xrC (xp c) 5) () NO
  | 6 => tallyAt (xrC (xp c) 6) () NO
  | _ => 0
/-- What is still owed both partners' receive cells once transfers `0 … k-1` to the y-partner are made. -/
def OYk (c : Dev nD) : ℕ → CellTallies nD τ sig Unit
  | 0 => OXk c 0 + tallyAt (yrC (yp c) 8) () NC + tallyAt (yrC (yp c) 7) () NC + tallyAt (yrC (yp c) 6) () NC + tallyAt (yrC (yp c) 5) () NC + tallyAt (yrC (yp c) 4) () NC + tallyAt (yrC (yp c) 3) () NC + tallyAt (yrC (yp c) 2) () NC + tallyAt (yrC (yp c) 1) () NC + tallyAt (yrC (yp c) 0) () NC
  | 1 => OXk c 0 + tallyAt (yrC (yp c) 8) () NC + tallyAt (yrC (yp c) 7) () NC + tallyAt (yrC (yp c) 6) () NC + tallyAt (yrC (yp c) 5) () NC + tallyAt (yrC (yp c) 4) () NC + tallyAt (yrC (yp c) 3) () NC + tallyAt (yrC (yp c) 2) () NC + tallyAt (yrC (yp c) 1) () NC
  | 2 => OXk c 0 + tallyAt (yrC (yp c) 8) () NC + tallyAt (yrC (yp c) 7) () NC + tallyAt (yrC (yp c) 6) () NC + tallyAt (yrC (yp c) 5) () NC + tallyAt (yrC (yp c) 4) () NC + tallyAt (yrC (yp c) 3) () NC + tallyAt (yrC (yp c) 2) () NC
  | 3 => OXk c 0 + tallyAt (yrC (yp c) 8) () NC + tallyAt (yrC (yp c) 7) () NC + tallyAt (yrC (yp c) 6) () NC + tallyAt (yrC (yp c) 5) () NC + tallyAt (yrC (yp c) 4) () NC + tallyAt (yrC (yp c) 3) () NC
  | 4 => OXk c 0 + tallyAt (yrC (yp c) 8) () NC + tallyAt (yrC (yp c) 7) () NC + tallyAt (yrC (yp c) 6) () NC + tallyAt (yrC (yp c) 5) () NC + tallyAt (yrC (yp c) 4) () NC
  | 5 => OXk c 0 + tallyAt (yrC (yp c) 8) () NC + tallyAt (yrC (yp c) 7) () NC + tallyAt (yrC (yp c) 6) () NC + tallyAt (yrC (yp c) 5) () NC
  | 6 => OXk c 0 + tallyAt (yrC (yp c) 8) () NC + tallyAt (yrC (yp c) 7) () NC + tallyAt (yrC (yp c) 6) () NC
  | 7 => OXk c 0 + tallyAt (yrC (yp c) 8) () NC + tallyAt (yrC (yp c) 7) () NC
  | 8 => OXk c 0 + tallyAt (yrC (yp c) 8) () NC
  | _ => OXk c 0

theorem OXk_peel6 (c : Dev nD) : OXk c 6 = OXk c 7 + tallyAt (xrC (xp c) 6) () NO := (zero_add _).symm
theorem OXk_seven (c : Dev nD) : OXk c 7 = 0 := rfl

end Cert.Kernel.Proto

end
-- ==== Proof.ProtoW.Big.lean ====
import proofs.«900599_g7700000000000600_dist_rsrms_v7x_xyz2x2x4_y_m512_d512_f32_1_alg».proof.Proof.ProtoW.Owed

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable {ℓ : Loc nD τ sig} {f : Buf (Elt F) ℓ}

omit [FloatOps F] in
/-- A copy that reads the elements `J` gets one half of the share that is left, on those elements only. -/
theorem share_take {q : PosShare TreeShare} (k k' : ℕ) (hq : q = sh k) (h : k' = k + 1) (J : Finset (Idx ℓ)) :
    (ℓ ↦{q} f : sProp 𝕄) ⊢ iprop((ℓ ↦[J]{(sh k).left} f) ∗ ℓ ↦{sh k'} f) := by
  subst hq h
  exact (pointsTo_share (PosShare.mem_left_op_right (sh k))).1.trans
    (sep_mono_left ((pointsTo_split_subset (Finset.subset_univ J)).1.trans sep_elim_left))

omit [FloatOps F] in
theorem owns_cast (c : Dev nD) {sp : Space} {s : Shape} {e : EltTy} {M M' : Memref sig .tc sp s e} (h : M = M') (q : PosShare TreeShare) (X : s.Idx → Elt F e) :
    owns (c : Thread nD τ) M q X ⊢ (owns (c : Thread nD τ) M' q X : sProp 𝕄) := by
  subst h; exact .rfl

end Cert.Kernel.Proto

end
-- ==== Proof.ProtoW.Regions.lean ====
import proofs.«900599_g7700000000000600_dist_rsrms_v7x_xyz2x2x4_y_m512_d512_f32_1_alg».proof.Proof.ProtoW.Owed

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]
local notation "𝕄" => MT nD τ sig Unit (Elt F) ℕ UU ℕ
variable (m : (ℓ : Loc nD τ sig) → Buf (Elt F) ℓ)

-- Full ownership of the elements `I` of the buffer at `ℓ`, whatever they hold.
def someAt (ℓ : Loc nD τ sig) (I : Finset (Idx ℓ)) : sProp 𝕄 :=
  iprop(∃ f : Buf (Elt F) ℓ, ℓ ↦[I]{fullShare} f)

theorem someAt_union {ℓ : Loc nD τ sig} {I J : Finset (Idx ℓ)} (h : Disjoint I J) :
    someAt (F := F) ℓ (I ∪ J) = iprop(someAt (F := F) ℓ I ∗ someAt (F := F) ℓ J) := by
  refine BI.equiv_iff.mp ⟨?_, ?_⟩ <;> unfold someAt <;> show (_ : sProp 𝕄) ⊢ _
  · iintro ⟨%f, H⟩
    ihave H := (pointsTo_union h).1 $$ H
    icases H with ⟨H1, H2⟩
    isplitl [H1] <;> iexists f <;> iassumption
  · iintro ⟨⟨%f, H1⟩, ⟨%g, H2⟩⟩
    iexists (J.piecewise g f)
    iapply (pointsTo_join h)
    isplitl [H1] <;> iassumption

theorem someAt_biUnion {ℓ : Loc nD τ sig} {T : Type} (S : Finset T) (K : T → Finset (Idx ℓ))
    (h : ∀ t ∈ S, ∀ t' ∈ S, t ≠ t' → Disjoint (K t) (K t')) :
    someAt (F := F) ℓ (S.biUnion K) = bigSep S fun t => someAt (F := F) ℓ (K t) := by
  classical
  refine BI.equiv_iff.mp ⟨?_, ?_⟩ <;> unfold someAt <;> show (_ : sProp 𝕄) ⊢ _
  · refine exists_elim fun f => ?_
    rw [pointsTo_biUnion S K h]
    exact bigSep_mono fun t _ => sProp.exists_intro f
  · iintro H
    ihave H := (bigSep_exists_pi S _) $$ H
    icases H with ⟨%fs, H⟩
    ihave H := (pointsTo_biUnion_join S K fs (fun _ => Classical.arbitrary _) h) $$ H
    icases H with ⟨%g, -, H⟩
    iexists g
    iexact H

-- A whole buffer is any set of its elements together with the complement.
theorem cut {ℓ : Loc nD τ sig} (I : Finset (Idx ℓ)) :
    iprop(∃ f : Buf (Elt F) ℓ, ℓ ↦{fullShare} f) = iprop(someAt (F := F) ℓ I ∗ someAt (F := F) ℓ (Finset.univ \ I)) := by
  rw [← someAt_union Finset.disjoint_sdiff, Finset.union_sdiff_of_subset (Finset.subset_univ I)]
  rfl

theorem anyAt_of_owns (c : Dev nD) {sp : Space} {s : Shape} {e : EltTy} (M : Memref sig .tc sp s e) (X : s.Idx → Elt F e) :
    owns (c : Thread nD τ) M fullShare X ⊢ anyAt (F := F) c M := by
  unfold owns anyAt
  iintro ⟨%f, -, H⟩
  iexists f
  iexact H

theorem bigSep_fin (n : ℕ) (Φ : Fin n → sProp 𝕄) : bigSep Finset.univ Φ = bigSepL (List.finRange n) Φ :=
  bigSep_univ_eq_bigSepL _ (List.toFinset_finRange n).symm (List.nodup_finRange n) Φ

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_fin 7 Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_fin 8 Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_fin 9 Φ
theorem bigSep_fin34 (Φ : Fin 34 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9
    ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26
    ∗ Φ 27 ∗ Φ 28 ∗ Φ 29 ∗ Φ 30 ∗ Φ 31 ∗ Φ 32 ∗ Φ 33) :=
  bigSep_fin 34 Φ
theorem bigSep_fin35 (Φ : Fin 35 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9
    ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26
    ∗ Φ 27 ∗ Φ 28 ∗ Φ 29 ∗ Φ 30 ∗ Φ 31 ∗ Φ 32 ∗ Φ 33 ∗ Φ 34) :=
  bigSep_fin 35 Φ

abbrev bufC (c : Dev nD) : Loc nD τ sig := (c : Thread nD τ).loc cc0_scratch1
abbrev bufL (c : Dev nD) : Loc nD τ sig := (c : Thread nD τ).loc cc0_scratch0
abbrev bufO (c : Dev nD) : Loc nD τ sig := (c : Thread nD τ).loc cc0_stg1_0

theorem slice_disjoint {κ : Kind} (b : Ref sig κ) {off size off' size' : Fin b.ty.shape.rank → ℕ} {inb inb'} (a : Fin b.ty.shape.rank)
    (h : off a + size a ≤ off' a ∨ off' a + size' a ≤ off a) :
    Disjoint ((View.whole b).slice (Rect.unit off size inb)).set ((View.whole b).slice (Rect.unit off' size' inb')).set := by
  rw [View.set_slice_whole, View.set_slice_whole]; exact Rect.unit_disjoint a h

def setC (c : Dev nD) (t : Fin 9) : Finset (Idx (bufC c)) := (Ct t).view.set
def restC (c : Dev nD) : sProp 𝕄 := someAt (F := F) (bufC c) (Finset.univ \ Finset.univ.biUnion (setC c))

theorem setC_disjoint (c : Dev nD) (t : Fin 9) (_ : t ∈ Finset.univ) (t' : Fin 9) (_ : t' ∈ Finset.univ) (h : t ≠ t') :
    Disjoint (setC c t) (setC c t') :=
  slice_disjoint cc0_scratch1 (0 : Fin 2) (by show 32 * t.val + 32 ≤ 32 * t'.val ∨ 32 * t'.val + 32 ≤ 32 * t.val; omega)

theorem splitC (c : Dev nD) : iprop(∃ f : Buf (Elt F) (bufC c), bufC c ↦{fullShare} f)
    ⊢ iprop((bigSep Finset.univ fun t : Fin 9 => anyAt (F := F) c (Ct t)) ∗ restC (F := F) c) := by
  rw [cut (Finset.univ.biUnion (setC c)), someAt_biUnion _ _ (setC_disjoint c)]; exact .rfl

theorem joinC (c : Dev nD) : iprop((bigSep Finset.univ fun t : Fin 9 => anyAt (F := F) c (Ct t)) ∗ restC (F := F) c)
    ⊢ iprop(∃ f : Buf (Elt F) (bufC c), bufC c ↦{fullShare} f) := by
  rw [cut (Finset.univ.biUnion (setC c)), someAt_biUnion _ _ (setC_disjoint c)]; exact .rfl

def setL (c : Dev nD) : Finset (Idx (bufL c)) := LA.view.set ∪ LB.view.set
def restL (c : Dev nD) : sProp 𝕄 := someAt (F := F) (bufL c) (Finset.univ \ setL c)

theorem setL_disjoint (c : Dev nD) : Disjoint (LA.view.set : Finset (Idx (bufL c))) LB.view.set :=
  slice_disjoint cc0_scratch0 (0 : Fin 2) (.inl (Nat.le_refl 256))

theorem splitL (c : Dev nD) : iprop(∃ f : Buf (Elt F) (bufL c), bufL c ↦{fullShare} f)
    ⊢ iprop(anyAt (F := F) c LA ∗ anyAt (F := F) c LB ∗ restL (F := F) c) := by
  rw [cut (setL c), setL, someAt_union (setL_disjoint c)]; exact sep_assoc

theorem joinL (c : Dev nD) : iprop(anyAt (F := F) c LA ∗ anyAt (F := F) c LB ∗ restL (F := F) c)
    ⊢ iprop(∃ f : Buf (Elt F) (bufL c), bufL c ↦{fullShare} f) := by
  rw [cut (setL c), setL, someAt_union (setL_disjoint c)]; exact sep_assoc'

theorem Ox_eq_Oo (c : Dev nD) (r : Fin 7) : Ox c r = Oo c ⟨r.val, by omega⟩ :=
  Memref.slice_unit_congr Om ((k0_off6_eq c r).trans (k0_off5_eq c ⟨r.val, by omega⟩).symm) _ _ _ _

abbrev TO : Type := Fin 8 ⊕ Unit ⊕ Fin 7

def offO (c : Dev nD) : TO → Fin 2 → ℕ
  | .inl r => k0_off5 c (BitVec.ofNat 32 (32 * r.val))
  | .inr (.inl _) => k0_off7 c
  | .inr (.inr r) => k0_off6 (xp c) (BitVec.ofNat 32 (32 * r.val))

def rowO (c : Dev nD) : TO → ℕ
  | .inl r => 256 * (c.val / 8) + 32 * r.val
  | .inr (.inl _) => 480 - 256 * (c.val / 8)
  | .inr (.inr r) => 256 * ((xp c).val / 8) + 32 * r.val

theorem offO_eq (c : Dev nD) : ∀ t, offO c t = ![rowO c t, 0]
  | .inl r => k0_off5_eq c r
  | .inr (.inl _) => k0_off7_eq c
  | .inr (.inr r) => k0_off6_eq (xp c) r

-- The sixteen tiles start at distinct multiples of 32 and reach every multiple below 512: they partition the rows.
theorem rowO_sep : ∀ (c : Dev nD) (t t' : TO), t ≠ t' → rowO c t + 32 ≤ rowO c t' ∨ rowO c t' + 32 ≤ rowO c t := by
  decide +kernel
theorem rowO_cov : ∀ (c : Dev nD) (k : Fin 16), ∃ t, rowO c t = 32 * k.val := by decide +kernel

theorem offO_inb (c : Dev nD) : ∀ t a, offO c t a + S32x512.size a ≤ S512x512.size a
  | .inl r => k0_off5_inb c r
  | .inr (.inl _) => k0_off7_inb c
  | .inr (.inr r) => k0_off6_inb (xp c) r

abbrev rO (c : Dev nD) (t : TO) : Rect S512x512 := Rect.unit (offO c t) S32x512.size (offO_inb c t)

theorem rO_disjoint (c : Dev nD) (t t' : TO) (h : t ≠ t') : Disjoint (rO c t).set (rO c t').set :=
  Rect.unit_disjoint (0 : Fin 2) (by rw [offO_eq, offO_eq]; exact rowO_sep c t t' h)

theorem rO_cover (c : Dev nD) : (Finset.univ : Finset TO).biUnion (fun t => (rO c t).set) = Finset.univ := by
  refine Finset.eq_univ_iff_forall.mpr fun x => ?_
  have h0 : (x 0).val < 512 := (x 0).isLt
  have h1 : (x 1).val < 512 := (x 1).isLt
  obtain ⟨t, ht⟩ := rowO_cov c ⟨(x 0).val / 32, by omega⟩
  refine Finset.mem_biUnion.mpr ⟨t, Finset.mem_univ t, Rect.mem_set_unit.mpr ?_⟩
  rw [offO_eq]
  intro a
  fin_cases a
  · show rowO c t ≤ (x 0).val ∧ (x 0).val < rowO c t + 32
    dsimp only at ht
    omega
  · show 0 ≤ (x 1).val ∧ (x 1).val < 0 + 512
    omega

-- The sixteen tiles leave nothing of the output buffer over.
def restO (c : Dev nD) : sProp 𝕄 := iprop(emp)

theorem splitO (c : Dev nD) : iprop(∃ f : Buf (Elt F) (bufO c), bufO c ↦{fullShare} f)
    ⊢ iprop((bigSep Finset.univ fun r : Fin 8 => anyAt (F := F) c (Oo c r)) ∗ anyAt (F := F) c (Oo8 c)
      ∗ (bigSep Finset.univ fun r : Fin 7 => anyAt (F := F) c (Ox (xp c) r)) ∗ restO (F := F) c) := by
  refine exists_elim fun f => ?_
  have h : (_ : sProp 𝕄) ⊢ _ := owns_rects (c : Thread nD τ) Om fullShare (rO c) (fun _ _ => rfl) (rO_disjoint c) (rO_cover c) f
  rw [owns_whole, bigSep_univ_sum, bigSep_univ_sum, bigSep_univ_of_subsingleton (M := 𝕄) ()] at h
  exact h.trans (BI.sep_mono (bigSep_mono fun _ _ => anyAt_of_owns c _ _)
    (BI.sep_mono (anyAt_of_owns c _ _) ((bigSep_mono fun _ _ => anyAt_of_owns c _ _).trans sep_emp_intro)))

-- After writes through pairwise disjoint rectangles, each rectangle reads back the payload last written through it.
theorem foldl_write_read {κ sp s e} (v : View sig κ sp s e) {T : Type} (R : T → Rect s)
    (w : (t : T) → (R t).shape.Idx → Elt F e) (hd : ∀ a b, a ≠ b → Disjoint (R a).set (R b).set)
    (f : v.ty.Contents (Elt F)) (t : T) (l : List T) (ht : t ∈ l) :
    (v.slice (R t)).read (Elt F) (l.foldl (fun f t => (v.slice (R t)).write (Elt F) f (w t) Finset.univ) f) = w t := by
  induction l using List.reverseRecOn with
  | nil => exact absurd ht List.not_mem_nil
  | append_singleton l a ih =>
    rw [List.foldl_append, List.foldl_cons, List.foldl_nil]
    by_cases h : t = a
    · subst h; exact View.read_write_univ _ _
    · rw [View.read_slice_write_slice_of_disjoint _ _ _ _ _ (by
        rw [View.setOn_univ, View.set_slice, View.set_slice]; exact (Finset.disjoint_map _).mpr (hd t a h))]
      exact ih ((List.mem_append.mp ht).resolve_right fun h' => h (List.mem_singleton.mp h'))

def vO (c : Dev nD) : TO → S32x512.Idx → Elt F .f32
  | .inl r => tileOut m c ⟨r.val, by omega⟩
  | .inr (.inl _) => tileOut m c 8
  | .inr (.inr r) => tileOut m (xp c) ⟨r.val, by omega⟩

def lO : List TO := (List.finRange 8).map .inl ++ .inr (.inl ()) :: (List.finRange 7).map (.inr ∘ .inr)

-- The final contents as one run of sixteen tile writes.
theorem outAt_eq (c : Dev nD) : outAt m c =
    lO.foldl (fun f t => (Om.view.slice (rO c t)).write (Elt F) f (vO m c t) Finset.univ) fun _ => Classical.arbitrary _ := by
  rw [lO, List.foldl_append, List.foldl_cons, List.foldl_map, List.foldl_map]; rfl

attribute [local irreducible] outAt

theorem read_outAt (c : Dev nD) (t : TO) : (fun j => outAt m c ((rO c t).emb j)) = vO m c t := by
  show (Om.view.slice (rO c t)).read (Elt F) (outAt m c) = _
  rw [outAt_eq]
  exact foldl_write_read Om.view (rO c) (vO m c) (rO_disjoint c) _ t lO (by revert t; simp [lO])

theorem joinO (c : Dev nD) :
    iprop((bigSep Finset.univ fun r : Fin 8 => owns (c : Thread nD τ) (Oo c r) fullShare (tileOut m c ⟨r.val, by omega⟩))
      ∗ owns (c : Thread nD τ) (Oo8 c) fullShare (tileOut m c 8)
      ∗ (bigSep Finset.univ fun r : Fin 7 => owns (c : Thread nD τ) (Ox (xp c) r) fullShare (tileOut m (xp c) ⟨r.val, by omega⟩))
      ∗ restO (F := F) c)
    ⊢ (bufO c ↦{fullShare} outAt m c : sProp 𝕄) := by
  have h : (_ : sProp 𝕄) ⊢ _ := owns_of_rects (c : Thread nD τ) Om fullShare (rO c) (fun _ _ => rfl) (rO_disjoint c) (rO_cover c) (outAt m c)
  simp only [read_outAt, bigSep_univ_sum, bigSep_univ_of_subsingleton (M := 𝕄) (), owns_whole] at h
  exact (sep_mono_r (sep_mono_r sep_emp_elim)).trans h

/-- info: 'Cert.Kernel.Proto.joinO' depends on axioms: [propext, Classical.choice, Quot.sound] -/
#guard_msgs in #print axioms joinO

end Cert.Kernel.Proto

end
-- ==== Proof.ProtoW.Tables.lean ====
import proofs.«900599_g7700000000000600_dist_rsrms_v7x_xyz2x2x4_y_m512_d512_f32_1_alg».proof.Proof.ProtoW.Owed

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem reg_ne_dmaS (s : Sem sig) (i : ℕ) (h : i < 36) : (SemLoc.reg s : SemLoc sig) ≠ dmaS i h := fun e => by cases e
theorem dmaS_ne_reg (s : Sem sig) (i : ℕ) (h : i < 36) : dmaS i h ≠ (SemLoc.reg s : SemLoc sig) := fun e => by cases e
theorem dmaS_inj {i j : ℕ} (hi : i < 36) (hj : j < 36) (e : dmaS i hi = dmaS j hj) : i = j :=
  congrArg Fin.val (SemLoc.dma.inj e)

theorem duties_dma (c : Dev nD) (i : ℕ) (h : i < 36) (h3 : 3 ≤ i) : (sched m).duties (cell c (dmaS i h)) 0 = {false} := by
  dsimp only [sched]
  rw [if_pos ⟨rfl, rfl⟩, if_neg (by omega), if_pos h3]

theorem duties_bar (c : Dev nD) : (sched m).duties (barC c) 0 = Finset.univ := by
  dsimp only [sched]
  rw [if_pos ⟨rfl, rfl⟩]
theorem duties_loc (c : Dev nD) : (sched m).duties (locC c) 0 = Finset.univ := by
  dsimp only [sched]
  rw [if_pos ⟨rfl, rfl⟩, if_pos rfl]
theorem duties_t0 (c : Dev nD) : (sched m).duties (t0C c) 0 = {false} := duties_dma m c 3 (by decide) (by decide)
theorem duties_ys (c : Dev nD) (t : Fin 9) : (sched m).duties (ysC c t) 0 = {false} := duties_dma m c (4 + t.val) (by omega) (by omega)
theorem duties_yr (c : Dev nD) (t : Fin 9) : (sched m).duties (yrC c t) 0 = {false} := duties_dma m c (13 + t.val) (by omega) (by omega)
theorem duties_xs (c : Dev nD) (r : Fin 7) : (sched m).duties (xsC c r) 0 = {false} := duties_dma m c (22 + r.val) (by omega) (by omega)
theorem duties_xr (c : Dev nD) (r : Fin 7) : (sched m).duties (xrC c r) 0 = {false} := duties_dma m c (29 + r.val) (by omega) (by omega)
theorem duties_later (g : GSem nD τ sig) : ∀ r, 1 ≤ r → (sched m).duties g r = ∅ :=
  fun r hr => by
  dsimp only [sched]
  rw [if_neg (fun h => absurd h.1 (by omega))]

theorem amount_bar (c : Dev nD) (d : Bool) : (sched m).amount (barC c) 0 d = 1 := rfl
theorem amount_locA (c : Dev nD) : (sched m).amount (locC c) 0 false = NA := by
  show dmaAmount 2 false = NA
  unfold dmaAmount
  rw [if_pos rfl]
  exact if_neg Bool.false_ne_true
theorem amount_locB (c : Dev nD) : (sched m).amount (locC c) 0 true = NB := by
  show dmaAmount 2 true = NB
  unfold dmaAmount
  rw [if_pos rfl]
  exact if_pos rfl
theorem amount_t0 (c : Dev nD) (d : Bool) : (sched m).amount (t0C c) 0 d = NT := by
  show dmaAmount 3 d = NT
  unfold dmaAmount
  rw [if_neg (by decide), if_pos rfl]
theorem amount_ys (c : Dev nD) (t : Fin 9) (d : Bool) : (sched m).amount (ysC c t) 0 d = NC := by
  show dmaAmount (4 + t.val) d = NC
  unfold dmaAmount
  rw [if_neg (by omega), if_neg (by omega), if_pos (by omega)]
theorem amount_yr (c : Dev nD) (t : Fin 9) (d : Bool) : (sched m).amount (yrC c t) 0 d = NC := by
  show dmaAmount (13 + t.val) d = NC
  unfold dmaAmount
  rw [if_neg (by omega), if_neg (by omega), if_pos (by omega)]
theorem amount_xs (c : Dev nD) (r : Fin 7) (d : Bool) : (sched m).amount (xsC c r) 0 d = NO := by
  show dmaAmount (22 + r.val) d = NO
  unfold dmaAmount
  rw [if_neg (by omega), if_neg (by omega), if_neg (by omega)]
theorem amount_xr (c : Dev nD) (r : Fin 7) (d : Bool) : (sched m).amount (xrC c r) 0 d = NO := by
  show dmaAmount (29 + r.val) d = NO
  unfold dmaAmount
  rw [if_neg (by omega), if_neg (by omega), if_neg (by omega)]

theorem expect_bar (c : Dev nD) : (sched m).expect (barC c) 0 = 2 := by
  show ∑ d ∈ (sched m).duties (barC c) 0, (sched m).amount (barC c) 0 d = 2
  rw [duties_bar, Fintype.sum_bool, amount_bar, amount_bar]
theorem expect_loc (c : Dev nD) : (sched m).expect (locC c) 0 = NA + NB := by
  show ∑ d ∈ (sched m).duties (locC c) 0, (sched m).amount (locC c) 0 d = NA + NB
  rw [duties_loc, Fintype.sum_bool, amount_locA, amount_locB]
  exact Nat.add_comm _ _
theorem expect_t0 (c : Dev nD) : (sched m).expect (t0C c) 0 = NT := by
  show ∑ d ∈ (sched m).duties (t0C c) 0, (sched m).amount (t0C c) 0 d = NT
  rw [duties_t0, Finset.sum_singleton, amount_t0]
theorem expect_ys (c : Dev nD) (t : Fin 9) : (sched m).expect (ysC c t) 0 = NC := by
  show ∑ d ∈ (sched m).duties (ysC c t) 0, (sched m).amount (ysC c t) 0 d = NC
  rw [duties_ys, Finset.sum_singleton, amount_ys]
theorem expect_yr (c : Dev nD) (t : Fin 9) : (sched m).expect (yrC c t) 0 = NC := by
  show ∑ d ∈ (sched m).duties (yrC c t) 0, (sched m).amount (yrC c t) 0 d = NC
  rw [duties_yr, Finset.sum_singleton, amount_yr]
theorem expect_xs (c : Dev nD) (r : Fin 7) : (sched m).expect (xsC c r) 0 = NO := by
  show ∑ d ∈ (sched m).duties (xsC c r) 0, (sched m).amount (xsC c r) 0 d = NO
  rw [duties_xs, Finset.sum_singleton, amount_xs]
theorem expect_xr (c : Dev nD) (r : Fin 7) : (sched m).expect (xrC c r) 0 = NO := by
  show ∑ d ∈ (sched m).duties (xrC c r) 0, (sched m).amount (xrC c r) 0 d = NO
  rw [duties_xr, Finset.sum_singleton, amount_xr]

theorem payload_bar_false (c : Dev nD) : (sched m).payload (barC c) 0 false = yEntry c := by
  show (if (false : Bool) then xEntry c else yEntry c) = yEntry c
  exact if_neg Bool.false_ne_true
theorem payload_bar_true (c : Dev nD) : (sched m).payload (barC c) 0 true = xEntry c := by
  show (if (true : Bool) then xEntry c else yEntry c) = xEntry c
  exact if_pos rfl
theorem payload_locA (c : Dev nD) : (sched m).payload (locC c) 0 false = owns (c : Thread nD τ) LA fullShare (aVal m c) := by
  show dmaPay m c 2 false = _
  unfold dmaPay
  rw [if_pos rfl]
  exact if_neg Bool.false_ne_true
theorem payload_locB (c : Dev nD) : (sched m).payload (locC c) 0 true = owns (c : Thread nD τ) LB fullShare (bVal m c) := by
  show dmaPay m c 2 true = _
  unfold dmaPay
  rw [if_pos rfl]
  exact if_pos rfl
theorem payload_t0 (c : Dev nD) (d : Bool) : (sched m).payload (t0C c) 0 d = owns (c : Thread nD τ) Tm fullShare (yVal m c 0) := by
  show dmaPay m c 3 d = _
  unfold dmaPay
  rw [if_neg (by decide), if_pos rfl]
theorem payload_ys0 (c : Dev nD) (d : Bool) : (sched m).payload (ysC c 0) 0 d = anyAt c Tm := by
  show dmaPay m c 4 d = _
  unfold dmaPay
  rw [if_neg (by decide), if_neg (by decide), if_pos rfl]
theorem payload_ys (c : Dev nD) (t : Fin 9) (d : Bool) (ht : t ≠ 0) : (sched m).payload (ysC c t) 0 d = iprop(emp) := by
  have h0 : t.val ≠ 0 := fun h => ht (Fin.ext h)
  show dmaPay m c (4 + t.val) d = _
  unfold dmaPay
  rw [if_neg (by omega), if_neg (by omega), if_neg (by omega), dif_pos (by omega)]
theorem payload_yr (c : Dev nD) (t : Fin 9) (d : Bool) : (sched m).payload (yrC c t) 0 d = owns (c : Thread nD τ) (Ct t) fullShare (yVal m (yp c) t) := by
  show dmaPay m c (13 + t.val) d = _
  unfold dmaPay
  rw [if_neg (by omega), if_neg (by omega), if_neg (by omega), dif_neg (by omega), dif_pos (by omega)]
  simp only [Nat.add_sub_cancel_left, Fin.eta]
theorem payload_xs (c : Dev nD) (r : Fin 7) (d : Bool) : (sched m).payload (xsC c r) 0 d = owns (c : Thread nD τ) (Ox c r) fullShare (tileOut m c ⟨r.val, by omega⟩) := by
  show dmaPay m c (22 + r.val) d = _
  unfold dmaPay
  rw [if_neg (by omega), if_neg (by omega), if_neg (by omega), dif_neg (by omega), dif_neg (by omega), dif_pos (by omega)]
  simp only [Nat.add_sub_cancel_left, Fin.eta]
theorem payload_xr (c : Dev nD) (r : Fin 7) (d : Bool) : (sched m).payload (xrC c r) 0 d = owns (c : Thread nD τ) (Ox (xp c) r) fullShare (tileOut m (xp c) ⟨r.val, by omega⟩) := by
  show dmaPay m c (29 + r.val) d = _
  unfold dmaPay
  rw [if_neg (by omega), if_neg (by omega), if_neg (by omega), dif_neg (by omega), dif_neg (by omega), dif_neg (by omega), dif_pos (by omega)]
  simp only [Nat.add_sub_cancel_left, Fin.eta]

theorem rest_bar (c : Dev nD) : bigSep ((sched m).duties (barC c) 0 \ ∅) (fun d => (sched m).payload (barC c) 0 d) = iprop(yEntry c ∗ xEntry c) := by
  rw [Finset.sdiff_empty, duties_bar, bigSep_univ_eq_bigSepL [false, true] (by decide) (by decide), bigSepL_cons_cons, bigSepL_singleton, payload_bar_false, payload_bar_true]
  rfl
theorem rest_loc (c : Dev nD) : bigSep ((sched m).duties (locC c) 0 \ ∅) (fun d => (sched m).payload (locC c) 0 d) = iprop(owns (c : Thread nD τ) LA fullShare (aVal m c) ∗ owns (c : Thread nD τ) LB fullShare (bVal m c)) := by
  rw [Finset.sdiff_empty, duties_loc, bigSep_univ_eq_bigSepL [false, true] (by decide) (by decide), bigSepL_cons_cons, bigSepL_singleton, payload_locA, payload_locB]
  rfl
theorem rest_t0 (c : Dev nD) : bigSep ((sched m).duties (t0C c) 0 \ ∅) (fun d => (sched m).payload (t0C c) 0 d) = owns (c : Thread nD τ) Tm fullShare (yVal m c 0) := by
  rw [Finset.sdiff_empty, duties_t0, bigSep_singleton, payload_t0]
theorem rest_yr (c : Dev nD) (t : Fin 9) : bigSep ((sched m).duties (yrC c t) 0 \ ∅) (fun d => (sched m).payload (yrC c t) 0 d) = owns (c : Thread nD τ) (Ct t) fullShare (yVal m (yp c) t) := by
  rw [Finset.sdiff_empty, duties_yr, bigSep_singleton, payload_yr]
theorem rest_xs (c : Dev nD) (r : Fin 7) : bigSep ((sched m).duties (xsC c r) 0 \ ∅) (fun d => (sched m).payload (xsC c r) 0 d) = owns (c : Thread nD τ) (Ox c r) fullShare (tileOut m c ⟨r.val, by omega⟩) := by
  rw [Finset.sdiff_empty, duties_xs, bigSep_singleton, payload_xs]
theorem rest_xr (c : Dev nD) (r : Fin 7) : bigSep ((sched m).duties (xrC c r) 0 \ ∅) (fun d => (sched m).payload (xrC c r) 0 d) = owns (c : Thread nD τ) (Ox (xp c) r) fullShare (tileOut m (xp c) ⟨r.val, by omega⟩) := by
  rw [Finset.sdiff_empty, duties_xr, bigSep_singleton, payload_xr]

theorem amt_Ct (t : Fin 9) : (Ct t).view.amount (yrS t) = NC := by
  rfl
theorem amt_Ox (c : Dev nD) (r : Fin 7) : (Ox c r).view.amount (xrS r) = NO := by
  rfl

instance sched_payload_storable (g : GSem nD τ sig) (r : ℕ) (d : Bool) :
    BI.Storable (upEmb : UEmb _ 𝕄) ((sched (F := F) m).payload g r d) := by
  rcases g with ⟨⟨dev, p⟩, sm⟩
  cases sm with
  | reg s =>
    show BI.Storable upEmb (if d then xEntry (F := F) dev else yEntry (F := F) dev)
    unfold xEntry yEntry anyAt
    split <;> infer_instance
  | dma i =>
    show BI.Storable upEmb (dmaPay m dev i.val d)
    unfold dmaPay anyAt
    (repeat' split) <;> infer_instance

/-- info: 'Cert.Kernel.Proto.rest_bar' depends on axioms: [propext, Classical.choice, Quot.sound] -/
#guard_msgs in #print axioms rest_bar

/-- info: 'Cert.Kernel.Proto.rest_loc' depends on axioms: [propext, Classical.choice, Quot.sound] -/
#guard_msgs in #print axioms rest_loc

/-- info: 'Cert.Kernel.Proto.rest_xr' depends on axioms: [propext, Classical.choice, Quot.sound] -/
#guard_msgs in #print axioms rest_xr

/-- info: 'Cert.Kernel.Proto.payload_ys' depends on axioms: [propext, Classical.choice, Quot.sound] -/
#guard_msgs in #print axioms payload_ys

/-- info: 'Cert.Kernel.Proto.amt_Ox' depends on axioms: [propext, Classical.choice, Quot.sound] -/
#guard_msgs in #print axioms amt_Ox

/-- info: 'Cert.Kernel.Proto.sched_payload_storable' depends on axioms: [propext, Classical.choice, Quot.sound] -/
#guard_msgs in #print axioms sched_payload_storable

end Cert.Kernel.Proto

end
-- ==== Proof.ProtoW.RulesA.lean ====
import proofs.«900599_g7700000000000600_dist_rsrms_v7x_xyz2x2x4_y_m512_d512_f32_1_alg».proof.Proof.ProtoW.Tables
noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

instance records_persistent (K : Dev nD × Fin 35 → ℕ) : BI.Persistent (records m K) := by unfold records; infer_instance

theorem rec_at (K : Dev nD × Fin 35 → ℕ) (ck : Dev nD × Fin 35) :
    records m K ⊢ iprop(cellInv ER (sched m) (K ck) (kcell ck) ∗ reached ER (kcell ck) 0) :=
  BI.sep_mono (bigSep_elim (Φ := fun ck : Dev nD × Fin 35 => cellInv ER (sched m) (K ck) (kcell ck)) (Finset.mem_univ ck))
    (bigSep_elim (Φ := fun ck : Dev nD × Fin 35 => (reached ER (kcell ck) 0 : sProp 𝕄)) (Finset.mem_univ ck))

/-- For `i ≥ 2` the cell `dmaS i` of `c` is its cell number `i - 1`. -/
theorem inv_dma (K : Dev nD × Fin 35 → ℕ) (c : Dev nD) (i : ℕ) (hi : i < 36) (h2 : 2 ≤ i) :
    records m K ⊢ cellInv ER (sched m) (K (c, ⟨i - 1, by omega⟩)) (cell c (dmaS i hi)) := by
  obtain ⟨j, rfl⟩ : ∃ j, i = j + 2 := ⟨i - 2, by omega⟩
  exact (rec_at m K (c, ⟨j + 1, by omega⟩)).trans sep_elim_left

/-- Everything owed in `O` sits at level `n` or above. -/
def Above (n : ℕ) (O : CellTallies nD τ sig Unit) : Prop := ∀ g u, 0 < O g u → g.1.2 = .tc ∧ n ≤ lv g u

theorem above_zero (n : ℕ) : Above n 0 := fun g u h => absurd h (Nat.lt_irrefl 0)

theorem above_one {n k : ℕ} {g0 : GSem nD τ sig} (h0 : g0.1.2 = .tc ∧ n ≤ lv g0 ()) : Above n (tallyAt g0 () k) :=
  fun g u h => by rw [(Pipeline.tallyAt_pos h).1]; exact h0

theorem above_add {n : ℕ} {D E : CellTallies nD τ sig Unit} (hD : Above n D) (hE : Above n E) : Above n (D + E) :=
  fun g u h => (Pipeline.add_pos_cases h).elim (hD g u) (hE g u)

theorem owed_above (c : Dev nD) (k : ℕ) : Above 3 (OXk c k) ∧ Above 2 (OYk c k) := by
  constructor <;> rcases k with _ | _ | _ | _ | _ | _ | _ | _ | _ | k <;>
    (repeat' refine above_add ?_ (above_one ⟨rfl, Nat.le_of_ble_eq_true rfl⟩)) <;>
    first | exact above_one ⟨rfl, Nat.le_of_ble_eq_true rfl⟩ | exact above_zero _

/-- Level evidence for a wait at `s`: `s` lies strictly below `n`, and all of `O` at `n` or above. -/
theorem mayWait_above {n : ℕ} {O : CellTallies nD τ sig Unit} (c : Dev nD) (s : SemLoc sig) (hO : Above n O) (hs : lv (cell c s) () < n) :
    (levAts L lv : sProp 𝕄) ⊢ MayWait (c : Thread nD τ) s () O :=
  Pipeline.mayWait_of_levAts (by rw [L, if_pos rfl]; exact Finset.mem_singleton_self _) fun g u h =>
    ⟨by rw [L, if_pos (hO g u h).1]; exact Finset.mem_singleton_self _, hs.trans_le (hO g u h).2⟩

theorem wp_sig_y (K : Dev nD × Fin 35 → ℕ) (c : Dev nD) {α : Type} {Q : α → sProp 𝕄} {k : PUnit → Prog (TpuEff nD τ sig (Elt F) Λ₀ .tc) α} {W : Waits sig Unit} {n : ℕ} (hn : n = 1) :
    iprop(records m K ∗ owes (c : Thread nD τ) (O₀ c) W ∗ dutyTok ER (barC (yp c)) 0 false
        ∗ (bigSep Finset.univ fun t : Fin 9 => anyAt (F := F) c (Ct t)))
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (yp c : Thread nD τ) barS n) k) Q) := by
  subst hn
  iintro ⟨HR, HO, Htok, Hpay⟩
  iapply Rounds.wp_signal 𝒱₀ ER (sched m) (c : Thread nD τ) none (dst := (yp c : Thread nD τ)) (d := false) (O₀ := O₀ c)
    (duties_bar m _ ▸ Finset.mem_univ _) (amount_bar m (yp c) false) () (O₁ c) rfl
  rw [payload_bar_false, yEntry, yp_yp]
  iframe
  iapply rec_at m K (yp c, 0) $$ HR

theorem wp_sig_x (K : Dev nD × Fin 35 → ℕ) (c : Dev nD) {α : Type} {Q : α → sProp 𝕄} {k : PUnit → Prog (TpuEff nD τ sig (Elt F) Λ₀ .tc) α} {W : Waits sig Unit} {n : ℕ} (hn : n = 1) :
    iprop(records m K ∗ owes (c : Thread nD τ) (O₁ c) W ∗ dutyTok ER (barC (xp c)) 0 true
        ∗ (bigSep Finset.univ fun r : Fin 7 => anyAt (F := F) c (Ox (xp c) r)))
      ⊢ iprop((owes (c : Thread nD τ) (OY c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (xp c : Thread nD τ) barS n) k) Q) := by
  subst hn
  iintro ⟨HR, HO, Htok, Hpay⟩
  iapply Rounds.wp_signal 𝒱₀ ER (sched m) (c : Thread nD τ) none (dst := (xp c : Thread nD τ)) (d := true) (O₀ := O₁ c)
    (duties_bar m _ ▸ Finset.mem_univ _) (amount_bar m (xp c) true) () (OY c) rfl
  rw [payload_bar_true, xEntry, xp_xp]
  iframe
  iapply rec_at m K (xp c, 0) $$ HR

theorem wp_wait_bar (K : Dev nD × Fin 35 → ℕ) (c : Dev nD) {α : Type} {Q : α → sProp 𝕄} {k : PUnit → Prog (TpuEff nD τ sig (Elt F) Λ₀ .tc) α} {W : Waits sig Unit} {n : ℕ} (hn : n = 2) :
    iprop(records m K ∗ cred (tallyAt (barC c) () 2) ∗ owes (c : Thread nD τ) (OY c) W ∗ levAts L lv ∗ atPos ER (barC c) 0 ∅ 0)
      ⊢ iprop(((owes (c : Thread nD τ) (OY c) (insert (SemLoc.reg barS, ()) W) ∗ atPos ER (barC c) 1 ∅ 0 ∗ yEntry (F := F) c ∗ xEntry (F := F) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  exact (BI.sep_mono ((rec_at m K (c, 0)).trans sep_elim_left) (sep_mono_right (sep_mono_right (sep_mono_left (mayWait_above c _ (owed_above c 0).2 (Nat.le_of_ble_eq_true rfl)))))).trans
    ((Rounds.wp_wait_rest_token 𝒱₀ ER (sched m) (c : Thread nD τ) none (wpE_semWait_eq 𝒱₀ (c : Thread nD τ) none Set.univ) (Set.mem_univ _) ()
      (R := 0) (m := 0) (T := ∅) (by rw [expect_bar])).trans
      (wand_mono_left (wand_mono_left (sep_mono_right (sep_mono_right (sep_elim_right.trans (Entails.of_eq (rest_bar m c))))))))

theorem wp_localA (K : Dev nD × Fin 35 → ℕ) (c : Dev nD) {α : Type} {Q : α → sProp 𝕄} {k : PUnit → Prog (TpuEff nD τ sig (Elt F) Λ₀ .tc) α} {q : PosShare TreeShare} {sem : SemLoc sig} (hs : sem = locS)
    {hsrc : (srcA c).view.WordExact} {hdst : (LA : Memref sig .tc .vmem S256x512 .f32).view.WordExact}
    {hsem : DmaTarget.Typed (nD := nD) (τ := τ) (p := Proc.tc) .hbm sem (DmaTarget.here (LA : Memref sig .tc .vmem S256x512 .f32))} :
    iprop(records m K ∗ ((srcA c).view.loc (c : Thread nD τ) ↦[(srcA c).view.set]{q} Pm m c) ∗ anyAt (F := F) c (LA : Memref sig .tc .vmem S256x512 .f32)
        ∗ dutyTok ER (locC c) 0 false)
      ⊢ iprop((cred (tallyAt (locC c) () NA) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (srcA c) (.here (LA : Memref sig .tc .vmem S256x512 .f32)) sem hsrc hdst hsem) k) Q) := by
  subst hs
  unfold anyAt
  iintro ⟨HR, Hsrc, ⟨%fd, Hdst⟩, Htok⟩
  iapply Rounds.wp_copy_pointsTo 𝒱₀ ER (sched m) (c : Thread nD τ) none (fs := Pm m c) (fd := fd) (d := false)
    (duties_loc m c ▸ Finset.mem_univ _) () NA rfl (amount_locA m c)
    (sep_elim_left.trans ((owns_intro (c : Thread nD τ) LA fullShare _).trans
      (Entails.of_eq (by rw [View.read_write_univ, payload_locA]; rfl))))
  iframe
  iapply rec_at m K (c, 1) $$ HR

theorem wp_localB (K : Dev nD × Fin 35 → ℕ) (c : Dev nD) {α : Type} {Q : α → sProp 𝕄} {k : PUnit → Prog (TpuEff nD τ sig (Elt F) Λ₀ .tc) α} {q : PosShare TreeShare} {sem : SemLoc sig} (hs : sem = locS)
    {hsrc : (srcB c).view.WordExact} {hdst : (LB : Memref sig .tc .vmem S32x512 .f32).view.WordExact}
    {hsem : DmaTarget.Typed (nD := nD) (τ := τ) (p := Proc.tc) .hbm sem (DmaTarget.here (LB : Memref sig .tc .vmem S32x512 .f32))} :
    iprop(records m K ∗ ((srcB c).view.loc (c : Thread nD τ) ↦[(srcB c).view.set]{q} Pm m c) ∗ anyAt (F := F) c (LB : Memref sig .tc .vmem S32x512 .f32)
        ∗ dutyTok ER (locC c) 0 true)
      ⊢ iprop((cred (tallyAt (locC c) () NB) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (srcB c) (.here (LB : Memref sig .tc .vmem S32x512 .f32)) sem hsrc hdst hsem) k) Q) := by
  subst hs
  unfold anyAt
  iintro ⟨HR, Hsrc, ⟨%fd, Hdst⟩, Htok⟩
  iapply Rounds.wp_copy_pointsTo 𝒱₀ ER (sched m) (c : Thread nD τ) none (fs := Pm m c) (fd := fd) (d := true)
    (duties_loc m c ▸ Finset.mem_univ _) () NB rfl (amount_locB m c)
    (sep_elim_left.trans ((owns_intro (c : Thread nD τ) LB fullShare _).trans
      (Entails.of_eq (by rw [View.read_write_univ, payload_locB]; rfl))))
  iframe
  iapply rec_at m K (c, 1) $$ HR

theorem wp_tile0 (K : Dev nD × Fin 35 → ℕ) (c : Dev nD) {α : Type} {Q : α → sProp 𝕄} {k : PUnit → Prog (TpuEff nD τ sig (Elt F) Λ₀ .tc) α} {q : PosShare TreeShare} {sem : SemLoc sig} (hs : sem = t0S)
    {hsrc : (srcY c 0).view.WordExact} {hdst : (Tm : Memref sig .tc .vmem S32x512 .f32).view.WordExact}
    {hsem : DmaTarget.Typed (nD := nD) (τ := τ) (p := Proc.tc) .hbm sem (DmaTarget.here (Tm : Memref sig .tc .vmem S32x512 .f32))} :
    iprop(records m K ∗ ((srcY c 0).view.loc (c : Thread nD τ) ↦[(srcY c 0).view.set]{q} Pm m c) ∗ anyAt (F := F) c (Tm : Memref sig .tc .vmem S32x512 .f32)
        ∗ dutyTok ER (t0C c) 0 false)
      ⊢ iprop((cred (tallyAt (t0C c) () NT) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (srcY c 0) (.here (Tm : Memref sig .tc .vmem S32x512 .f32)) sem hsrc hdst hsem) k) Q) := by
  subst hs
  unfold anyAt
  iintro ⟨HR, Hsrc, ⟨%fd, Hdst⟩, Htok⟩
  iapply Rounds.wp_copy_pointsTo 𝒱₀ ER (sched m) (c : Thread nD τ) none (fs := Pm m c) (fd := fd) (d := false)
    (duties_t0 m c ▸ Finset.mem_singleton_self _) () NT rfl (amount_t0 m c false)
    (sep_elim_left.trans ((owns_intro (c : Thread nD τ) Tm fullShare _).trans
      (Entails.of_eq (by rw [View.read_write_univ, payload_t0 m c false, yVal, dif_pos (by decide)]; rfl))))
  iframe
  iapply rec_at m K (c, 2) $$ HR

/-- One wait takes the whole of round 0 of cell `dmaS i`: `X` gives the level evidence and the position, `P` is the round's payload. -/
theorem wp_wait_one (K : Dev nD × Fin 35 → ℕ) (c : Dev nD) {i : ℕ} {hi : i < 36} (h2 : 2 ≤ i) {N : ℕ} {P X : sProp 𝕄}
    {O : CellTallies nD τ sig Unit}
    (hexp : (sched m).expect (cell c (dmaS i hi)) 0 = N)
    (hM : X ⊢ iprop(MayWait (c : Thread nD τ) (dmaS i hi) () O ∗ atPos ER (cell c (dmaS i hi)) 0 ∅ 0))
    (hrest : bigSep ((sched m).duties (cell c (dmaS i hi)) 0 \ ∅) (fun d => (sched m).payload (cell c (dmaS i hi)) 0 d) = P)
    {α : Type} {Q : α → sProp 𝕄} {k : PUnit → Prog (TpuEff nD τ sig (Elt F) Λ₀ .tc) α} {W : Waits sig Unit} {sem : DmaSem sig} (hs : SemLoc.dma sem = dmaS i hi)
    {sp sp' : Space} {s s' : Shape} {e e' : EltTy} {src : Memref sig .tc sp' s' e'} {dst : Memref sig .tc sp s e}
    (hamt : dst.view.dmaCredit = N) {hsrc : src.view.WordExact} {hdst : dst.view.WordExact} :
    iprop(records m K ∗ cred (tallyAt (cell c (dmaS i hi)) () N) ∗ owes (c : Thread nD τ) O W ∗ X)
      ⊢ iprop(((owes (c : Thread nD τ) O (insert (dmaS i hi, ()) W) ∗ atPos ER (cell c (dmaS i hi)) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  obtain rfl : sem = ⟨i, hi⟩ := SemLoc.dma.inj hs
  subst hamt hrest
  exact (BI.sep_mono (inv_dma m K c i hi h2) (sep_mono_right (sep_mono_right hM))).trans
    ((Rounds.wp_wait_rest_token 𝒱₀ ER (sched m) (c : Thread nD τ) none (wpE_waitDma2_eq 𝒱₀ (c : Thread nD τ) none Set.univ) (Set.mem_univ _) ()
      (R := 0) (m := 0) (T := ∅) (by rw [Nat.zero_add]; exact hexp.symm)).trans
      (wand_mono_left (wand_mono_left (sep_mono_right (sep_mono_right sep_elim_right)))))

theorem wp_wait_t0 (K : Dev nD × Fin 35 → ℕ) (c : Dev nD) {α : Type} {Q : α → sProp 𝕄} {k : PUnit → Prog (TpuEff nD τ sig (Elt F) Λ₀ .tc) α} {W : Waits sig Unit} {sem : DmaSem sig} (hs : SemLoc.dma sem = t0S)
    {sp sp' : Space} {s' : Shape} {e' : EltTy} {src : Memref sig .tc sp' s' e'} {dst : Memref sig .tc sp S32x512 .f32}
    {hsrc : src.view.WordExact} {hdst : dst.view.WordExact} :
    iprop(records m K ∗ cred (tallyAt (t0C c) () NT) ∗ owes (c : Thread nD τ) (OY c) W ∗ levAts L lv ∗ atPos ER (t0C c) 0 ∅ 0)
      ⊢ iprop(((owes (c : Thread nD τ) (OY c) (insert (t0S, ()) W) ∗ atPos ER (t0C c) 1 ∅ 0 ∗ owns (c : Thread nD τ) Tm fullShare (yVal m c 0))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  exact wp_wait_one m K c (by omega) (expect_t0 m c) (sep_mono_left (mayWait_above c t0S (owed_above c 0).2 (Nat.le_of_ble_eq_true rfl))) (rest_t0 m c) hs (dst := dst) rfl

theorem wp_wait_loc2 (K : Dev nD × Fin 35 → ℕ) (c : Dev nD) {α : Type} {Q : α → sProp 𝕄} {k : PUnit → Prog (TpuEff nD τ sig (Elt F) Λ₀ .tc) α} {W : Waits sig Unit} {sem₁ sem₂ : DmaSem sig}
    (hs₁ : SemLoc.dma sem₁ = locS) (hs₂ : SemLoc.dma sem₂ = locS)
    {sp₁ sp₁' sp₂ sp₂' : Space} {s₁' s₂' : Shape} {e₁' e₂' : EltTy}
    {src₁ : Memref sig .tc sp₁' s₁' e₁'} {dst₁ : Memref sig .tc sp₁ S256x512 .f32} {hsrc₁ : src₁.view.WordExact} {hdst₁ : dst₁.view.WordExact}
    {src₂ : Memref sig .tc sp₂' s₂' e₂'} {dst₂ : Memref sig .tc sp₂ S32x512 .f32} {hsrc₂ : src₂.view.WordExact} {hdst₂ : dst₂.view.WordExact}
    {k₁ : PUnit → Prog (TpuEff nD τ sig (Elt F) Λ₀ .tc) α} (hk₁ : k₁ ⟨⟩ = .op (.waitDma2 sem₂ src₂ dst₂ hsrc₂ hdst₂) k) :
    iprop(records m K ∗ cred (tallyAt (locC c) () NA) ∗ cred (tallyAt (locC c) () NB) ∗ owes (c : Thread nD τ) (OXk c 0) W ∗ levAts L lv
        ∗ atPos ER (locC c) 0 ∅ 0)
      ⊢ iprop(((owes (c : Thread nD τ) (OXk c 0) (insert (locS, ()) W) ∗ atPos ER (locC c) 1 ∅ 0
              ∗ owns (c : Thread nD τ) LA fullShare (aVal m c) ∗ owns (c : Thread nD τ) LB fullShare (bVal m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem₁ src₁ dst₁ hsrc₁ hdst₁) k₁) Q) := by
  obtain rfl : sem₁ = ⟨2, by decide⟩ := SemLoc.dma.inj hs₁
  obtain rfl : sem₂ = ⟨2, by decide⟩ := SemLoc.dma.inj hs₂
  rw [← show (W ∪ {(locS, ())}) ∪ {(locS, ())} = insert (locS, ()) W by
    rw [Finset.union_assoc, Finset.union_self, Finset.union_comm]; exact (Finset.insert_eq _ _).symm]
  unfold tallyAt
  iintro ⟨#HR, HcA, HcB, HO, #Hlev, Hat⟩ Hk
  ihave #HI := inv_dma m K c 2 (by decide) (by decide) $$ HR
  ihave #HM := mayWait_above c locS (owed_above c 0).1 (Nat.le_of_ble_eq_true rfl) $$ Hlev
  iapply (Rounds.wp_wait 𝒱₀ ER (sched m) (c : Thread nD τ) none
      (wpE_waitDma2_eq 𝒱₀ (c : Thread nD τ) none Set.univ) (Set.mem_univ _) (cr := Finsupp.single () NA) (O := OXk c 0) (W := W)
      {(locS, ())} (R := 0) (m := 0) (T := ∅) (by rw [Util.total_single]) (image_single_subset locS () NA)) $$ [HcA HO Hat]
  · iframe # ∗
  iintro %S ⟨%hS, HO, Hat, HpayS⟩
  rw [hk₁]
  iapply (Rounds.wp_wait_rest 𝒱₀ ER (sched m) (c : Thread nD τ) none
      (wpE_waitDma2_eq 𝒱₀ (c : Thread nD τ) none Set.univ) (Set.mem_univ _) (cr := Finsupp.single () NB) (O := OXk c 0) (W := W ∪ {(locS, ())})
      {(locS, ())} (R := 0) (m := 0 + dst₁.view.dmaCredit) (T := S) (by show 0 + NA + NB = _; rw [expect_loc, Nat.zero_add]) (by rw [Util.total_single]) (image_single_subset locS () NB)) $$ [HcB HO Hat]
  · iframe # ∗
  iintro ⟨HO, Hat, -, HpayR⟩
  iapply Hk
  rw [← rest_loc m c, Finset.sdiff_empty, Finset.sdiff_empty, show bigSep _ _ = iprop(_ ∗ _) from bigSep_sdiff_split hS.2.1]
  iframe

theorem wp_wait_ys (K : Dev nD × Fin 35 → ℕ) (c : Dev nD) (t : Fin 9) {α : Type} {Q : α → sProp 𝕄} {k : PUnit → Prog (TpuEff nD τ sig (Elt F) Λ₀ .tc) α} {W : Waits sig Unit} {sem : DmaSem sig} (hs : SemLoc.dma sem = ysS t)
    {sp sp' : Space} {s' : Shape} {e' : EltTy} {src : Memref sig .tc sp' s' e'} {dst : Memref sig .tc sp S32x512 .f32}
    {hsrc : src.view.WordExact} {hdst : dst.view.WordExact} :
    iprop(records m K ∗ cred (tallyAt (ysC c t) () NC) ∗ owes (c : Thread nD τ) 0 W ∗ atPos ER (ysC c t) 0 ∅ 0)
      ⊢ iprop(((owes (c : Thread nD τ) 0 (insert (ysS t, ()) W) ∗ atPos ER (ysC c t) 1 ∅ 0 ∗ (sched m).payload (ysC c t) 0 false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  exact wp_wait_one m K c (by omega) (expect_ys m c t) (by rw [MayWait_zero]; exact BI.emp_sep.2) (by rw [duties_ys, Finset.sdiff_empty, bigSep_singleton]) hs (dst := dst) rfl

theorem wp_wait_xs (K : Dev nD × Fin 35 → ℕ) (c : Dev nD) (r : Fin 7) {α : Type} {Q : α → sProp 𝕄} {k : PUnit → Prog (TpuEff nD τ sig (Elt F) Λ₀ .tc) α} {W : Waits sig Unit} {sem : DmaSem sig} (hs : SemLoc.dma sem = xsS r)
    {sp sp' : Space} {s' : Shape} {e' : EltTy} {src : Memref sig .tc sp' s' e'} {dst : Memref sig .tc sp S32x512 .f32}
    {hsrc : src.view.WordExact} {hdst : dst.view.WordExact} :
    iprop(records m K ∗ cred (tallyAt (xsC c r) () NO) ∗ owes (c : Thread nD τ) 0 W ∗ atPos ER (xsC c r) 0 ∅ 0)
      ⊢ iprop(((owes (c : Thread nD τ) 0 (insert (xsS r, ()) W) ∗ atPos ER (xsC c r) 1 ∅ 0
              ∗ owns (c : Thread nD τ) (Ox c r) fullShare (tileOut m c ⟨r.val, by omega⟩))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  exact wp_wait_one m K c (by omega) (expect_xs m c r) (by rw [MayWait_zero]; exact BI.emp_sep.2) (rest_xs m c r) hs (dst := dst) rfl

theorem wp_wait_yr (K : Dev nD × Fin 35 → ℕ) (c : Dev nD) (t : Fin 9) (j : ℕ) {α : Type} {Q : α → sProp 𝕄} {k : PUnit → Prog (TpuEff nD τ sig (Elt F) Λ₀ .tc) α} {W : Waits sig Unit} {sem : DmaSem sig} (hs : SemLoc.dma sem = yrS t)
    {sp sp' : Space} {s' : Shape} {e' : EltTy} {src : Memref sig .tc sp' s' e'} {dst : Memref sig .tc sp S32x512 .f32}
    {hsrc : src.view.WordExact} {hdst : dst.view.WordExact} :
    iprop(records m K ∗ cred (tallyAt (yrC c t) () NC) ∗ owes (c : Thread nD τ) (OXk c j) W ∗ levAts L lv ∗ atPos ER (yrC c t) 0 ∅ 0)
      ⊢ iprop(((owes (c : Thread nD τ) (OXk c j) (insert (yrS t, ()) W) ∗ atPos ER (yrC c t) 1 ∅ 0
              ∗ owns (c : Thread nD τ) (Ct t) fullShare (yVal m (yp c) t))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  exact wp_wait_one m K c (by omega) (expect_yr m c t) (sep_mono_left (mayWait_above c (yrS t) (owed_above c j).1 (by show (if 29 ≤ 13 + t.val then 3 else _) < 3; rw [if_neg (by omega)]; split <;> decide))) (rest_yr m c t) hs (dst := dst) rfl

theorem wp_wait_xr (K : Dev nD × Fin 35 → ℕ) (c : Dev nD) (r : Fin 7) {α : Type} {Q : α → sProp 𝕄} {k : PUnit → Prog (TpuEff nD τ sig (Elt F) Λ₀ .tc) α} {W : Waits sig Unit} {sem : DmaSem sig} (hs : SemLoc.dma sem = xrS r)
    {sp sp' : Space} {s' : Shape} {e' : EltTy} {src : Memref sig .tc sp' s' e'} {dst : Memref sig .tc sp S32x512 .f32}
    {hsrc : src.view.WordExact} {hdst : dst.view.WordExact} :
    iprop(records m K ∗ cred (tallyAt (xrC c r) () NO) ∗ owes (c : Thread nD τ) 0 W ∗ atPos ER (xrC c r) 0 ∅ 0)
      ⊢ iprop(((owes (c : Thread nD τ) 0 (insert (xrS r, ()) W) ∗ atPos ER (xrC c r) 1 ∅ 0
              ∗ owns (c : Thread nD τ) (Ox (xp c) r) fullShare (tileOut m (xp c) ⟨r.val, by omega⟩))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  exact wp_wait_one m K c (by omega) (expect_xr m c r) (by rw [MayWait_zero]; exact BI.emp_sep.2) (rest_xr m c r) hs (dst := dst) rfl

theorem close_own (K : Dev nD × Fin 35 → ℕ) (c : Dev nD) (k : Fin 34) :
    iprop(records m K ∗ atPos ER (cell c (osem k)) 1 ∅ 0) ⊢ (iprop(|={Set.univ}=> semVal (cell c (osem k)) 0) : sProp 𝕄) := by
  refine (sep_mono_left (inv_dma m K c (k.val + 2) (by omega) (by omega))).trans ?_
  exact Rounds.cell_close ER (sched m) (Set.mem_univ _) (fun h => h) (R := 1) (duties_later m (cell c (osem k)))

/-- info: 'Cert.Kernel.Proto.close_own' depends on axioms: [propext, Classical.choice, Quot.sound] -/
#guard_msgs in #print axioms close_own

end Cert.Kernel.Proto

end
-- ==== Proof.ProtoW.RulesB.lean ====
import proofs.«900599_g7700000000000600_dist_rsrms_v7x_xyz2x2x4_y_m512_d512_f32_1_alg».proof.Proof.ProtoW.Tables

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

local notation:max "WP⟨" c "⟩" => wp frame (wpE (defs₀ (F := F)) 𝒱₀ (c : Thread nD τ) none) Set.univ

instance (K : Dev nD × Fin 35 → ℕ) : BI.Persistent (records m K) := by
  unfold records; infer_instance

theorem wp_load_owns (c : Dev nD) {cs : CoreSpace} {s : Shape} {e : EltTy} {M : Memref sig .tc cs s e} {r : Rect s} {hs : ∀ a, r.stride a = 1}
    {hl : M.view.LoadsAt r.toLoadRect} {α : Type} {Q : α → sProp 𝕄} {k : (r.shape.Idx → Elt F e) → Prog (TpuEff nD τ sig (Elt F) Λ₀ .tc) α}
    (q : PosShare TreeShare) (X : r.shape.Idx → Elt F e) :
    owns (c : Thread nD τ) (M.slice r hs) q X
      ⊢ iprop((owns (c : Thread nD τ) (M.slice r hs) q X -∗ WP⟨c⟩ (k X) Q) -∗ WP⟨c⟩ (.op (.load M r.toLoadRect hl) k) Q) := by
  unfold owns
  iintro ⟨%f, %hf, H⟩ Hk
  subst hf
  iapply (wp_load_rect 𝒱₀ (c : Thread nD τ) none Set.univ (m := M) (r := r) (hl := hl) (k := k) (q := q) (f := f) subset_rfl) $$ H
  iintro H
  iapply Hk
  iexists f
  iframe
  ipureintro; rfl

-- An output tile is read, at any contents, and then written whole.
theorem wp_load_store (c : Dev nD) {cs : CoreSpace} {s : Shape} {e : EltTy} {M : Memref sig .tc cs s e} {r : Rect s} {hs : ∀ a, r.stride a = 1}
    {hl : M.view.LoadsAt r.toLoadRect} {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} (w : r.shape.Idx → Elt F e) :
    anyAt (F := F) c (M.slice r hs)
      ⊢ iprop((owns (c : Thread nD τ) (M.slice r hs) fullShare w -∗ WP⟨c⟩ (k ⟨⟩) Q)
          -∗ WP⟨c⟩ (.op (.load M r.toLoadRect hl) fun _ => .op (.store M r w Finset.univ hx hm) k) Q) := by
  unfold anyAt owns
  iintro ⟨%f, H⟩ Hk
  iapply (wp_load_rect 𝒱₀ (c : Thread nD τ) none Set.univ (m := M) (r := r) (hl := hl) (q := fullShare) (f := f) subset_rfl) $$ H
  iintro H
  iapply (wp_store 𝒱₀ (c : Thread nD τ) none Set.univ (m := M) (r := r) (w := w) (hx := hx) (hm := hm) (k := k) (f := f) (S := (M.access r).set) subset_rfl) $$ H
  iintro H
  iapply Hk
  iexists _
  iframe
  ipureintro; exact View.read_write_univ _ _

-- Contents that read the same through a slice read the same through every box within it.
theorem readAt_congr_within {cs : CoreSpace} {s : Shape} {e : EltTy} (M : Memref sig .tc cs s e) (r₀ : Rect s) (h₀ : ∀ a, r₀.stride a = 1) (B : LoadRect s)
    (hw : LoadRect.within r₀ B = true) {f g : M.view.ty.Contents (Elt F)}
    (hfg : (M.slice r₀ h₀).view.read (Elt F) f = (M.slice r₀ h₀).view.read (Elt F) g) : M.view.readAt (Elt F) B f = M.view.readAt (Elt F) B g :=
  funext fun x => by
    obtain ⟨y, hy⟩ := r₀.toLoadRect.exists_idx_of_mem (LoadRect.idx_mem_of_within hw x)
    rw [View.readAt_apply, View.readAt_apply, ← hy]
    exact congrFun hfg y

theorem tile_in : ∀ t : Fin 8, LoadRect.within (Rect.unit (s := S288x512) ![0, 0] S256x512.size inb_S288x512_S256x512_0_0)
    (Rect.unit (s := S288x512) ![32 * t.val, 0] S32x512.size (inb288 ⟨t.val, by omega⟩)).toLoadRect = true := by decide

theorem read_LA_lFull (c : Dev nD) (g : Buf (Elt F) ((c : Thread nD τ).loc cc0_scratch0)) :
    (LA : Memref sig .tc .vmem S256x512 .f32).view.read (Elt F) (lFull m c g) = aVal m c :=
  (View.read_slice_write_slice_of_disjoint _ _ _ _ _ (View.disjoint_slice_of_disj _ _ _ (by decide))).trans (View.read_write_univ _ _)

theorem lVal_eight (c : Dev nD) : lVal m c 8 = bVal m c := View.read_write_univ _ _

theorem wp_load_comm (K : Dev nD × Fin 35 → ℕ) (c : Dev nD) (t : Fin 9)
    {h : ∀ a, (![32 * t.val, 0] : Fin 2 → Nat) a + S32x512.size a ≤ S288x512.size a}
    {hl : (Cm : Memref sig .tc .vmem S288x512 .f32).view.LoadsAt (Rect.unit (s := S288x512) ![32 * t.val, 0] S32x512.size h).toLoadRect}
    {α : Type} {Q : α → sProp 𝕄} {k : (S32x512.Idx → Elt F .f32) → Prog (TpuEff nD τ sig (Elt F) Λ₀ .tc) α}
    (q : PosShare TreeShare) (X : S32x512.Idx → Elt F .f32) :
    owns (c : Thread nD τ) (Ct t) q X
      ⊢ iprop((owns (c : Thread nD τ) (Ct t) q X -∗ WP⟨c⟩ (k X) Q)
          -∗ WP⟨c⟩ (.op (.load Cm (Rect.unit (s := S288x512) ![32 * t.val, 0] S32x512.size h).toLoadRect hl) k) Q) := by
  apply wp_load_owns

theorem wp_load_local (K : Dev nD × Fin 35 → ℕ) (c : Dev nD) (t : Fin 8)
    {h : ∀ a, (![32 * t.val, 0] : Fin 2 → Nat) a + S32x512.size a ≤ S288x512.size a}
    {hl : (Lm : Memref sig .tc .vmem S288x512 .f32).view.LoadsAt (Rect.unit (s := S288x512) ![32 * t.val, 0] S32x512.size h).toLoadRect}
    {α : Type} {Q : α → sProp 𝕄} {k : (S32x512.Idx → Elt F .f32) → Prog (TpuEff nD τ sig (Elt F) Λ₀ .tc) α}
    (q : PosShare TreeShare) :
    owns (c : Thread nD τ) LA q (aVal m c)
      ⊢ iprop((owns (c : Thread nD τ) LA q (aVal m c) -∗ WP⟨c⟩ (k (lVal m c ⟨t.val, by omega⟩)) Q)
          -∗ WP⟨c⟩ (.op (.load Lm (Rect.unit (s := S288x512) ![32 * t.val, 0] S32x512.size h).toLoadRect hl) k) Q) := by
  unfold owns
  iintro ⟨%f, %hf, H⟩ Hk
  have hval : _ = lVal m c ⟨t.val, by omega⟩ :=
    readAt_congr_within Lm _ (fun _ => rfl) _ (tile_in t) (hf.trans (read_LA_lFull m c _).symm)
  iapply (wp_load 𝒱₀ (c : Thread nD τ) none Set.univ (hl := hl) (k := k) (q := q) (S := LA.view.set)
    (Memref.setOn_subset_slice_of_within Lm _ (fun _ => rfl) _ (tile_in t))) $$ H
  rw [hval]
  iintro H
  iapply Hk
  iexists f
  iframe
  ipureintro; exact hf

theorem wp_load_local8 (K : Dev nD × Fin 35 → ℕ) (c : Dev nD)
    {h : ∀ a, (![256, 0] : Fin 2 → Nat) a + S32x512.size a ≤ S288x512.size a}
    {hl : (Lm : Memref sig .tc .vmem S288x512 .f32).view.LoadsAt (Rect.unit (s := S288x512) ![256, 0] S32x512.size h).toLoadRect}
    {α : Type} {Q : α → sProp 𝕄} {k : (S32x512.Idx → Elt F .f32) → Prog (TpuEff nD τ sig (Elt F) Λ₀ .tc) α}
    (q : PosShare TreeShare) :
    owns (c : Thread nD τ) LB q (bVal m c)
      ⊢ iprop((owns (c : Thread nD τ) LB q (bVal m c) -∗ WP⟨c⟩ (k (lVal m c 8)) Q)
          -∗ WP⟨c⟩ (.op (.load Lm (Rect.unit (s := S288x512) ![256, 0] S32x512.size h).toLoadRect hl) k) Q) := by
  rw [lVal_eight]
  apply wp_load_owns

theorem wp_load_g (K : Dev nD × Fin 35 → ℕ) (c : Dev nD)
    {hl : (Gm : Memref sig .tc .vmem S512 .f32).view.LoadsAt (Rect.unit (s := S512) ![0] S512.size inb_S512_S512_0).toLoadRect}
    {α : Type} {Q : α → sProp 𝕄} {k : (S512.Idx → Elt F .f32) → Prog (TpuEff nD τ sig (Elt F) Λ₀ .tc) α} :
    iprop(∃ f, ⌜f = gVec m c⌝ ∗ (((c : Thread nD τ).loc cc0_stg0_0) ↦{fullShare} f))
      ⊢ iprop((iprop(∃ f, ⌜f = gVec m c⌝ ∗ (((c : Thread nD τ).loc cc0_stg0_0) ↦{fullShare} f)) -∗ WP⟨c⟩ (k (gVec m c)) Q)
          -∗ WP⟨c⟩ (.op (.load Gm (Rect.unit (s := S512) ![0] S512.size inb_S512_S512_0).toLoadRect hl) k) Q) := by
  iintro ⟨%f, %hf, H⟩ Hk
  subst hf
  iapply (wp_load 𝒱₀ (c : Thread nD τ) none Set.univ (hl := hl) (k := k) (f := gVec m c) (Finset.subset_univ _)) $$ H
  rw [show (Gm : Memref sig .tc .vmem S512 .f32).view.readAt (Elt F) _ (gVec m c) = gVec m c from
    Memref.readAt_unit_zero (Elt F) cc0_stg0_0 (by decide) _ _]
  iintro H
  iapply Hk
  iexists _
  iframe
  ipureintro; rfl

theorem wp_out_tile (K : Dev nD × Fin 35 → ℕ) (c : Dev nD) (r : Fin 8)
    {hl : (Om : Memref sig .tc .vmem S512x512 .f32).view.LoadsAt (Rect.unit (s := S512x512) (k0_off5 c (BitVec.ofNat 32 (32 * r.val))) S32x512.size (k0_off5_inb c r)).toLoadRect}
    {hx : ((Om : Memref sig .tc .vmem S512x512 .f32).access (Rect.unit (s := S512x512) (k0_off5 c (BitVec.ofNat 32 (32 * r.val))) S32x512.size (k0_off5_inb c r))).Stores Finset.univ}
    {hm : (Finset.univ : Finset S32x512.Idx) = Finset.univ ∨ ∀ a, (Rect.unit (s := S512x512) (k0_off5 c (BitVec.ofNat 32 (32 * r.val))) S32x512.size (k0_off5_inb c r)).stride a = 1}
    {α : Type} {Q : α → sProp 𝕄} {k : PUnit → Prog (TpuEff nD τ sig (Elt F) Λ₀ .tc) α}
    (w : S32x512.Idx → Elt F .f32) :
    anyAt (F := F) c (Oo c r)
      ⊢ iprop((owns (c : Thread nD τ) (Oo c r) fullShare w -∗ WP⟨c⟩ (k ⟨⟩) Q)
          -∗ WP⟨c⟩ (.op (.load Om (Rect.unit (s := S512x512) (k0_off5 c (BitVec.ofNat 32 (32 * r.val))) S32x512.size (k0_off5_inb c r)).toLoadRect hl)
              fun _ => .op (.store Om (Rect.unit (s := S512x512) (k0_off5 c (BitVec.ofNat 32 (32 * r.val))) S32x512.size (k0_off5_inb c r)) w Finset.univ hx hm) k) Q) := by
  apply wp_load_store

theorem wp_out_tile8 (K : Dev nD × Fin 35 → ℕ) (c : Dev nD)
    {hl : (Om : Memref sig .tc .vmem S512x512 .f32).view.LoadsAt (Rect.unit (s := S512x512) (k0_off7 c) S32x512.size (k0_off7_inb c)).toLoadRect}
    {hx : ((Om : Memref sig .tc .vmem S512x512 .f32).access (Rect.unit (s := S512x512) (k0_off7 c) S32x512.size (k0_off7_inb c))).Stores Finset.univ}
    {hm : (Finset.univ : Finset S32x512.Idx) = Finset.univ ∨ ∀ a, (Rect.unit (s := S512x512) (k0_off7 c) S32x512.size (k0_off7_inb c)).stride a = 1}
    {α : Type} {Q : α → sProp 𝕄} {k : PUnit → Prog (TpuEff nD τ sig (Elt F) Λ₀ .tc) α}
    (w : S32x512.Idx → Elt F .f32) :
    anyAt (F := F) c (Oo8 c)
      ⊢ iprop((owns (c : Thread nD τ) (Oo8 c) fullShare w -∗ WP⟨c⟩ (k ⟨⟩) Q)
          -∗ WP⟨c⟩ (.op (.load Om (Rect.unit (s := S512x512) (k0_off7 c) S32x512.size (k0_off7_inb c)).toLoadRect hl)
              fun _ => .op (.store Om (Rect.unit (s := S512x512) (k0_off7 c) S32x512.size (k0_off7_inb c)) w Finset.univ hx hm) k) Q) := by
  apply wp_load_store

theorem rec_dma (K : Dev nD × Fin 35 → ℕ) (c : Dev nD) (i : ℕ) (h2 : 2 ≤ i) (hi : i < 36) :
    records m K ⊢ iprop(cellInv ER (sched m) (K (c, ⟨i - 1, by omega⟩)) (cell c (dmaS i hi)) ∗ reached ER (cell c (dmaS i hi)) 0) := by
  have e : kcell (c, ⟨i - 1, by omega⟩) = cell c (dmaS i hi) := by
    obtain ⟨j, rfl⟩ := Nat.exists_eq_add_of_le' h2
    rfl
  unfold records
  rw [← e]
  exact BI.sep_mono (BI.bigSep_elim (Finset.mem_univ _)) (BI.bigSep_elim (Finset.mem_univ _))

-- A remote copy of one tile from DMA cell i of the sender to DMA cell j of device n: all sixteen transfers are instances.
theorem wp_send_owns (K : Dev nD × Fin 35 → ℕ) {c n : Dev nD} {sp : Space} {src : Memref sig .tc sp S32x512 .f32} {dst : Memref sig .tc .vmem S32x512 .f32}
    {i j : ℕ} {hi : i < 36} {hj : j < 36} (hi3 : 3 ≤ i) (hj3 : 3 ≤ j) {N : ℕ}
    {hsc : (dst : Memref sig (Dev.tc n : Thread nD τ).2.kind .vmem S32x512 .f32).view.ref.isScScratch = false}
    {hsrc : src.view.WordExact} {hdst : dst.view.WordExact}
    {hsem : DmaTarget.Typed sp (dmaS j hj) (.remote (Dev.tc n : Thread nD τ) dst (dmaS i hi) hsc)}
    {α : Type} {Q : α → sProp 𝕄} {k : PUnit → Prog (TpuEff nD τ sig (Elt F) Λ₀ .tc) α}
    {q : PosShare TreeShare} {X : S32x512.Idx → Elt F .f32} {O : CellTallies nD τ sig Unit} {W : Waits sig Unit}
    (hN : dst.view.amount (dmaS j hj) = N)
    (hk₁ : (sched m).amount (cell c (dmaS i hi)) 0 false = N) (hk₂ : (sched m).amount (cell n (dmaS j hj)) 0 false = N)
    (hpay₁ : owns (c : Thread nD τ) src q X ⊢ (sched m).payload (cell c (dmaS i hi)) 0 false)
    (hpay₂ : owns (n : Thread nD τ) dst fullShare X ⊢ (sched m).payload (cell n (dmaS j hj)) 0 false) :
    iprop(records m K ∗ owns (c : Thread nD τ) src q X ∗ anyAt (F := F) n dst
        ∗ owes (c : Thread nD τ) (O + tallyAt (cell n (dmaS j hj)) () N) W
        ∗ dutyTok ER (cell c (dmaS i hi)) 0 false ∗ dutyTok ER (cell n (dmaS j hj)) 0 false)
      ⊢ iprop(((cred (tallyAt (cell c (dmaS i hi)) () N) ∗ owes (c : Thread nD τ) O W) -∗ WP⟨c⟩ (k ⟨⟩) Q)
          -∗ WP⟨c⟩ (.op (.enqueueDma src (.remote (Dev.tc n : Thread nD τ) dst (dmaS i hi) hsc) (dmaS j hj) hsrc hdst hsem) k) Q) := by
  unfold anyAt owns
  iintro ⟨#HR, ⟨%fs, %hfs, Hsrc⟩, ⟨%fd, Hdst⟩, HO, Ht1, Ht2⟩ Hk
  subst hfs
  have h₂ := owns_intro (Val := Elt F) (Ix := Unit) (Name := ℕ) (U := UU) (Lvl := ℕ) (n : Thread nD τ) dst fullShare
    (dst.view.write (Elt F) fd (src.view.read (Elt F) fs) Finset.univ)
  rw [View.read_write_univ] at h₂
  iapply (Rounds.wp_send_pointsTo 𝒱₀ ER (sched m) (c : Thread nD τ) none (κ₁ := K (c, ⟨i - 1, by omega⟩)) (κ₂ := K (n, ⟨j - 1, by omega⟩)) (c' := (Dev.tc n : Thread nD τ)) (src := src) (dst := dst) (q := q) (fs := fs) (fd := fd)
    (r₁ := 0) (r₂ := 0) (d₁ := false) (d₂ := false) ((duties_dma m c i hi hi3).ge (Finset.mem_singleton_self _))
    ((duties_dma m n j hj hj3).ge (Finset.mem_singleton_self _)) () () N hN hk₁ hk₂ O rfl (W := W)
    ((owns_intro (c : Thread nD τ) src q fs).trans hpay₁) (h₂.trans hpay₂)) $$ [Hsrc Hdst HO Ht1 Ht2] [Hk]
  · ihave ⟨#I1, #R1⟩ := rec_dma m K c i (by omega) hi $$ HR
    ihave ⟨#I2, #R2⟩ := rec_dma m K n j (by omega) hj $$ HR
    iframe # ∗
  · iexact Hk

theorem wp_ysend0 (K : Dev nD × Fin 35 → ℕ) (c n : Dev nD) (hn : n = yp c)
    {hsc : (Ct 0 : Memref sig (Dev.tc n : Thread nD τ).2.kind .vmem S32x512 .f32).view.ref.isScScratch = false}
    {hsrc : (Tm : Memref sig .tc .vmem S32x512 .f32).view.WordExact} {hdst : (Ct 0 : Memref sig .tc .vmem S32x512 .f32).view.WordExact}
    {hsem : DmaTarget.Typed .vmem (yrS 0) (.remote (Dev.tc n : Thread nD τ) (Ct 0 : Memref sig .tc .vmem S32x512 .f32) (ysS 0) hsc)}
    {α : Type} {Q : α → sProp 𝕄} {k : PUnit → Prog (TpuEff nD τ sig (Elt F) Λ₀ .tc) α}
    (O : CellTallies nD τ sig Unit) (W : Waits sig Unit) :
    iprop(records m K ∗ owns (c : Thread nD τ) Tm fullShare (yVal m c 0) ∗ anyAt (F := F) (yp c) (Ct 0)
        ∗ owes (c : Thread nD τ) (O + tallyAt (yrC (yp c) 0) () NC) W
        ∗ dutyTok ER (ysC c 0) 0 false ∗ dutyTok ER (yrC (yp c) 0) 0 false)
      ⊢ iprop(((cred (tallyAt (ysC c 0) () NC) ∗ owes (c : Thread nD τ) O W) -∗ WP⟨c⟩ (k ⟨⟩) Q)
          -∗ WP⟨c⟩ (.op (.enqueueDma Tm (.remote (Dev.tc n : Thread nD τ) (Ct 0) (ysS 0) hsc) (yrS 0) hsrc hdst hsem) k) Q) := by
  subst hn
  exact wp_send_owns m K (by decide) (by decide) (amt_Ct 0)
    (amount_ys m c 0 false) (amount_yr m (yp c) 0 false)
    (by rw [payload_ys0]; unfold owns anyAt; iintro ⟨%f, -, H⟩; iexists f; iexact H)
    (by rw [payload_yr, yp_yp])

theorem wp_ysend (K : Dev nD × Fin 35 → ℕ) (c n : Dev nD) (hn : n = yp c) (r : Fin 8) (hr : r.val ≠ 0)
    {hsc : (Ct ⟨r.val, by omega⟩ : Memref sig (Dev.tc n : Thread nD τ).2.kind .vmem S32x512 .f32).view.ref.isScScratch = false}
    {hsrc : (srcY c r : Memref sig .tc .hbm S32x512 .f32).view.WordExact} {hdst : (Ct ⟨r.val, by omega⟩ : Memref sig .tc .vmem S32x512 .f32).view.WordExact}
    {hsem : DmaTarget.Typed .hbm (yrS ⟨r.val, by omega⟩) (.remote (Dev.tc n : Thread nD τ) (Ct ⟨r.val, by omega⟩ : Memref sig .tc .vmem S32x512 .f32) (ysS ⟨r.val, by omega⟩) hsc)}
    {α : Type} {Q : α → sProp 𝕄} {k : PUnit → Prog (TpuEff nD τ sig (Elt F) Λ₀ .tc) α}
    (q : PosShare TreeShare) (O : CellTallies nD τ sig Unit) (W : Waits sig Unit) :
    iprop(records m K ∗ ((srcY c r).view.loc (c : Thread nD τ) ↦[(srcY c r).view.set]{q} Pm m c) ∗ anyAt (F := F) (yp c) (Ct ⟨r.val, by omega⟩)
        ∗ owes (c : Thread nD τ) (O + tallyAt (yrC (yp c) ⟨r.val, by omega⟩) () NC) W
        ∗ dutyTok ER (ysC c ⟨r.val, by omega⟩) 0 false ∗ dutyTok ER (yrC (yp c) ⟨r.val, by omega⟩) 0 false)
      ⊢ iprop(((cred (tallyAt (ysC c ⟨r.val, by omega⟩) () NC) ∗ owes (c : Thread nD τ) O W) -∗ WP⟨c⟩ (k ⟨⟩) Q)
          -∗ WP⟨c⟩ (.op (.enqueueDma (srcY c r) (.remote (Dev.tc n : Thread nD τ) (Ct ⟨r.val, by omega⟩) (ysS ⟨r.val, by omega⟩) hsc) (yrS ⟨r.val, by omega⟩) hsrc hdst hsem) k) Q) := by
  subst hn
  have ht : (⟨r.val, by omega⟩ : Fin 9) ≠ 0 := fun e => hr (congrArg Fin.val e)
  exact (sep_mono_right (sep_mono_left (owns_intro _ _ q _))).trans
    (wp_send_owns m K (by omega) (by omega) (amt_Ct _)
      (amount_ys m c ⟨r.val, by omega⟩ false) (amount_yr m (yp c) ⟨r.val, by omega⟩ false)
      (by rw [payload_ys m c ⟨r.val, by omega⟩ false ht]; exact Laws.affine)
      (by rw [payload_yr m (yp c) ⟨r.val, by omega⟩ false, yp_yp, yVal, dif_pos r.isLt]))

theorem wp_ysend8 (K : Dev nD × Fin 35 → ℕ) (c n : Dev nD) (hn : n = yp c)
    {hsc : (Ct 8 : Memref sig (Dev.tc n : Thread nD τ).2.kind .vmem S32x512 .f32).view.ref.isScScratch = false}
    {hsrc : (srcY8 c : Memref sig .tc .hbm S32x512 .f32).view.WordExact} {hdst : (Ct 8 : Memref sig .tc .vmem S32x512 .f32).view.WordExact}
    {hsem : DmaTarget.Typed .hbm (yrS 8) (.remote (Dev.tc n : Thread nD τ) (Ct 8 : Memref sig .tc .vmem S32x512 .f32) (ysS 8) hsc)}
    {α : Type} {Q : α → sProp 𝕄} {k : PUnit → Prog (TpuEff nD τ sig (Elt F) Λ₀ .tc) α}
    (q : PosShare TreeShare) (O : CellTallies nD τ sig Unit) (W : Waits sig Unit) :
    iprop(records m K ∗ ((srcY8 c).view.loc (c : Thread nD τ) ↦[(srcY8 c).view.set]{q} Pm m c) ∗ anyAt (F := F) (yp c) (Ct 8)
        ∗ owes (c : Thread nD τ) (O + tallyAt (yrC (yp c) 8) () NC) W
        ∗ dutyTok ER (ysC c 8) 0 false ∗ dutyTok ER (yrC (yp c) 8) 0 false)
      ⊢ iprop(((cred (tallyAt (ysC c 8) () NC) ∗ owes (c : Thread nD τ) O W) -∗ WP⟨c⟩ (k ⟨⟩) Q)
          -∗ WP⟨c⟩ (.op (.enqueueDma (srcY8 c) (.remote (Dev.tc n : Thread nD τ) (Ct 8) (ysS 8) hsc) (yrS 8) hsrc hdst hsem) k) Q) := by
  subst hn
  exact (sep_mono_right (sep_mono_left (owns_intro _ _ q _))).trans
    (wp_send_owns m K (by decide) (by decide) (amt_Ct 8)
      (amount_ys m c 8 false) (amount_yr m (yp c) 8 false)
      (by rw [payload_ys m c 8 false (by decide)]; exact Laws.affine)
      (by rw [payload_yr m (yp c) 8 false, yp_yp, yVal, dif_neg (by decide)]))

theorem wp_xsend (K : Dev nD × Fin 35 → ℕ) (c n : Dev nD) (hn : n = xp c) (r : Fin 7)
    {hsc : (Ox c r : Memref sig (Dev.tc n : Thread nD τ).2.kind .vmem S32x512 .f32).view.ref.isScScratch = false}
    {hsrc : (Ox c r : Memref sig .tc .vmem S32x512 .f32).view.WordExact} {hdst : (Ox c r : Memref sig .tc .vmem S32x512 .f32).view.WordExact}
    {hsem : DmaTarget.Typed .vmem (xrS r) (.remote (Dev.tc n : Thread nD τ) (Ox c r : Memref sig .tc .vmem S32x512 .f32) (xsS r) hsc)}
    {α : Type} {Q : α → sProp 𝕄} {k : PUnit → Prog (TpuEff nD τ sig (Elt F) Λ₀ .tc) α}
    (O : CellTallies nD τ sig Unit) (W : Waits sig Unit) :
    iprop(records m K ∗ owns (c : Thread nD τ) (Ox c r) fullShare (tileOut m c ⟨r.val, by omega⟩) ∗ anyAt (F := F) (xp c) (Ox c r)
        ∗ owes (c : Thread nD τ) (O + tallyAt (xrC (xp c) r) () NO) W
        ∗ dutyTok ER (xsC c r) 0 false ∗ dutyTok ER (xrC (xp c) r) 0 false)
      ⊢ iprop(((cred (tallyAt (xsC c r) () NO) ∗ owes (c : Thread nD τ) O W) -∗ WP⟨c⟩ (k ⟨⟩) Q)
          -∗ WP⟨c⟩ (.op (.enqueueDma (Ox c r) (.remote (Dev.tc n : Thread nD τ) (Ox c r) (xsS r) hsc) (xrS r) hsrc hdst hsem) k) Q) := by
  subst hn
  exact wp_send_owns m K (by omega) (by omega) (amt_Ox c r)
    (amount_xs m c r false) (amount_xr m (xp c) r false)
    (by rw [payload_xs]) (by rw [payload_xr, xp_xp])

/-- info: 'Cert.Kernel.Proto.wp_xsend' depends on axioms: [propext, Classical.choice, Quot.sound] -/
#guard_msgs in #print axioms wp_xsend

end Cert.Kernel.Proto

end
-- ==== Proof.ProtoW.Body.lean ====
import proofs.«900599_g7700000000000600_dist_rsrms_v7x_xyz2x2x4_y_m512_d512_f32_1_alg».proof.Proof.ProtoW.Big
import proofs.«900599_g7700000000000600_dist_rsrms_v7x_xyz2x2x4_y_m512_d512_f32_1_alg».proof.Proof.ProtoW.Regions
import proofs.«900599_g7700000000000600_dist_rsrms_v7x_xyz2x2x4_y_m512_d512_f32_1_alg».proof.Proof.ProtoW.RulesA
import proofs.«900599_g7700000000000600_dist_rsrms_v7x_xyz2x2x4_y_m512_d512_f32_1_alg».proof.Proof.ProtoW.RulesB

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

abbrev t₀ : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 35 → ℕ) (c : Dev nD) : sProp 𝕄 :=
  iprop((ghost m K c ∗ launchCreds c ∗ levAts L lv ∗ (((c : Thread nD τ).loc main_arg0) ↦{fullShare} Pm m c) ∗ scratches c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (gVec m c) ∗ stg c cc0_stg1_0 (outAt m c))

theorem yEntry_eq (c : Dev nD) : yEntry (F := F) c = iprop(anyAt (F := F) (yp c) (Ct 0) ∗ anyAt (F := F) (yp c) (Ct 1) ∗ anyAt (F := F) (yp c) (Ct 2) ∗ anyAt (F := F) (yp c) (Ct 3) ∗ anyAt (F := F) (yp c) (Ct 4) ∗ anyAt (F := F) (yp c) (Ct 5) ∗ anyAt (F := F) (yp c) (Ct 6) ∗ anyAt (F := F) (yp c) (Ct 7) ∗ anyAt (F := F) (yp c) (Ct 8)) := by
  unfold yEntry; exact bigSep_fin9 _
theorem xEntry_eq (c : Dev nD) : xEntry (F := F) c = iprop(anyAt (F := F) (xp c) (Ox c 0) ∗ anyAt (F := F) (xp c) (Ox c 1) ∗ anyAt (F := F) (xp c) (Ox c 2) ∗ anyAt (F := F) (xp c) (Ox c 3) ∗ anyAt (F := F) (xp c) (Ox c 4) ∗ anyAt (F := F) (xp c) (Ox c 5) ∗ anyAt (F := F) (xp c) (Ox c 6)) := by
  unfold xEntry; exact bigSep_fin7 _

omit [FloatOps F] in
theorem owes_cast (c : Dev nD) {O O' : CellTallies nD τ sig Unit} (h : O = O') (W : Waits sig Unit) :
    (owes (c : Thread nD τ) O W : sProp 𝕄) ⊢ owes (c : Thread nD τ) O' W := by
  subst h; exact .rfl
omit [FloatOps F] in
theorem anyAt_Tm (c : Dev nD) : anyAt (F := F) c Tm
    = iprop(∃ f : Buf (Elt F) ((c : Thread nD τ).loc cc0_scratch2), ((c : Thread nD τ).loc cc0_scratch2) ↦{fullShare} f) := by
  unfold anyAt; simp only [Memref.view_whole, View.set_whole]

omit [FloatOps F] in
theorem owes_ex (c : Dev nD) (O : CellTallies nD τ sig Unit) (W : Waits sig Unit) :
    (owes (c : Thread nD τ) O W : sProp 𝕄) ⊢ iprop(∃ W', owes (c : Thread nD τ) O W') := by
  iintro H; iexists W; iexact H

set_option maxHeartbeats 8000000 in
set_option maxRecDepth 65536 in
/-- One device's body, a rule of the protocol at each step: what a rule consumes is framed, what it hands back is named. -/
theorem sound_body (K : Dev nD × Fin 35 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6 cc0_scratch7 cc0_scratch8) Kt := by
  simp only [cc0_body_eq_skeleton]; unfold cc0_body_skel
  simp only [k0_part1_eq_skeleton, k0_part2_eq_skeleton]
  unfold k0_part1_skel k0_part2_skel
  simp only [semSignalWord, semWaitWord, Prog.lift, Prog.bind_op, Prog.bind_ret, Prog.pure_eq_ret, wp_deviceId]
  unfold bodyPre ghost positions payToks launchCreds scratches
  simp only [bigSep_fin35, bigSep_fin9, bigSep_fin7]
  iintro ⟨⟨⟨⟨#Hrec, ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34⟩, HtLA, HtLB, HtT0, ⟨HtYS0, HtYS1, HtYS2, HtYS3, HtYS4, HtYS5, HtYS6, HtYS7, HtYS8⟩, ⟨HtXS0, HtXS1, HtXS2, HtXS3, HtXS4, HtXS5, HtXS6⟩, HtBy, HtBx, ⟨HtYR0, HtYR1, HtYR2, HtYR3, HtYR4, HtYR5, HtYR6, HtYR7, HtYR8⟩, ⟨HtXR0, HtXR1, HtXR2, HtXR3, HtXR4, HtXR5, HtXR6⟩⟩,
      ⟨HcB, ⟨HcYR0, HcYR1, HcYR2, HcYR3, HcYR4, HcYR5, HcYR6, HcYR7, HcYR8⟩, ⟨HcXR0, HcXR1, HcXR2, HcXR3, HcXR4, HcXR5, HcXR6⟩⟩, #Hlev, Harg, HL, HC, HT⟩,
    Ho, ⟨%d0, %g0, %hg0, Hg⟩, ⟨%d1, %g1, %hg1, Hout⟩⟩, Hk⟩
  unfold Dat.owesAt Pipeline.owesWithin
  icases Ho with ⟨%W, %hW, HO⟩
  rw [show (dats m 0 c).owed t₀.castSucc = O₀ c from rfl]
  have hx : g0 = gVec m c := by rw [hg0]; unfold Dat.before; rw [if_pos (fetch0_0 t₀)]; rfl
  subst hx
  ihave ⟨HLA, HLB, HLr⟩ := (splitL (F := F) c) $$ HL
  ihave ⟨HCt, HCr⟩ := (splitC (F := F) c) $$ HC
  ihave HOs := (splitO (F := F) c) $$ [Hout]
  · iexists g1; iexact Hout
  rw [bigSep_fin8]
  icases HOs with ⟨⟨HOo0, HOo1, HOo2, HOo3, HOo4, HOo5, HOo6, HOo7⟩, HOo8, HOi, HOr⟩
  ihave ⟨Hr0, Harg⟩ := (share_take (F := F) (q := fullShare) 0 1 rfl rfl (srcA c).view.set) $$ Harg
  ihave ⟨Hr1, Harg⟩ := (share_take (F := F) 1 2 rfl rfl (srcB c).view.set) $$ Harg
  ihave ⟨Hr2, Harg⟩ := (share_take (F := F) 2 3 rfl rfl (srcY c 0).view.set) $$ Harg
  ihave ⟨Hr3, Harg⟩ := (share_take (F := F) 3 4 rfl rfl (srcY c 1).view.set) $$ Harg
  ihave ⟨Hr4, Harg⟩ := (share_take (F := F) 4 5 rfl rfl (srcY c 2).view.set) $$ Harg
  ihave ⟨Hr5, Harg⟩ := (share_take (F := F) 5 6 rfl rfl (srcY c 3).view.set) $$ Harg
  ihave ⟨Hr6, Harg⟩ := (share_take (F := F) 6 7 rfl rfl (srcY c 4).view.set) $$ Harg
  ihave ⟨Hr7, Harg⟩ := (share_take (F := F) 7 8 rfl rfl (srcY c 5).view.set) $$ Harg
  ihave ⟨Hr8, Harg⟩ := (share_take (F := F) 8 9 rfl rfl (srcY c 6).view.set) $$ Harg
  ihave ⟨Hr9, Harg⟩ := (share_take (F := F) 9 10 rfl rfl (srcY c 7).view.set) $$ Harg
  ihave ⟨Hr10, Harg⟩ := (share_take (F := F) 10 11 rfl rfl (srcY8 c).view.set) $$ Harg
  iapply (wp_localA m K c (q := (sh 0).left) rfl) $$ [Hr0 HLA HtLA]
  · iframe # ∗
  iintro HcLA
  iapply (wp_localB m K c (q := (sh 1).left) rfl) $$ [Hr1 HLB HtLB]
  · iframe # ∗
  iintro HcLB
  iapply (wp_tile0 m K c (q := (sh 2).left) rfl) $$ [Hr2 HT HtT0]
  · rw [anyAt_Tm]; iframe # ∗
  iintro HcT0
  iapply (wp_sig_y m K c (n := (1#32 : BitVec 32).toNat) (by decide)) $$ [HO HtBy HCt]
  · iframe # ∗
  iintro HO
  iapply (wp_sig_x m K c (n := (1#32 : BitVec 32).toNat) (by decide)) $$ [HO HtBx HOi]
  · iframe # ∗
  iintro HO
  iapply (wp_wait_bar m K c (n := (2#32 : BitVec 32).toNat) (by decide)) $$ [HcB HO Hp0]
  · iframe # ∗; iexact Hp0
  iintro ⟨HO, Hp0, HyE, HxE⟩
  ihave HyE := (Entails.of_eq (yEntry_eq (F := F) c)) $$ HyE
  ihave HxE := (Entails.of_eq (xEntry_eq (F := F) c)) $$ HxE
  icases HyE with ⟨HD0, HD1, HD2, HD3, HD4, HD5, HD6, HD7, HD8⟩
  icases HxE with ⟨HE0, HE1, HE2, HE3, HE4, HE5, HE6⟩
  iapply (wp_wait_t0 m K c rfl) $$ [HcT0 HO Hp2]
  · iframe # ∗; iexact Hp2
  iintro ⟨HO, Hp2, HT⟩
  try simp only [k0_part3_eq_skeleton, k0_part4_eq_skeleton, k0_part5_eq_skeleton, k0_part6_eq_skeleton, k0_part7_eq_skeleton]
  try unfold k0_part3_skel k0_part4_skel k0_part5_skel k0_part6_skel k0_part7_skel
  try simp only [semSignalWord, semWaitWord, Prog.lift, Prog.bind_op, Prog.bind_ret, Prog.pure_eq_ret]
  iapply (wp_ysend0 m K c _ (dev3_eq c) (OYk c 1) _) $$ [HT HD0 HO HtYS0 HtYR0]
  · iframe # ∗; iexact HO
  iintro ⟨HcYS0, HO⟩
  iapply (wp_ysend m K c _ (dev4_eq c) 1 (by decide) (sh 3).left (OYk c 2) _) $$ [Hr3 HD1 HO HtYS1 HtYR1]
  · iframe # ∗; iexact HO
  iintro ⟨HcYS1, HO⟩
  iapply (wp_ysend m K c _ (dev5_eq c) 2 (by decide) (sh 4).left (OYk c 3) _) $$ [Hr4 HD2 HO HtYS2 HtYR2]
  · iframe # ∗; iexact HO
  iintro ⟨HcYS2, HO⟩
  iapply (wp_ysend m K c _ (dev6_eq c) 3 (by decide) (sh 5).left (OYk c 4) _) $$ [Hr5 HD3 HO HtYS3 HtYR3]
  · iframe # ∗; iexact HO
  iintro ⟨HcYS3, HO⟩
  iapply (wp_ysend m K c _ (dev7_eq c) 4 (by decide) (sh 6).left (OYk c 5) _) $$ [Hr6 HD4 HO HtYS4 HtYR4]
  · iframe # ∗; iexact HO
  iintro ⟨HcYS4, HO⟩
  iapply (wp_ysend m K c _ (dev8_eq c) 5 (by decide) (sh 7).left (OYk c 6) _) $$ [Hr7 HD5 HO HtYS5 HtYR5]
  · iframe # ∗; iexact HO
  iintro ⟨HcYS5, HO⟩
  iapply (wp_ysend m K c _ (dev9_eq c) 6 (by decide) (sh 8).left (OYk c 7) _) $$ [Hr8 HD6 HO HtYS6 HtYR6]
  · iframe # ∗; iexact HO
  iintro ⟨HcYS6, HO⟩
  iapply (wp_ysend m K c _ (dev10_eq c) 7 (by decide) (sh 9).left (OYk c 8) _) $$ [Hr9 HD7 HO HtYS7 HtYR7]
  · iframe # ∗; iexact HO
  iintro ⟨HcYS7, HO⟩
  iapply (wp_ysend8 m K c _ (dev11_eq c) (sh 10).left (OYk c 9) _) $$ [Hr10 HD8 HO HtYS8 HtYR8]
  · iframe # ∗; iexact HO
  iintro ⟨HcYS8, HO⟩
  iapply (wp_wait_loc2 m K c rfl rfl rfl) $$ [HcLA HcLB HO Hp1]
  · iframe # ∗; isplitl [HO]; iexact HO; iexact Hp1
  iintro ⟨HO, Hp1, HLA, HLB⟩
  iapply (wp_load_g m K c) $$ [Hg]
  · iexists _; isplitr; · (ipureintro; rfl)
    iexact Hg
  iintro Hg
  iapply (wp_wait_yr m K c 0 0 rfl) $$ [HcYR0 HO Hp12]
  · iframe # ∗; iexact Hp12
  iintro ⟨HO, Hp12, HC0⟩
  iapply (wp_load_local m K c 0 fullShare) $$ HLA
  iintro HLA
  iapply (wp_load_comm K c 0 fullShare (yVal m (yp c) 0)) $$ HC0
  iintro HC0
  try simp only [k0_part8_eq_skeleton]
  try unfold k0_part8_skel
  try simp only [semSignalWord, semWaitWord, Prog.lift, Prog.bind_op, Prog.bind_ret, Prog.pure_eq_ret]
  iapply (wp_out_tile K c 0 (tileOut m c 0)) $$ HOo0
  iintro HOo0
  ihave HOo0 := (owns_cast (F := F) c (Ox_eq_Oo c 0).symm fullShare (tileOut m c 0)) $$ HOo0
  iapply (wp_xsend m K c _ (dev12_eq c) 0 (OXk c 1) _) $$ [HOo0 HE0 HO HtXS0 HtXR0]
  · iframe # ∗; isplitl [HOo0]; iexact HOo0; iexact HO
  iintro ⟨HcXS0, HO⟩
  try simp only [k0_part9_eq_skeleton]
  try unfold k0_part9_skel
  try simp only [semSignalWord, semWaitWord, Prog.lift, Prog.bind_op, Prog.bind_ret, Prog.pure_eq_ret]
  iapply (wp_wait_yr m K c 1 1 rfl) $$ [HcYR1 HO Hp13]
  · iframe # ∗; iexact Hp13
  iintro ⟨HO, Hp13, HC1⟩
  iapply (wp_load_local m K c 1 fullShare) $$ HLA
  iintro HLA
  iapply (wp_load_comm K c 1 fullShare (yVal m (yp c) 1)) $$ HC1
  iintro HC1
  iapply (wp_out_tile K c 1 (tileOut m c 1)) $$ HOo1
  iintro HOo1
  ihave HOo1 := (owns_cast (F := F) c (Ox_eq_Oo c 1).symm fullShare (tileOut m c 1)) $$ HOo1
  iapply (wp_xsend m K c _ (dev13_eq c) 1 (OXk c 2) _) $$ [HOo1 HE1 HO HtXS1 HtXR1]
  · iframe # ∗; isplitl [HOo1]; iexact HOo1; iexact HO
  iintro ⟨HcXS1, HO⟩
  try simp only [k0_part10_eq_skeleton]
  try unfold k0_part10_skel
  try simp only [semSignalWord, semWaitWord, Prog.lift, Prog.bind_op, Prog.bind_ret, Prog.pure_eq_ret]
  iapply (wp_wait_yr m K c 2 2 rfl) $$ [HcYR2 HO Hp14]
  · iframe # ∗; iexact Hp14
  iintro ⟨HO, Hp14, HC2⟩
  iapply (wp_load_local m K c 2 fullShare) $$ HLA
  iintro HLA
  iapply (wp_load_comm K c 2 fullShare (yVal m (yp c) 2)) $$ HC2
  iintro HC2
  iapply (wp_out_tile K c 2 (tileOut m c 2)) $$ HOo2
  iintro HOo2
  ihave HOo2 := (owns_cast (F := F) c (Ox_eq_Oo c 2).symm fullShare (tileOut m c 2)) $$ HOo2
  try simp only [k0_part11_eq_skeleton]
  try unfold k0_part11_skel
  try simp only [semSignalWord, semWaitWord, Prog.lift, Prog.bind_op, Prog.bind_ret, Prog.pure_eq_ret]
  iapply (wp_xsend m K c _ (dev14_eq c) 2 (OXk c 3) _) $$ [HOo2 HE2 HO HtXS2 HtXR2]
  · iframe # ∗; isplitl [HOo2]; iexact HOo2; iexact HO
  iintro ⟨HcXS2, HO⟩
  iapply (wp_wait_yr m K c 3 3 rfl) $$ [HcYR3 HO Hp15]
  · iframe # ∗; iexact Hp15
  iintro ⟨HO, Hp15, HC3⟩
  iapply (wp_load_local m K c 3 fullShare) $$ HLA
  iintro HLA
  iapply (wp_load_comm K c 3 fullShare (yVal m (yp c) 3)) $$ HC3
  iintro HC3
  try simp only [k0_part12_eq_skeleton]
  try unfold k0_part12_skel
  try simp only [semSignalWord, semWaitWord, Prog.lift, Prog.bind_op, Prog.bind_ret, Prog.pure_eq_ret]
  iapply (wp_out_tile K c 3 (tileOut m c 3)) $$ HOo3
  iintro HOo3
  ihave HOo3 := (owns_cast (F := F) c (Ox_eq_Oo c 3).symm fullShare (tileOut m c 3)) $$ HOo3
  iapply (wp_xsend m K c _ (dev15_eq c) 3 (OXk c 4) _) $$ [HOo3 HE3 HO HtXS3 HtXR3]
  · iframe # ∗; isplitl [HOo3]; iexact HOo3; iexact HO
  iintro ⟨HcXS3, HO⟩
  try simp only [k0_part13_eq_skeleton]
  try unfold k0_part13_skel
  try simp only [semSignalWord, semWaitWord, Prog.lift, Prog.bind_op, Prog.bind_ret, Prog.pure_eq_ret]
  iapply (wp_wait_yr m K c 4 4 rfl) $$ [HcYR4 HO Hp16]
  · iframe # ∗; iexact Hp16
  iintro ⟨HO, Hp16, HC4⟩
  iapply (wp_load_local m K c 4 fullShare) $$ HLA
  iintro HLA
  iapply (wp_load_comm K c 4 fullShare (yVal m (yp c) 4)) $$ HC4
  iintro HC4
  iapply (wp_out_tile K c 4 (tileOut m c 4)) $$ HOo4
  iintro HOo4
  ihave HOo4 := (owns_cast (F := F) c (Ox_eq_Oo c 4).symm fullShare (tileOut m c 4)) $$ HOo4
  iapply (wp_xsend m K c _ (dev16_eq c) 4 (OXk c 5) _) $$ [HOo4 HE4 HO HtXS4 HtXR4]
  · iframe # ∗; isplitl [HOo4]; iexact HOo4; iexact HO
  iintro ⟨HcXS4, HO⟩
  try simp only [k0_part14_eq_skeleton]
  try unfold k0_part14_skel
  try simp only [semSignalWord, semWaitWord, Prog.lift, Prog.bind_op, Prog.bind_ret, Prog.pure_eq_ret]
  iapply (wp_wait_yr m K c 5 5 rfl) $$ [HcYR5 HO Hp17]
  · iframe # ∗; iexact Hp17
  iintro ⟨HO, Hp17, HC5⟩
  iapply (wp_load_local m K c 5 fullShare) $$ HLA
  iintro HLA
  iapply (wp_load_comm K c 5 fullShare (yVal m (yp c) 5)) $$ HC5
  iintro HC5
  iapply (wp_out_tile K c 5 (tileOut m c 5)) $$ HOo5
  iintro HOo5
  ihave HOo5 := (owns_cast (F := F) c (Ox_eq_Oo c 5).symm fullShare (tileOut m c 5)) $$ HOo5
  try simp only [k0_part15_eq_skeleton]
  try unfold k0_part15_skel
  try simp only [semSignalWord, semWaitWord, Prog.lift, Prog.bind_op, Prog.bind_ret, Prog.pure_eq_ret]
  iapply (wp_xsend m K c _ (dev17_eq c) 5 (OXk c 6) _) $$ [HOo5 HE5 HO HtXS5 HtXR5]
  · iframe # ∗; isplitl [HOo5]; iexact HOo5; iexact HO
  iintro ⟨HcXS5, HO⟩
  iapply (wp_wait_yr m K c 6 6 rfl) $$ [HcYR6 HO Hp18]
  · iframe # ∗; iexact Hp18
  iintro ⟨HO, Hp18, HC6⟩
  iapply (wp_load_local m K c 6 fullShare) $$ HLA
  iintro HLA
  iapply (wp_load_comm K c 6 fullShare (yVal m (yp c) 6)) $$ HC6
  iintro HC6
  iapply (wp_out_tile K c 6 (tileOut m c 6)) $$ HOo6
  iintro HOo6
  try simp only [k0_part16_eq_skeleton]
  try unfold k0_part16_skel
  try simp only [semSignalWord, semWaitWord, Prog.lift, Prog.bind_op, Prog.bind_ret, Prog.pure_eq_ret]
  ihave HOo6 := (owns_cast (F := F) c (Ox_eq_Oo c 6).symm fullShare (tileOut m c 6)) $$ HOo6
  ihave HO := (owes_cast (F := F) c (OXk_peel6 c) _) $$ HO
  iapply (wp_xsend m K c _ (dev18_eq c) 6 (OXk c 7) _) $$ [HOo6 HE6 HO HtXS6 HtXR6]
  · iframe # ∗; iexact HOo6
  iintro ⟨HcXS6, HO⟩
  iapply (wp_wait_yr m K c 7 7 rfl) $$ [HcYR7 HO Hp19]
  · iframe # ∗; iexact Hp19
  iintro ⟨HO, Hp19, HC7⟩
  iapply (wp_load_local m K c 7 fullShare) $$ HLA
  iintro HLA
  iapply (wp_load_comm K c 7 fullShare (yVal m (yp c) 7)) $$ HC7
  iintro HC7
  iapply (wp_out_tile K c 7 (tileOut m c 7)) $$ HOo7
  iintro HOo7
  try simp only [k0_part17_eq_skeleton]
  try unfold k0_part17_skel
  try simp only [semSignalWord, semWaitWord, Prog.lift, Prog.bind_op, Prog.bind_ret, Prog.pure_eq_ret]
  iapply (wp_wait_yr m K c 8 7 rfl) $$ [HcYR8 HO Hp20]
  · iframe # ∗; iexact Hp20
  iintro ⟨HO, Hp20, HC8⟩
  iapply (wp_load_local8 m K c fullShare) $$ HLB
  iintro HLB
  iapply (wp_load_comm K c 8 fullShare (yVal m (yp c) 8)) $$ HC8
  iintro HC8
  iapply (wp_out_tile8 K c (tileOut m c 8)) $$ HOo8
  iintro HOo8
  ihave HO := (owes_cast (F := F) c (OXk_seven c) _) $$ HO
  iapply (wp_wait_ys m K c 0 rfl) $$ [HcYS0 HO Hp3]
  · iframe # ∗; iexact Hp3
  iintro ⟨HO, Hp3, HT⟩
  ihave HT := (Entails.of_eq (payload_ys0 m c false)) $$ HT
  try simp only [k0_part18_eq_skeleton, k0_part19_eq_skeleton]
  try unfold k0_part18_skel k0_part19_skel
  try simp only [semSignalWord, semWaitWord, Prog.lift, Prog.bind_op, Prog.bind_ret, Prog.pure_eq_ret]
  iapply (wp_wait_ys m K c 1 rfl) $$ [HcYS1 HO Hp4]
  · iframe # ∗; iexact Hp4
  iintro ⟨HO, Hp4, -⟩
  iapply (wp_wait_ys m K c 2 rfl) $$ [HcYS2 HO Hp5]
  · iframe # ∗; iexact Hp5
  iintro ⟨HO, Hp5, -⟩
  iapply (wp_wait_ys m K c 3 rfl) $$ [HcYS3 HO Hp6]
  · iframe # ∗; iexact Hp6
  iintro ⟨HO, Hp6, -⟩
  iapply (wp_wait_ys m K c 4 rfl) $$ [HcYS4 HO Hp7]
  · iframe # ∗; iexact Hp7
  iintro ⟨HO, Hp7, -⟩
  iapply (wp_wait_ys m K c 5 rfl) $$ [HcYS5 HO Hp8]
  · iframe # ∗; iexact Hp8
  iintro ⟨HO, Hp8, -⟩
  iapply (wp_wait_ys m K c 6 rfl) $$ [HcYS6 HO Hp9]
  · iframe # ∗; iexact Hp9
  iintro ⟨HO, Hp9, -⟩
  iapply (wp_wait_ys m K c 7 rfl) $$ [HcYS7 HO Hp10]
  · iframe # ∗; iexact Hp10
  iintro ⟨HO, Hp10, -⟩
  try simp only [k0_part20_eq_skeleton]
  try unfold k0_part20_skel
  try simp only [semSignalWord, semWaitWord, Prog.lift, Prog.bind_op, Prog.bind_ret, Prog.pure_eq_ret]
  iapply (wp_wait_ys m K c 8 rfl) $$ [HcYS8 HO Hp11]
  · iframe # ∗; iexact Hp11
  iintro ⟨HO, Hp11, -⟩
  iapply (wp_wait_xs m K c 0 rfl) $$ [HcXS0 HO Hp21]
  · iframe # ∗; iexact Hp21
  iintro ⟨HO, Hp21, HOo0⟩
  iapply (wp_wait_xr m K c 0 rfl) $$ [HcXR0 HO Hp28]
  · iframe # ∗; iexact Hp28
  iintro ⟨HO, Hp28, HOi0⟩
  iapply (wp_wait_xs m K c 1 rfl) $$ [HcXS1 HO Hp22]
  · iframe # ∗; iexact Hp22
  iintro ⟨HO, Hp22, HOo1⟩
  try simp only [k0_part21_eq_skeleton]
  try unfold k0_part21_skel
  try simp only [semSignalWord, semWaitWord, Prog.lift, Prog.bind_op, Prog.bind_ret, Prog.pure_eq_ret]
  iapply (wp_wait_xr m K c 1 rfl) $$ [HcXR1 HO Hp29]
  · iframe # ∗; iexact Hp29
  iintro ⟨HO, Hp29, HOi1⟩
  iapply (wp_wait_xs m K c 2 rfl) $$ [HcXS2 HO Hp23]
  · iframe # ∗; iexact Hp23
  iintro ⟨HO, Hp23, HOo2⟩
  iapply (wp_wait_xr m K c 2 rfl) $$ [HcXR2 HO Hp30]
  · iframe # ∗; iexact Hp30
  iintro ⟨HO, Hp30, HOi2⟩
  iapply (wp_wait_xs m K c 3 rfl) $$ [HcXS3 HO Hp24]
  · iframe # ∗; iexact Hp24
  iintro ⟨HO, Hp24, HOo3⟩
  try simp only [k0_part22_eq_skeleton]
  try unfold k0_part22_skel
  try simp only [semSignalWord, semWaitWord, Prog.lift, Prog.bind_op, Prog.bind_ret, Prog.pure_eq_ret]
  iapply (wp_wait_xr m K c 3 rfl) $$ [HcXR3 HO Hp31]
  · iframe # ∗; iexact Hp31
  iintro ⟨HO, Hp31, HOi3⟩
  iapply (wp_wait_xs m K c 4 rfl) $$ [HcXS4 HO Hp25]
  · iframe # ∗; iexact Hp25
  iintro ⟨HO, Hp25, HOo4⟩
  iapply (wp_wait_xr m K c 4 rfl) $$ [HcXR4 HO Hp32]
  · iframe # ∗; iexact Hp32
  iintro ⟨HO, Hp32, HOi4⟩
  iapply (wp_wait_xs m K c 5 rfl) $$ [HcXS5 HO Hp26]
  · iframe # ∗; iexact Hp26
  iintro ⟨HO, Hp26, HOo5⟩
  iapply (wp_wait_xr m K c 5 rfl) $$ [HcXR5 HO Hp33]
  · iframe # ∗; iexact Hp33
  iintro ⟨HO, Hp33, HOi5⟩
  iapply (wp_wait_xs m K c 6 rfl) $$ [HcXS6 HO Hp27]
  · iframe # ∗; iexact Hp27
  iintro ⟨HO, Hp27, HOo6⟩
  iapply (wp_wait_xr m K c 6 rfl) $$ [HcXR6 HO Hp34]
  · iframe # ∗; iexact Hp34
  iintro ⟨HO, Hp34, HOi6⟩
  imod (close_own m K c 0) $$ [Hp1] with Hz0
  · iframe #; iexact Hp1
  imod (close_own m K c 1) $$ [Hp2] with Hz1
  · iframe #; iexact Hp2
  imod (close_own m K c 2) $$ [Hp3] with Hz2
  · iframe #; iexact Hp3
  imod (close_own m K c 3) $$ [Hp4] with Hz3
  · iframe #; iexact Hp4
  imod (close_own m K c 4) $$ [Hp5] with Hz4
  · iframe #; iexact Hp5
  imod (close_own m K c 5) $$ [Hp6] with Hz5
  · iframe #; iexact Hp6
  imod (close_own m K c 6) $$ [Hp7] with Hz6
  · iframe #; iexact Hp7
  imod (close_own m K c 7) $$ [Hp8] with Hz7
  · iframe #; iexact Hp8
  imod (close_own m K c 8) $$ [Hp9] with Hz8
  · iframe #; iexact Hp9
  imod (close_own m K c 9) $$ [Hp10] with Hz9
  · iframe #; iexact Hp10
  imod (close_own m K c 10) $$ [Hp11] with Hz10
  · iframe #; iexact Hp11
  imod (close_own m K c 11) $$ [Hp12] with Hz11
  · iframe #; iexact Hp12
  imod (close_own m K c 12) $$ [Hp13] with Hz12
  · iframe #; iexact Hp13
  imod (close_own m K c 13) $$ [Hp14] with Hz13
  · iframe #; iexact Hp14
  imod (close_own m K c 14) $$ [Hp15] with Hz14
  · iframe #; iexact Hp15
  imod (close_own m K c 15) $$ [Hp16] with Hz15
  · iframe #; iexact Hp16
  imod (close_own m K c 16) $$ [Hp17] with Hz16
  · iframe #; iexact Hp17
  imod (close_own m K c 17) $$ [Hp18] with Hz17
  · iframe #; iexact Hp18
  imod (close_own m K c 18) $$ [Hp19] with Hz18
  · iframe #; iexact Hp19
  imod (close_own m K c 19) $$ [Hp20] with Hz19
  · iframe #; iexact Hp20
  imod (close_own m K c 20) $$ [Hp21] with Hz20
  · iframe #; iexact Hp21
  imod (close_own m K c 21) $$ [Hp22] with Hz21
  · iframe #; iexact Hp22
  imod (close_own m K c 22) $$ [Hp23] with Hz22
  · iframe #; iexact Hp23
  imod (close_own m K c 23) $$ [Hp24] with Hz23
  · iframe #; iexact Hp24
  imod (close_own m K c 24) $$ [Hp25] with Hz24
  · iframe #; iexact Hp25
  imod (close_own m K c 25) $$ [Hp26] with Hz25
  · iframe #; iexact Hp26
  imod (close_own m K c 26) $$ [Hp27] with Hz26
  · iframe #; iexact Hp27
  imod (close_own m K c 27) $$ [Hp28] with Hz27
  · iframe #; iexact Hp28
  imod (close_own m K c 28) $$ [Hp29] with Hz28
  · iframe #; iexact Hp29
  imod (close_own m K c 29) $$ [Hp30] with Hz29
  · iframe #; iexact Hp30
  imod (close_own m K c 30) $$ [Hp31] with Hz30
  · iframe #; iexact Hp31
  imod (close_own m K c 31) $$ [Hp32] with Hz31
  · iframe #; iexact Hp32
  imod (close_own m K c 32) $$ [Hp33] with Hz32
  · iframe #; iexact Hp33
  imod (close_own m K c 33) $$ [Hp34] with Hz33
  · iframe #; iexact Hp34
  ihave HLj := (joinL (F := F) c) $$ [HLA HLB HLr]
  · isplitl [HLA]; · (iapply (anyAt_of_owns (F := F) c LA _); iexact HLA)
    isplitl [HLB]; · (iapply (anyAt_of_owns (F := F) c LB _); iexact HLB)
    iexact HLr
  ihave HCj := (joinC (F := F) c) $$ [HC0 HC1 HC2 HC3 HC4 HC5 HC6 HC7 HC8 HCr]
  · isplitr [HCr]
    · rw [bigSep_fin9]
      isplitl [HC0]; · (iapply (anyAt_of_owns (F := F) c (Ct 0) _); iexact HC0)
      isplitl [HC1]; · (iapply (anyAt_of_owns (F := F) c (Ct 1) _); iexact HC1)
      isplitl [HC2]; · (iapply (anyAt_of_owns (F := F) c (Ct 2) _); iexact HC2)
      isplitl [HC3]; · (iapply (anyAt_of_owns (F := F) c (Ct 3) _); iexact HC3)
      isplitl [HC4]; · (iapply (anyAt_of_owns (F := F) c (Ct 4) _); iexact HC4)
      isplitl [HC5]; · (iapply (anyAt_of_owns (F := F) c (Ct 5) _); iexact HC5)
      isplitl [HC6]; · (iapply (anyAt_of_owns (F := F) c (Ct 6) _); iexact HC6)
      isplitl [HC7]; · (iapply (anyAt_of_owns (F := F) c (Ct 7) _); iexact HC7)
      (iapply (anyAt_of_owns (F := F) c (Ct 8) _); iexact HC8)
    · iexact HCr
  ihave HOo0 := (owns_cast (F := F) c (Ox_eq_Oo c 0) fullShare _) $$ HOo0
  ihave HOo1 := (owns_cast (F := F) c (Ox_eq_Oo c 1) fullShare _) $$ HOo1
  ihave HOo2 := (owns_cast (F := F) c (Ox_eq_Oo c 2) fullShare _) $$ HOo2
  ihave HOo3 := (owns_cast (F := F) c (Ox_eq_Oo c 3) fullShare _) $$ HOo3
  ihave HOo4 := (owns_cast (F := F) c (Ox_eq_Oo c 4) fullShare _) $$ HOo4
  ihave HOo5 := (owns_cast (F := F) c (Ox_eq_Oo c 5) fullShare _) $$ HOo5
  ihave HOo6 := (owns_cast (F := F) c (Ox_eq_Oo c 6) fullShare _) $$ HOo6
  ihave HOj := (joinO (F := F) m c) $$ [HOo0 HOo1 HOo2 HOo3 HOo4 HOo5 HOo6 HOo7 HOo8 HOi0 HOi1 HOi2 HOi3 HOi4 HOi5 HOi6 HOr]
  · rw [bigSep_fin8, bigSep_fin7]; iframe
    isplitl [HOo0]; iexact HOo0; isplitl [HOo1]; iexact HOo1; isplitl [HOo2]; iexact HOo2; isplitl [HOo3]; iexact HOo3; isplitl [HOo4]; iexact HOo4; isplitl [HOo5]; iexact HOo5; isplitl [HOo6]; iexact HOo6; iexact HOo7
  ihave HO := (owes_ex (F := F) c 0 _) $$ HO
  icases HO with ⟨%Wf, HO⟩
  rw [wp_ret]
  imodintro
  iapply Hk
  unfold bodyPost Φ₁ scratches Dat.owesAt Pipeline.owesWithin
  rw [show (dats m 0 c).owed t₀.succ = 0 from rfl, bigSep_fin34]
  ihave HT := (Entails.of_eq (anyAt_Tm (F := F) c)) $$ HT
  iframe
  isplitl [HO]
  · iexists Wf; iframe; ipureintro; exact fun _ _ => Or.inl trivial
  iexists _; iframe; ipureintro; rfl

/-- info: 'Cert.Kernel.Proto.sound_body' depends on axioms: [propext, Classical.choice, Quot.sound] -/
#guard_msgs in #print axioms sound_body

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxHeartbeats 4000000 in
set_option maxRecDepth 65536 in
/-- The body obligation the launch theorem asks for, on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole main_arg0) (Memref.isWhole_whole _) (Memref.whole cc0_stg0_0) (Memref.isWhole_whole _) (Memref.whole cc0_stg1_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 cc0_scratch7 cc0_scratch8) (fun _ => bodyPost m c)
  unfold bodyPre' Φ₀ start
  iintro ⟨⟨⟨⟨%K, Hgh⟩, Hcr, Hlev, Harg⟩, Hscr⟩, Ho, Hx, Hout⟩
  iapply (sound_body m K c fun _ => bodyPost m c)
  unfold bodyPre
  iframe
  iintro H; iexact H

/-- info: 'Cert.Kernel.Proto.body_obligation' depends on axioms: [propext, Classical.choice, Quot.sound] -/
#guard_msgs in #print axioms body_obligation

end Cert.Kernel.Proto

end
-- ==== Proof.ProtoW.Launch.lean ====
import proofs.«900599_g7700000000000600_dist_rsrms_v7x_xyz2x2x4_y_m512_d512_f32_1_alg».proof.Proof.ProtoW.Tables

noncomputable section

namespace Cert.Kernel.Proto

open Cert.Kernel Cert.Kernel.Gen
open Idealize.ShloMosaic Idealize.ShloMosaic.TcCoe
open Idealize.SL Idealize.SL.BI
open scoped Idealize.SL.BI
open Idealize.SL.BI.BIBase Idealize.SL.BI.Laws Idealize.SL.ProofMode
open Idealize.ShloMosaic.Rounds Finset
open Idealize.ShloMosaic.Pipeline (Dat BodyObligation)

variable {F : FTy → Type} [FloatOps F]
local notation "𝕄" => MT nD τ sig Unit (Elt F) ℕ UU ℕ
variable (m : (ℓ : Loc nD τ sig) → Buf (Elt F) ℓ)

theorem bigSep_fin7L (Φ : Fin 7 → sProp 𝕄) : bigSep univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9L (Φ : Fin 9 → sProp 𝕄) : bigSep univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

def ourCells : Finset (GSem nD τ sig) := univ.map ⟨kcell, fun _ _ h =>
  Prod.ext (congrArg (·.1.1) h) ((by decide +kernel : Function.Injective (csem : Fin 35 → SemLoc sig)) (congrArg Prod.snd h))⟩

-- A duty token is named by its payer and its kind (kinds in the order the payer holds them): the map from payer to the cell's owner, the semaphore, the duty.
abbrev TokIx₂ : Type := Fin 1 ⊕ Fin 1 ⊕ Fin 9 ⊕ Fin 7
instance : DecidableEq TokIx₂ := inferInstance
abbrev TokIx : Type := Fin 1 ⊕ Fin 1 ⊕ Fin 1 ⊕ Fin 9 ⊕ Fin 7 ⊕ TokIx₂
def tokSpec : TokIx → (Dev nD → Dev nD) × SemLoc sig × Bool :=
  Sum.elim (fun _ => (id, locS, false)) <| Sum.elim (fun _ => (id, locS, true)) <| Sum.elim (fun _ => (id, t0S, false)) <|
  Sum.elim (fun t => (id, ysS t, false)) <| Sum.elim (fun r => (id, xsS r, false)) <| Sum.elim (fun _ => (yp, .reg barS, false)) <|
  Sum.elim (fun _ => (xp, .reg barS, true)) <| Sum.elim (fun t => (yp, yrS t, false)) fun r => (xp, xrS r, false)
def tokOf (cj : Dev nD × TokIx) : GSem nD τ sig × ℕ × Bool := (cell ((tokSpec cj.2).1 cj.1) (tokSpec cj.2).2.1, 0, (tokSpec cj.2).2.2)
def ourToks : Finset (GSem nD τ sig × ℕ × Bool) := univ.map ⟨tokOf, by
  rintro ⟨c, j⟩ ⟨c', j'⟩ h
  obtain rfl := (by decide : Function.Injective fun j : TokIx => (tokSpec j).2) (Prod.ext (congrArg (·.1.2) h) (congrArg (·.2.2) h))
  have hi : ∀ (j : TokIx) (c : Dev nD), (tokSpec j).1 ((tokSpec j).1 c) = c := by decide +kernel
  rw [← hi j c, show (tokSpec j).1 c = (tokSpec j).1 c' from congrArg (·.1.1.1) h, hi]⟩

-- Summing over the kinds, one summand per kind, is what the payer holds.
theorem payToks_eq (c : Dev nD) :
    (payToks c : sProp 𝕄) = bigSep univ fun j : TokIx => dutyTok ER (tokOf (c, j)).1 (tokOf (c, j)).2.1 (tokOf (c, j)).2.2 := by
  simp only [bigSep_univ_sum, bigSep_univ_of_subsingleton (0 : Fin 1)]; rfl

def G (c : Dev nD) : sProp 𝕄 :=
  iprop((bigSep univ fun k : Fin 35 => iprop(roundState ER (sched m) (kcell (c, k)) 0 ∗ reached ER (kcell (c, k)) 0))
    ∗ positions c ∗ payToks c)
def G' (c : Dev nD) : sProp 𝕄 := iprop(∃ K, ghost m K c)

theorem fund_all : BI.own (ER (initOf ourCells ourToks)) ⊢ (|==> bigSep univ (G m) : sProp 𝕄) := by
  refine (Rounds.fund ER (sched m) ourCells ourToks).trans (BI.bupd_mono ?_)
  unfold ourCells ourToks G positions
  simp only [bigSep_map, bigSep_univ_prod, bigSep_sep', payToks_eq]
  exact sep_assoc'

-- The 35 counters of a device are the barrier's and the 34 others, all at zero.
theorem sems0 (c : Dev nD) :
    (iprop(Pipeline.ownSems0 osem c ∗ unscopedSems0 c) : sProp 𝕄) ⊢ bigSep univ fun k : Fin 35 => semVal (kcell (c, k)) 0 := by
  rw [show (unscopedSems0 c : sProp 𝕄) = semVal (barC c) 0 from bigSep_eq_bigSepL_of_eq [SemLoc.reg barS] (by decide) (by decide) _,
    Fin.univ_succ, Finset.cons_eq_insert, bigSep_insert (by simp), bigSep_map]
  exact sep_comm.1

def heldAt (κ : ℕ) (g : GSem nD τ sig) : sProp 𝕄 := iprop(cellInv ER (sched m) κ g ∗ reached ER g 0)

theorem cell_alloc (g : GSem nD τ sig) :
    iprop(semVal g 0 ∗ roundState ER (sched m) g 0 ∗ reached ER g 0) ⊢ (|={Set.univ}=> ∃ κ : ℕ, heldAt m κ g : sProp 𝕄) := by
  iintro ⟨Hv, Hst, Hr⟩
  imod (inv_alloc (P := Rounds.body ER (sched m) g)) $$ [Hv Hst] with ⟨%κ, Hi⟩
  · iapply (Rounds.body_intro ER (sched m) g); iframe
  imodintro; iexists κ; unfold heldAt; iframe

theorem bigSep_fupd_mono {I : Type} [Fintype I] {Φ Ψ : I → sProp 𝕄} (h : ∀ i, Φ i ⊢ |={Set.univ}=> Ψ i) :
    bigSep univ Φ ⊢ |={Set.univ}=> bigSep univ Ψ :=
  (bigSep_mono fun i _ => h i).trans (bigSep_fupd _ _)

instance (K : Dev nD × Fin 35 → ℕ) : BI.Persistent (records m K) := by unfold records; infer_instance

theorem core_alloc (c : Dev nD) :
    iprop(Pipeline.ownSems0 osem c ∗ unscopedSems0 c ∗ G m c) ⊢ |={Set.univ}=> iprop((bigSep univ fun k : Fin 35 => iprop(∃ κ : ℕ, heldAt m κ (kcell (c, k)))) ∗ positions c ∗ payToks c) := by
  unfold G
  iintro ⟨Hos, Hus, Hst, HR⟩
  imod (bigSep_fupd_mono fun k => cell_alloc m (kcell (c, k))) $$ [Hos Hus Hst] with Hi
  · iapply (Entails.of_eq (bigSep_sep' _ _ _).symm); iframe; iapply (sems0 c); iframe
  imodintro; iframe

-- Every cell's invariant is allocated in one update, so that each device's ghost state can name all of them.
theorem glob : (bigSep univ fun c => iprop(Pipeline.ownSems0 osem c ∗ unscopedSems0 c ∗ G m c) : sProp 𝕄)
    ⊢ |={Set.univ}=> bigSep univ (G' m) := by
  refine (bigSep_fupd_mono (core_alloc m)).trans (BI.fupd_mono ?_)
  rw [bigSep_sep', ← bigSep_univ_prod fun ck : Dev nD × Fin 35 => iprop(∃ κ : ℕ, heldAt m κ (kcell ck))]
  iintro ⟨HI, HR⟩
  icases (BI.bigSep_exists_pi _ _) $$ HI with ⟨%K, HI⟩
  iapply (bigSep_with_persistent (R := records m K) fun c _ => exists_intro (Φ := fun K => ghost m K c) K)
  iframe
  unfold records; iapply (Entails.of_eq (bigSep_sep' _ _ _)); unfold heldAt; iexact HI

-- A due every device owes its partner's cell is, at launch, a credit on one's own cell: the partner map is an involution.
instance : Fact (∀ c, yp (yp c) = c) := ⟨yp_yp⟩
instance : Fact (∀ c, xp (xp c) = c) := ⟨xp_xp⟩
theorem cred_step {O : Dev nD → CellTallies nD τ sig Unit} {sm : SemLoc sig} {f : Dev nD → Dev nD} [hf : Fact (∀ c, f (f c) = c)] {n : ℕ} {c : Dev nD}
    {R : sProp 𝕄} (h : (Pipeline.launchCred O c : sProp 𝕄) ⊢ R) :
    (Pipeline.launchCred (fun d => O d + tallyAt (cell (f d) sm) () n) c : sProp 𝕄) ⊢ iprop(cred (tallyAt (cell c sm) () n) ∗ R) := by
  rw [Pipeline.launchCred_add]; exact (BIClass.sep_mono h (Pipeline.launchCred_tallyAt _ _ _ hf.out hf.out _ _ _)).trans sep_symm

theorem creds (c : Dev nD) : (Pipeline.launchCred O₀ c : sProp 𝕄) ⊢ launchCreds c := by
  apply BIBase.Entails.trans
  · iterate 17 apply cred_step
    exact Pipeline.launchCred_tallyAt _ _ _ xp_xp xp_xp _ _ _
  unfold launchCreds
  rw [bigSep_fin9L, bigSep_fin7L, ← tallyAt_add (barC c) () 1 1]
  iintro ⟨BY, BX, Y0, Y1, Y2, Y3, Y4, Y5, Y6, Y7, Y8, X0, X1, X2, X3, X4, X5, X6⟩
  isplitl [BX BY]; · iapply (cred_add _ _).2; iframe
  iframe

-- Whatever is owed at launch sits on a TensorCore's cell of level at least 1, above every staging cell.
theorem O₀_lv {c : Dev nD} {g : GSem nD τ sig} {u : Unit} (h : 0 < O₀ c g u) : u ∈ L g ∧ 0 < lv g u := by
  unfold O₀ O₁ OY at h
  repeat' (rcases Pipeline.add_pos_cases h with h | h)
  all_goals (obtain ⟨rfl, rfl⟩ := Pipeline.tallyAt_pos h; exact ⟨Finset.mem_singleton_self _, Nat.zero_lt_succ _⟩)

theorem waits (c : Dev nD) : (levAts L lv : sProp 𝕄) ⊢ Pipeline.cellsWaits cfgs (dats m) () 0 c :=
  Pipeline.cellsWaits_intro cfgs (dats m) () 0 c fun w s t => by
    rcases t with ⟨_ | _, _⟩
    · refine Pipeline.mayWait_of_levAts (Finset.mem_singleton_self _) fun g i hg => ⟨(O₀_lv hg).1, ?_⟩
      fin_cases w <;> fin_cases s <;> exact (O₀_lv hg).2
    · show _ ⊢ MayWait _ _ _ 0
      rw [MayWait_zero]; iintro -; iempintro

section
attribute [local irreducible] outAt in
-- The one write-back covers the whole output array.
theorem arrAt_out (c : Dev nD) : (dats m 0 c).arrAt 1 cfg0.N = outAt m c := by
  refine ((dats m 0 c).arrAt_succ 1 t0_0).trans ?_
  rw [if_pos (flush0_1 t0_0)]
  refine Eq.trans (Memref.write_access_unit_zero_univ (Elt F) main_v1 ?_ _ _ _) ?_
  · funext a; fin_cases a <;> rfl
  · show (cfg0.win 1).cut _ (outAt m c) = outAt m c
    generalize outAt m c = X
    rfl
end

theorem run_out (ρ : Dev nD → PrngReg) (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ (by decide +kernel : Pipeline.OwnSemFacts cfg0.spec osem) (Pipeline.PreFacts.none _) EP defs₀ 𝒱₀ m ρ main
    (hmain := fun _ => rfl)
    (hbody := hbody) (hne := block_pos0) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := fun _ h => if_neg h) (hwaits := waits m)
    (G := G m) (G' := G' m) (u₀ := (initOf (Pipeline.cells cfgs cellOf_inj) (Pipeline.launchToks cfgs cellOf_inj), initOf ourCells ourToks))
    (hu₀ := by
      iintro Hu
      icases (ownU_pair _ _) $$ Hu with ⟨HP, HX⟩
      imod (fund_all m) $$ HX with HG
      imodintro; iframe)
    (hglob := glob m)
    (hA := fun _ _ => rfl) (hpf := fun _ k => k.elim0)
    (X := start m) (Y := fun c => iprop(((c : Thread nD τ).loc main_arg0) ↦{sh 11} Pm m c)) (Z := fun _ => iprop(emp))
    (hX := fun c => by
      rw [Pipeline.unscopedRestP_none, unscopedRest0_eq]
      iintro ⟨Hx, Hlev, Hcr, -, HG⟩
      ihave Hc := (creds c) $$ Hcr
      imodintro; unfold start G'; iframe)
    (hin := fun c => by
      show _ ⊢ Φ₀ m c; rw [scopedRest0_eq]
      unfold Φ₀ scratches
      iintro ⟨Hs, -, Hr⟩; iframe)
    (hout := fun c => by
      show Φ₁ m c ⊢ _; rw [scopedRest0_eq]
      unfold Φ₁ scratches Pipeline.ownSems0
      iintro ⟨Hx, Hr, Hz⟩; iframe)
    (QY := fun c s => s.mem ((c : Thread nD τ).loc main_arg0) = m ((c : Thread nD τ).loc main_arg0))
    (hY := fun c s' => by
      iintro ⟨Hx, -, HSI⟩
      icombine HSI Hx gives %hx
      imodintro; iframe; ipureintro; exact Buf.eq_of_forall_mem_univ hx)
    (hQ := fun _ h c => ⟨((h c).1 1).trans (arrAt_out m c), (h c).2.2, ((h c).1 0).trans ((dats m 0 c).arrAt_in 0 rfl _)⟩)

/-- info: 'Cert.Kernel.Proto.run_out' depends on axioms: [propext, Classical.choice, Quot.sound] -/
#guard_msgs in #print axioms run_out

end Cert.Kernel.Proto

end
-- ==== Proof.Ref.Gen.lean ====
import proofs.«900599_g7700000000000600_dist_rsrms_v7x_xyz2x2x4_y_m512_d512_f32_1_alg».proof.Proof.Gen.ReferenceIdeal.Run
import proofs.«900599_g7700000000000600_dist_rsrms_v7x_xyz2x2x4_y_m512_d512_f32_1_alg».proof.Proof.Gen.ReferenceIdeal.Read
-- ==== Proof.Ref.Laws.lean ====
import proofs.«900599_g7700000000000600_dist_rsrms_v7x_xyz2x2x4_y_m512_d512_f32_1_alg».proof.Proof.Ref.Spec

noncomputable section

namespace Cert.Spec

open Idealize.ShloMosaic Idealize.ShloMosaic.ValueIdx
open scoped BigOperators

theorem ofBits_512 : Ideal.ofBits .f32 0x44000000#32 = ((512 : ℝ) : EReal) := by
  simp [Ideal.ofBits, Ideal.ieee, -EReal.coe_mul]; norm_num

theorem eps_pos : (0 : EReal) < Ideal.ofBits .f32 0x358637BD#32 := by
  simp [Ideal.ofBits, Ideal.ieee, -EReal.coe_mul]

/-- Each summand is a square, so not below zero even at the infinities, and the constant is above zero. -/
theorem rowMeanSq_pos (P : (⟨3, ![2, 1024, 512]⟩ : Shape).Idx → EReal) (r : Fin 1024) : 0 < rowMeanSq P r := by
  unfold rowMeanSq
  rw [ofBits_512, Ideal.div_coe (by norm_num : (512 : ℝ) ≠ 0)]
  exact eps_pos.trans_le (le_add_of_nonneg_left (EReal.mul_nonneg (Finset.sum_nonneg fun k _ =>
    EReal.mul_nonneg_iff.mpr ((le_total 0 _).imp (fun h => ⟨h, h⟩) fun h => ⟨h, h⟩)) (EReal.coe_nonneg.mpr (by norm_num))))

/-- By cases on the extended real: the bottom is excluded, at the top both sides vanish, at a real both divide by one root. -/
theorem div_sqrt_eq_mul_rsqrt (y v : EReal) (hv : 0 < v) : Ideal.div y (Ideal.sqrt v) = y * Ideal.rsqrt v := by
  induction v using EReal.rec with
  | bot => exact absurd hv not_lt_bot
  | top => rw [Ideal.sqrt_top, Ideal.rsqrt_top, Ideal.div, if_neg EReal.top_ne_zero, EReal.inv_top]
  | coe r =>
    have hr : 0 < r := EReal.coe_pos.mp hv
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div, if_neg (by exact_mod_cast hs), EReal.coe_inv]

end Cert.Spec

end
-- ==== Proof.Ref.RefValue.lean ====
import proofs.«900599_g7700000000000600_dist_rsrms_v7x_xyz2x2x4_y_m512_d512_f32_1_alg».proof.Defs
import proofs.«900599_g7700000000000600_dist_rsrms_v7x_xyz2x2x4_y_m512_d512_f32_1_alg».proof.Proof.Gen.Pre_finite_inputs_ReferenceIdeal
import proofs.«900599_g7700000000000600_dist_rsrms_v7x_xyz2x2x4_y_m512_d512_f32_1_alg».proof.Proof.Ref.Gen
import proofs.«900599_g7700000000000600_dist_rsrms_v7x_xyz2x2x4_y_m512_d512_f32_1_alg».proof.Proof.Ref.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open scoped BigOperators

theorem idx_stack (r : Fin 1024) (j : Fin 512) (k : Fin 2) : idx_main_v0 (ix2 r j) k = ix3 k r j := by
  funext a; match a with | ⟨0, _⟩ => rfl | ⟨1, _⟩ => rfl | ⟨2, _⟩ => rfl

theorem idx_col (r : Fin 1024) (j : Fin 512) : idx_main_v9 (ix2 r j) = ix2 r (0 : Fin 1) := by
  funext a; match a with | ⟨0, _⟩ => rfl | ⟨1, _⟩ => rfl

theorem idx_row (r : Fin 1024) (k : Fin 512) : idx_main_v2 (idx_main_v3 (ix2 r (0 : Fin 1))) k = ix2 r k := by
  funext a; match a with | ⟨0, _⟩ => rfl | ⟨1, _⟩ => rfl

theorem idx_gamma (r : Fin 1024) (j : Fin 512) : idx_main_v11 (idx_main_v12 (ix2 r j)) = ix1 j := by
  funext a; match a with | ⟨0, _⟩ => rfl

/-- The reduction over the two stacked blocks starts from the word of zero, which adds nothing. -/
theorem sum_at (x0 : (⟨S2x1024x512, .f32⟩ : BufTy).Contents (Elt Ideal)) (r : Fin 1024) (j : Fin 512) :
    val_main_v0 (F := Ideal) x0 (ix2 r j) = Spec.rowSum x0 r j := by
  rw [val_main_v0_apply, val_main_cst_apply, Fin.sum_univ_two, idx_stack, idx_stack]
  show Ideal.ofBits .f32 0x00000000#32 + _ = _
  rw [Ideal.ofBits_zero_f32, zero_add]
  rfl

/-- Stage by stage, the term under the root is the specification's mean square. -/
theorem meansq_at (x0 : (⟨S2x1024x512, .f32⟩ : BufTy).Contents (Elt Ideal)) (r : Fin 1024) :
    val_main_v7 (F := Ideal) x0 (ix2 r (0 : Fin 1)) = Spec.rowMeanSq x0 r := by
  rw [val_main_v7_apply, val_main_v5_apply, val_main_v3_apply, val_main_v2_apply, val_main_v4_apply, val_main_v6_apply,
    val_main_cst_0_apply, val_main_cst_1_apply, val_main_cst_2_apply]
  simp only [idx_row, val_main_v1_apply, sum_at, Ideal.mulf_def, Ideal.addf_def, Ideal.hostDivf_def, Ideal.ofBits_def,
    Ideal.ofBits_zero_f32, zero_add]
  rfl

/-- Dividing by the root is multiplying by the reciprocal root, because the mean square plus the constant is above zero. -/
theorem ref_is_spec (x0 : (⟨S2x1024x512, .f32⟩ : BufTy).Contents (Elt Ideal)) (x1 : (⟨S512, .f32⟩ : BufTy).Contents (Elt Ideal)) :
    val_main_v13 (F := Ideal) x0 x1 = Spec.out x0 x1 := by
  funext i
  obtain ⟨r, j, rfl⟩ : ∃ (r : Fin 1024) (j : Fin 512), i = ix2 r j := ⟨i 0, i 1, eq_ix2 i⟩
  rw [val_main_v13_apply, val_main_v10_apply, val_main_v12_apply, val_main_v11_apply, val_main_v9_apply,
    val_main_v8_apply, idx_col, meansq_at, sum_at, idx_gamma, Ideal.mulf_def, Ideal.hostDivf_def, Ideal.hostUnary_sqrt_def]
  show Ideal.div (Spec.rowSum x0 r j) (Ideal.sqrt (Spec.rowMeanSq x0 r)) * x1 (ix1 j) = _
  rw [Spec.div_sqrt_eq_mul_rsqrt _ _ (Spec.rowMeanSq_pos x0 r)]
  rfl

def refOut (m' : (ℓ : Loc nD τ sig) → Buf (Elt Ideal) ℓ) :
    Buf (Elt Ideal) (((0 : Dev nD).tc : Thread nD τ).loc main_v13) :=
  Spec.out (m' (((0 : Dev nD).tc : Thread nD τ).loc main_arg0)) (m' (((0 : Dev nD).tc : Thread nD τ).loc main_arg1))

theorem run_ref (m' : (ℓ : Loc nD τ sig) → Buf (Elt Ideal) ℓ) (g' : Dev nD → PrngReg) :
    θ_run (Cert.ReferenceIdeal.defs (F := Ideal)) (onTc (τ := τ) (Cert.ReferenceIdeal.main (F := Ideal))) ⟨m', fun _ => 0, g'⟩ (fun r =>
      r.2.mem (((0 : Dev nD).tc : Thread nD τ).loc main_v13) = refOut m'
      ∧ r.2.mem (((0 : Dev nD).tc : Thread nD τ).loc main_arg0) = m' (((0 : Dev nD).tc : Thread nD τ).loc main_arg0)
      ∧ r.2.mem (((0 : Dev nD).tc : Thread nD τ).loc main_arg1) = m' (((0 : Dev nD).tc : Thread nD τ).loc main_arg1)) :=
  (θ_run Cert.ReferenceIdeal.defs _ _).mono
    (fun _ h => ⟨(h 0).1.trans ((val_main_v13_eq _ _).trans (ref_is_spec _ _)), (h 0).2⟩)
    (Cert.ReferenceIdeal.Value.run (F := Ideal) m' g')

theorem frame_ref : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end

/-- info: 'Cert.ReferenceIdeal.RefValue.run_ref' depends on axioms: [propext, Classical.choice, Quot.sound] -/
#guard_msgs in #print axioms Cert.ReferenceIdeal.RefValue.run_ref
-- ==== Proof.lean ====
import proofs.«900599_g7700000000000600_dist_rsrms_v7x_xyz2x2x4_y_m512_d512_f32_1_alg».proof.Defs
import proofs.«900599_g7700000000000600_dist_rsrms_v7x_xyz2x2x4_y_m512_d512_f32_1_alg».proof.Proof.Gen.Pre_finite_inputs_Kernel
import proofs.«900599_g7700000000000600_dist_rsrms_v7x_xyz2x2x4_y_m512_d512_f32_1_alg».proof.Proof.Gen.Pre_finite_inputs_ReferenceIdeal
import proofs.«900599_g7700000000000600_dist_rsrms_v7x_xyz2x2x4_y_m512_d512_f32_1_alg».proof.Proof.Proto.Body
import proofs.«900599_g7700000000000600_dist_rsrms_v7x_xyz2x2x4_y_m512_d512_f32_1_alg».proof.Proof.Proto.Launch
import proofs.«900599_g7700000000000600_dist_rsrms_v7x_xyz2x2x4_y_m512_d512_f32_1_alg».proof.Proof.Proto.OutValue
import proofs.«900599_g7700000000000600_dist_rsrms_v7x_xyz2x2x4_y_m512_d512_f32_1_alg».proof.Proof.ProtoW.Body
import proofs.«900599_g7700000000000600_dist_rsrms_v7x_xyz2x2x4_y_m512_d512_f32_1_alg».proof.Proof.ProtoW.Launch
import proofs.«900599_g7700000000000600_dist_rsrms_v7x_xyz2x2x4_y_m512_d512_f32_1_alg».proof.Proof.Ref.RefValue
import Idealize.ShloMosaic.Adequacy
import Idealize.ShloMosaic.Init

noncomputable section

namespace Cert.Proof

open Idealize.ShloMosaic Idealize.SL.Sem

/-- Each frame is the program's run with the result's value dropped. -/
theorem frame_k : Cert.frame_Kernel := fun m g _ =>
  (θ_run Cert.Kernel.defs _ _).mono (fun _ h c => ⟨(h c).2.1, (h c).2.2⟩)
    (Cert.Kernel.Proto.run_out m g (Cert.Kernel.Proto.body_obligation m))

theorem frame_ki : Cert.frame_KernelIdeal := fun m g _ =>
  (θ_run Cert.KernelIdeal.defs _ _).mono (fun _ h c => ⟨(h c).2.1, (h c).2.2⟩)
    (Cert.KernelIdeal.Proto.run_out m g (Cert.KernelIdeal.Proto.body_obligation m))

/-- Each device's result buffer ends at its block of the reference's formula over the whole arrays its blocks are cut from. -/
theorem algebraic : Cert.algebraic_KernelIdeal_ReferenceIdeal := fun m g m' g' _ hagree =>
  ⟨Cert.ReferenceIdeal.RefValue.refOut m',
    (θ_run Cert.KernelIdeal.defs _ _).mono
      (fun _ h c => ⟨(h c).1.trans (Cert.KernelIdeal.Proto.outAt_eq_block m _ _ (fun d => (hagree d).1) (fun d => (hagree d).2) c),
        (h c).2.1, (h c).2.2⟩)
      (Cert.KernelIdeal.Proto.run_out m g (Cert.KernelIdeal.Proto.body_obligation m)),
    Cert.ReferenceIdeal.RefValue.run_ref m' g'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_k, frame_ki, Cert.ReferenceIdeal.RefValue.frame_ref, trivial, algebraic⟩

end Cert.Proof

end
